-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31)) (m ((c.tc : Thread Cert.Kernel.nD Cert.Kernel.τ).loc Cert.Kernel.main_arg32)) (m ((c.tc : Thread Cert.Kernel.nD Cert.Kernel.τ).loc Cert.Kernel.main_arg33)) (m ((c.tc : Thread Cert.Kernel.nD Cert.Kernel.τ).loc Cert.Kernel.main_arg34)) (m ((c.tc : Thread Cert.Kernel.nD Cert.Kernel.τ).loc Cert.Kernel.main_arg35)) (m ((c.tc : Thread Cert.Kernel.nD Cert.Kernel.τ).loc Cert.Kernel.main_arg36)) (m ((c.tc : Thread Cert.Kernel.nD Cert.Kernel.τ).loc Cert.Kernel.main_arg37)) (m ((c.tc : Thread Cert.Kernel.nD Cert.Kernel.τ).loc Cert.Kernel.main_arg38)) (m ((c.tc : Thread Cert.Kernel.nD Cert.Kernel.τ).loc Cert.Kernel.main_arg39)) (m ((c.tc : Thread Cert.Kernel.nD Cert.Kernel.τ).loc Cert.Kernel.main_arg40)) (m ((c.tc : Thread Cert.Kernel.nD Cert.Kernel.τ).loc Cert.Kernel.main_arg41))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32)) (m ((c.tc : Thread Cert.KernelIdeal.nD Cert.KernelIdeal.τ).loc Cert.KernelIdeal.main_arg33)) (m ((c.tc : Thread Cert.KernelIdeal.nD Cert.KernelIdeal.τ).loc Cert.KernelIdeal.main_arg34)) (m ((c.tc : Thread Cert.KernelIdeal.nD Cert.KernelIdeal.τ).loc Cert.KernelIdeal.main_arg35)) (m ((c.tc : Thread Cert.KernelIdeal.nD Cert.KernelIdeal.τ).loc Cert.KernelIdeal.main_arg36)) (m ((c.tc : Thread Cert.KernelIdeal.nD Cert.KernelIdeal.τ).loc Cert.KernelIdeal.main_arg37)) (m ((c.tc : Thread Cert.KernelIdeal.nD Cert.KernelIdeal.τ).loc Cert.KernelIdeal.main_arg38)) (m ((c.tc : Thread Cert.KernelIdeal.nD Cert.KernelIdeal.τ).loc Cert.KernelIdeal.main_arg39)) (m ((c.tc : Thread Cert.KernelIdeal.nD Cert.KernelIdeal.τ).loc Cert.KernelIdeal.main_arg40)) (m ((c.tc : Thread Cert.KernelIdeal.nD Cert.KernelIdeal.τ).loc Cert.KernelIdeal.main_arg41))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31)) (m ((c.tc : Thread Cert.ReferenceIdeal.nD Cert.ReferenceIdeal.τ).loc Cert.ReferenceIdeal.main_arg32)) (m ((c.tc : Thread Cert.ReferenceIdeal.nD Cert.ReferenceIdeal.τ).loc Cert.ReferenceIdeal.main_arg33)) (m ((c.tc : Thread Cert.ReferenceIdeal.nD Cert.ReferenceIdeal.τ).loc Cert.ReferenceIdeal.main_arg34)) (m ((c.tc : Thread Cert.ReferenceIdeal.nD Cert.ReferenceIdeal.τ).loc Cert.ReferenceIdeal.main_arg35)) (m ((c.tc : Thread Cert.ReferenceIdeal.nD Cert.ReferenceIdeal.τ).loc Cert.ReferenceIdeal.main_arg36)) (m ((c.tc : Thread Cert.ReferenceIdeal.nD Cert.ReferenceIdeal.τ).loc Cert.ReferenceIdeal.main_arg37)) (m ((c.tc : Thread Cert.ReferenceIdeal.nD Cert.ReferenceIdeal.τ).loc Cert.ReferenceIdeal.main_arg38)) (m ((c.tc : Thread Cert.ReferenceIdeal.nD Cert.ReferenceIdeal.τ).loc Cert.ReferenceIdeal.main_arg39)) (m ((c.tc : Thread Cert.ReferenceIdeal.nD Cert.ReferenceIdeal.τ).loc Cert.ReferenceIdeal.main_arg40)) (m ((c.tc : Thread Cert.ReferenceIdeal.nD Cert.ReferenceIdeal.τ).loc Cert.ReferenceIdeal.main_arg41))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31)
      ∧ r.2.mem ((c.tc : Thread Cert.Kernel.nD Cert.Kernel.τ).loc Cert.Kernel.main_arg32) = m ((c.tc : Thread Cert.Kernel.nD Cert.Kernel.τ).loc Cert.Kernel.main_arg32)
      ∧ r.2.mem ((c.tc : Thread Cert.Kernel.nD Cert.Kernel.τ).loc Cert.Kernel.main_arg33) = m ((c.tc : Thread Cert.Kernel.nD Cert.Kernel.τ).loc Cert.Kernel.main_arg33)
      ∧ r.2.mem ((c.tc : Thread Cert.Kernel.nD Cert.Kernel.τ).loc Cert.Kernel.main_arg34) = m ((c.tc : Thread Cert.Kernel.nD Cert.Kernel.τ).loc Cert.Kernel.main_arg34)
      ∧ r.2.mem ((c.tc : Thread Cert.Kernel.nD Cert.Kernel.τ).loc Cert.Kernel.main_arg35) = m ((c.tc : Thread Cert.Kernel.nD Cert.Kernel.τ).loc Cert.Kernel.main_arg35)
      ∧ r.2.mem ((c.tc : Thread Cert.Kernel.nD Cert.Kernel.τ).loc Cert.Kernel.main_arg36) = m ((c.tc : Thread Cert.Kernel.nD Cert.Kernel.τ).loc Cert.Kernel.main_arg36)
      ∧ r.2.mem ((c.tc : Thread Cert.Kernel.nD Cert.Kernel.τ).loc Cert.Kernel.main_arg37) = m ((c.tc : Thread Cert.Kernel.nD Cert.Kernel.τ).loc Cert.Kernel.main_arg37)
      ∧ r.2.mem ((c.tc : Thread Cert.Kernel.nD Cert.Kernel.τ).loc Cert.Kernel.main_arg38) = m ((c.tc : Thread Cert.Kernel.nD Cert.Kernel.τ).loc Cert.Kernel.main_arg38)
      ∧ r.2.mem ((c.tc : Thread Cert.Kernel.nD Cert.Kernel.τ).loc Cert.Kernel.main_arg39) = m ((c.tc : Thread Cert.Kernel.nD Cert.Kernel.τ).loc Cert.Kernel.main_arg39)
      ∧ r.2.mem ((c.tc : Thread Cert.Kernel.nD Cert.Kernel.τ).loc Cert.Kernel.main_arg40) = m ((c.tc : Thread Cert.Kernel.nD Cert.Kernel.τ).loc Cert.Kernel.main_arg40)
      ∧ r.2.mem ((c.tc : Thread Cert.Kernel.nD Cert.Kernel.τ).loc Cert.Kernel.main_arg41) = m ((c.tc : Thread Cert.Kernel.nD Cert.Kernel.τ).loc Cert.Kernel.main_arg41))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
      ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
      ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
      ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35)
      ∧ r.2.mem ((c.tc : Thread Cert.KernelIdeal.nD Cert.KernelIdeal.τ).loc Cert.KernelIdeal.main_arg36) = m ((c.tc : Thread Cert.KernelIdeal.nD Cert.KernelIdeal.τ).loc Cert.KernelIdeal.main_arg36)
      ∧ r.2.mem ((c.tc : Thread Cert.KernelIdeal.nD Cert.KernelIdeal.τ).loc Cert.KernelIdeal.main_arg37) = m ((c.tc : Thread Cert.KernelIdeal.nD Cert.KernelIdeal.τ).loc Cert.KernelIdeal.main_arg37)
      ∧ r.2.mem ((c.tc : Thread Cert.KernelIdeal.nD Cert.KernelIdeal.τ).loc Cert.KernelIdeal.main_arg38) = m ((c.tc : Thread Cert.KernelIdeal.nD Cert.KernelIdeal.τ).loc Cert.KernelIdeal.main_arg38)
      ∧ r.2.mem ((c.tc : Thread Cert.KernelIdeal.nD Cert.KernelIdeal.τ).loc Cert.KernelIdeal.main_arg39) = m ((c.tc : Thread Cert.KernelIdeal.nD Cert.KernelIdeal.τ).loc Cert.KernelIdeal.main_arg39)
      ∧ r.2.mem ((c.tc : Thread Cert.KernelIdeal.nD Cert.KernelIdeal.τ).loc Cert.KernelIdeal.main_arg40) = m ((c.tc : Thread Cert.KernelIdeal.nD Cert.KernelIdeal.τ).loc Cert.KernelIdeal.main_arg40)
      ∧ r.2.mem ((c.tc : Thread Cert.KernelIdeal.nD Cert.KernelIdeal.τ).loc Cert.KernelIdeal.main_arg41) = m ((c.tc : Thread Cert.KernelIdeal.nD Cert.KernelIdeal.τ).loc Cert.KernelIdeal.main_arg41))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32)
      ∧ r.2.mem ((c.tc : Thread Cert.ReferenceIdeal.nD Cert.ReferenceIdeal.τ).loc Cert.ReferenceIdeal.main_arg33) = m ((c.tc : Thread Cert.ReferenceIdeal.nD Cert.ReferenceIdeal.τ).loc Cert.ReferenceIdeal.main_arg33)
      ∧ r.2.mem ((c.tc : Thread Cert.ReferenceIdeal.nD Cert.ReferenceIdeal.τ).loc Cert.ReferenceIdeal.main_arg34) = m ((c.tc : Thread Cert.ReferenceIdeal.nD Cert.ReferenceIdeal.τ).loc Cert.ReferenceIdeal.main_arg34)
      ∧ r.2.mem ((c.tc : Thread Cert.ReferenceIdeal.nD Cert.ReferenceIdeal.τ).loc Cert.ReferenceIdeal.main_arg35) = m ((c.tc : Thread Cert.ReferenceIdeal.nD Cert.ReferenceIdeal.τ).loc Cert.ReferenceIdeal.main_arg35)
      ∧ r.2.mem ((c.tc : Thread Cert.ReferenceIdeal.nD Cert.ReferenceIdeal.τ).loc Cert.ReferenceIdeal.main_arg36) = m ((c.tc : Thread Cert.ReferenceIdeal.nD Cert.ReferenceIdeal.τ).loc Cert.ReferenceIdeal.main_arg36)
      ∧ r.2.mem ((c.tc : Thread Cert.ReferenceIdeal.nD Cert.ReferenceIdeal.τ).loc Cert.ReferenceIdeal.main_arg37) = m ((c.tc : Thread Cert.ReferenceIdeal.nD Cert.ReferenceIdeal.τ).loc Cert.ReferenceIdeal.main_arg37)
      ∧ r.2.mem ((c.tc : Thread Cert.ReferenceIdeal.nD Cert.ReferenceIdeal.τ).loc Cert.ReferenceIdeal.main_arg38) = m ((c.tc : Thread Cert.ReferenceIdeal.nD Cert.ReferenceIdeal.τ).loc Cert.ReferenceIdeal.main_arg38)
      ∧ r.2.mem ((c.tc : Thread Cert.ReferenceIdeal.nD Cert.ReferenceIdeal.τ).loc Cert.ReferenceIdeal.main_arg39) = m ((c.tc : Thread Cert.ReferenceIdeal.nD Cert.ReferenceIdeal.τ).loc Cert.ReferenceIdeal.main_arg39)
      ∧ r.2.mem ((c.tc : Thread Cert.ReferenceIdeal.nD Cert.ReferenceIdeal.τ).loc Cert.ReferenceIdeal.main_arg40) = m ((c.tc : Thread Cert.ReferenceIdeal.nD Cert.ReferenceIdeal.τ).loc Cert.ReferenceIdeal.main_arg40)
      ∧ r.2.mem ((c.tc : Thread Cert.ReferenceIdeal.nD Cert.ReferenceIdeal.τ).loc Cert.ReferenceIdeal.main_arg41) = m ((c.tc : Thread Cert.ReferenceIdeal.nD Cert.ReferenceIdeal.τ).loc Cert.ReferenceIdeal.main_arg41))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)
      ∧ m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33)
      ∧ m' ((c.tc : Thread Cert.ReferenceIdeal.nD Cert.ReferenceIdeal.τ).loc Cert.ReferenceIdeal.main_arg34) = m ((c.tc : Thread Cert.KernelIdeal.nD Cert.KernelIdeal.τ).loc Cert.KernelIdeal.main_arg34)
      ∧ m' ((c.tc : Thread Cert.ReferenceIdeal.nD Cert.ReferenceIdeal.τ).loc Cert.ReferenceIdeal.main_arg35) = m ((c.tc : Thread Cert.KernelIdeal.nD Cert.KernelIdeal.τ).loc Cert.KernelIdeal.main_arg35)
      ∧ m' ((c.tc : Thread Cert.ReferenceIdeal.nD Cert.ReferenceIdeal.τ).loc Cert.ReferenceIdeal.main_arg36) = m ((c.tc : Thread Cert.KernelIdeal.nD Cert.KernelIdeal.τ).loc Cert.KernelIdeal.main_arg36)
      ∧ m' ((c.tc : Thread Cert.ReferenceIdeal.nD Cert.ReferenceIdeal.τ).loc Cert.ReferenceIdeal.main_arg37) = m ((c.tc : Thread Cert.KernelIdeal.nD Cert.KernelIdeal.τ).loc Cert.KernelIdeal.main_arg37)
      ∧ m' ((c.tc : Thread Cert.ReferenceIdeal.nD Cert.ReferenceIdeal.τ).loc Cert.ReferenceIdeal.main_arg38) = m ((c.tc : Thread Cert.KernelIdeal.nD Cert.KernelIdeal.τ).loc Cert.KernelIdeal.main_arg38)
      ∧ m' ((c.tc : Thread Cert.ReferenceIdeal.nD Cert.ReferenceIdeal.τ).loc Cert.ReferenceIdeal.main_arg39) = m ((c.tc : Thread Cert.KernelIdeal.nD Cert.KernelIdeal.τ).loc Cert.KernelIdeal.main_arg39)
      ∧ m' ((c.tc : Thread Cert.ReferenceIdeal.nD Cert.ReferenceIdeal.τ).loc Cert.ReferenceIdeal.main_arg40) = m ((c.tc : Thread Cert.KernelIdeal.nD Cert.KernelIdeal.τ).loc Cert.KernelIdeal.main_arg40)
      ∧ m' ((c.tc : Thread Cert.ReferenceIdeal.nD Cert.ReferenceIdeal.τ).loc Cert.ReferenceIdeal.main_arg41) = m ((c.tc : Thread Cert.KernelIdeal.nD Cert.KernelIdeal.τ).loc Cert.KernelIdeal.main_arg41)) →
    ∃ (v0 : (c : Dev Cert.KernelIdeal.nD) → Buf (Elt Ideal) ((c.tc : Thread Cert.KernelIdeal.nD Cert.KernelIdeal.τ).loc Cert.KernelIdeal.main_v186)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v186) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
          ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
          ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
          ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
          ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35)
          ∧ r.2.mem ((c.tc : Thread Cert.KernelIdeal.nD Cert.KernelIdeal.τ).loc Cert.KernelIdeal.main_arg36) = m ((c.tc : Thread Cert.KernelIdeal.nD Cert.KernelIdeal.τ).loc Cert.KernelIdeal.main_arg36)
          ∧ r.2.mem ((c.tc : Thread Cert.KernelIdeal.nD Cert.KernelIdeal.τ).loc Cert.KernelIdeal.main_arg37) = m ((c.tc : Thread Cert.KernelIdeal.nD Cert.KernelIdeal.τ).loc Cert.KernelIdeal.main_arg37)
          ∧ r.2.mem ((c.tc : Thread Cert.KernelIdeal.nD Cert.KernelIdeal.τ).loc Cert.KernelIdeal.main_arg38) = m ((c.tc : Thread Cert.KernelIdeal.nD Cert.KernelIdeal.τ).loc Cert.KernelIdeal.main_arg38)
          ∧ r.2.mem ((c.tc : Thread Cert.KernelIdeal.nD Cert.KernelIdeal.τ).loc Cert.KernelIdeal.main_arg39) = m ((c.tc : Thread Cert.KernelIdeal.nD Cert.KernelIdeal.τ).loc Cert.KernelIdeal.main_arg39)
          ∧ r.2.mem ((c.tc : Thread Cert.KernelIdeal.nD Cert.KernelIdeal.τ).loc Cert.KernelIdeal.main_arg40) = m ((c.tc : Thread Cert.KernelIdeal.nD Cert.KernelIdeal.τ).loc Cert.KernelIdeal.main_arg40)
          ∧ r.2.mem ((c.tc : Thread Cert.KernelIdeal.nD Cert.KernelIdeal.τ).loc Cert.KernelIdeal.main_arg41) = m ((c.tc : Thread Cert.KernelIdeal.nD Cert.KernelIdeal.τ).loc Cert.KernelIdeal.main_arg41))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v288) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31)
          ∧ r.2.mem ((c.tc : Thread Cert.ReferenceIdeal.nD Cert.ReferenceIdeal.τ).loc Cert.ReferenceIdeal.main_arg32) = m' ((c.tc : Thread Cert.ReferenceIdeal.nD Cert.ReferenceIdeal.τ).loc Cert.ReferenceIdeal.main_arg32)
          ∧ r.2.mem ((c.tc : Thread Cert.ReferenceIdeal.nD Cert.ReferenceIdeal.τ).loc Cert.ReferenceIdeal.main_arg33) = m' ((c.tc : Thread Cert.ReferenceIdeal.nD Cert.ReferenceIdeal.τ).loc Cert.ReferenceIdeal.main_arg33)
          ∧ r.2.mem ((c.tc : Thread Cert.ReferenceIdeal.nD Cert.ReferenceIdeal.τ).loc Cert.ReferenceIdeal.main_arg34) = m' ((c.tc : Thread Cert.ReferenceIdeal.nD Cert.ReferenceIdeal.τ).loc Cert.ReferenceIdeal.main_arg34)
          ∧ r.2.mem ((c.tc : Thread Cert.ReferenceIdeal.nD Cert.ReferenceIdeal.τ).loc Cert.ReferenceIdeal.main_arg35) = m' ((c.tc : Thread Cert.ReferenceIdeal.nD Cert.ReferenceIdeal.τ).loc Cert.ReferenceIdeal.main_arg35)
          ∧ r.2.mem ((c.tc : Thread Cert.ReferenceIdeal.nD Cert.ReferenceIdeal.τ).loc Cert.ReferenceIdeal.main_arg36) = m' ((c.tc : Thread Cert.ReferenceIdeal.nD Cert.ReferenceIdeal.τ).loc Cert.ReferenceIdeal.main_arg36)
          ∧ r.2.mem ((c.tc : Thread Cert.ReferenceIdeal.nD Cert.ReferenceIdeal.τ).loc Cert.ReferenceIdeal.main_arg37) = m' ((c.tc : Thread Cert.ReferenceIdeal.nD Cert.ReferenceIdeal.τ).loc Cert.ReferenceIdeal.main_arg37)
          ∧ r.2.mem ((c.tc : Thread Cert.ReferenceIdeal.nD Cert.ReferenceIdeal.τ).loc Cert.ReferenceIdeal.main_arg38) = m' ((c.tc : Thread Cert.ReferenceIdeal.nD Cert.ReferenceIdeal.τ).loc Cert.ReferenceIdeal.main_arg38)
          ∧ r.2.mem ((c.tc : Thread Cert.ReferenceIdeal.nD Cert.ReferenceIdeal.τ).loc Cert.ReferenceIdeal.main_arg39) = m' ((c.tc : Thread Cert.ReferenceIdeal.nD Cert.ReferenceIdeal.τ).loc Cert.ReferenceIdeal.main_arg39)
          ∧ r.2.mem ((c.tc : Thread Cert.ReferenceIdeal.nD Cert.ReferenceIdeal.τ).loc Cert.ReferenceIdeal.main_arg40) = m' ((c.tc : Thread Cert.ReferenceIdeal.nD Cert.ReferenceIdeal.τ).loc Cert.ReferenceIdeal.main_arg40)
          ∧ r.2.mem ((c.tc : Thread Cert.ReferenceIdeal.nD Cert.ReferenceIdeal.τ).loc Cert.ReferenceIdeal.main_arg41) = m' ((c.tc : Thread Cert.ReferenceIdeal.nD Cert.ReferenceIdeal.τ).loc Cert.ReferenceIdeal.main_arg41))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x256 : Shape := ⟨2, ![40000, 256]⟩
abbrev S200000x256 : Shape := ⟨2, ![200000, 256]⟩
abbrev S60000x256 : Shape := ⟨2, ![60000, 256]⟩
abbrev S512x256 : Shape := ⟨2, ![512, 256]⟩
abbrev S256 : Shape := ⟨1, ![256]⟩
abbrev S256x256 : Shape := ⟨2, ![256, 256]⟩
abbrev S768x256 : Shape := ⟨2, ![768, 256]⟩
abbrev S1 : Shape := ⟨1, ![1]⟩
abbrev S2x200000 : Shape := ⟨2, ![2, 200000]⟩
abbrev S2x120000 : Shape := ⟨2, ![2, 120000]⟩
abbrev S_ : Shape := ⟨0, ![]⟩
abbrev S1x200000 : Shape := ⟨2, ![1, 200000]⟩
abbrev S200000 : Shape := ⟨1, ![200000]⟩
abbrev S1x120000 : Shape := ⟨2, ![1, 120000]⟩
abbrev S120000 : Shape := ⟨1, ![120000]⟩

class Facts : Prop where
  bcast_S_S40000x256 : S_.BroadcastsInDim S40000x256 (![] : Fin 0 → Fin S40000x256.rank)
  reducesTo_S40000x256_S_d0_1 : S40000x256.ReducesTo [0, 1] S_
  h_S_ : 0 < S_.numel
  bcast_S_S200000x256 : S_.BroadcastsInDim S200000x256 (![] : Fin 0 → Fin S200000x256.rank)
  reducesTo_S200000x256_S_d0_1 : S200000x256.ReducesTo [0, 1] S_
  bcast_S_S60000x256 : S_.BroadcastsInDim S60000x256 (![] : Fin 0 → Fin S60000x256.rank)
  reducesTo_S60000x256_S_d0_1 : S60000x256.ReducesTo [0, 1] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S768x256 : S_.BroadcastsInDim S768x256 (![] : Fin 0 → Fin S768x256.rank)
  reducesTo_S768x256_S_d0_1 : S768x256.ReducesTo [0, 1] S_
  bcast_S_S1 : S_.BroadcastsInDim S1 (![] : Fin 0 → Fin S1.rank)
  reducesTo_S1_S_d0 : S1.ReducesTo [0] S_
  slices_S2x200000_S1x200000_0_0 : S2x200000.Slices ![0, 0] S1x200000
  shapeCasts_S1x200000_S200000 : S1x200000.ShapeCasts S200000
  bcast_S_S200000 : S_.BroadcastsInDim S200000 (![] : Fin 0 → Fin S200000.rank)
  reducesTo_S200000_S_d0 : S200000.ReducesTo [0] S_
  slices_S2x120000_S1x120000_0_0 : S2x120000.Slices ![0, 0] S1x120000
  shapeCasts_S1x120000_S120000 : S1x120000.ShapeCasts S120000
  bcast_S_S120000 : S_.BroadcastsInDim S120000 (![] : Fin 0 → Fin S120000.rank)
  reducesTo_S120000_S_d0 : S120000.ReducesTo [0] S_

variable [Facts]

def fn_part13 {F : FTy → Type} [FloatOps F] (main_arg41 : IVec S2x120000 32) (main_v223 : IVec S_ 1) : IVec S_ 1 :=
  let main_v224 : IVec S1x120000 32 := (extractStridedSlice S1x120000 ![0, 0] · slices_S2x120000_S1x120000_0_0) main_arg41
  let main_v225 : IVec S120000 32 := shapeCast S120000 main_v224 shapeCasts_S1x120000_S120000
  let main_c_86 : IVec S_ 32 := constantI S_ 32 60000#32
  let main_v226 : IVec S120000 32 := broadcastInDim S120000 ![] bcast_S_S120000 main_c_86
  let main_v227 : IVec S120000 1 := cmpi .slt main_v225 main_v226
  let main_c_87 : IVec S_ 1 := constantI S_ 1 1#1
  let main_v228 : IVec S_ 1 := (fun x v => Host.reduce IntOp.andi x v reducesTo_S120000_S_d0 h_S_) main_v227 main_c_87
  let main_v229 : IVec S_ 1 := andi main_v223 main_v228
  main_v229

def fn_part12 {F : FTy → Type} [FloatOps F] (main_arg40 : IVec S2x200000 32) (main_arg41 : IVec S2x120000 32) (main_v205 : IVec S_ 1) : IVec S_ 1 :=
  let main_v206 : IVec S1x200000 32 := (extractStridedSlice S1x200000 ![0, 0] · slices_S2x200000_S1x200000_0_0) main_arg40
  let main_v207 : IVec S200000 32 := shapeCast S200000 main_v206 shapeCasts_S1x200000_S200000
  let main_c_80 : IVec S_ 32 := constantI S_ 32 4294927296#32
  let main_v208 : IVec S200000 32 := broadcastInDim S200000 ![] bcast_S_S200000 main_c_80
  let main_v209 : IVec S200000 1 := cmpi .sge main_v207 main_v208
  let main_c_81 : IVec S_ 1 := constantI S_ 1 1#1
  let main_v210 : IVec S_ 1 := (fun x v => Host.reduce IntOp.andi x v reducesTo_S200000_S_d0 h_S_) main_v209 main_c_81
  let main_v211 : IVec S_ 1 := andi main_v205 main_v210
  let main_v212 : IVec S1x200000 32 := (extractStridedSlice S1x200000 ![0, 0] · slices_S2x200000_S1x200000_0_0) main_arg40
  let main_v213 : IVec S200000 32 := shapeCast S200000 main_v212 shapeCasts_S1x200000_S200000
  let main_c_82 : IVec S_ 32 := constantI S_ 32 40000#32
  let main_v214 : IVec S200000 32 := broadcastInDim S200000 ![] bcast_S_S200000 main_c_82
  let main_v215 : IVec S200000 1 := cmpi .slt main_v213 main_v214
  let main_c_83 : IVec S_ 1 := constantI S_ 1 1#1
  let main_v216 : IVec S_ 1 := (fun x v => Host.reduce IntOp.andi x v reducesTo_S200000_S_d0 h_S_) main_v215 main_c_83
  let main_v217 : IVec S_ 1 := andi main_v211 main_v216
  let main_v218 : IVec S1x120000 32 := (extractStridedSlice S1x120000 ![0, 0] · slices_S2x120000_S1x120000_0_0) main_arg41
  let main_v219 : IVec S120000 32 := shapeCast S120000 main_v218 shapeCasts_S1x120000_S120000
  let main_c_84 : IVec S_ 32 := constantI S_ 32 4294907296#32
  let main_v220 : IVec S120000 32 := broadcastInDim S120000 ![] bcast_S_S120000 main_c_84
  let main_v221 : IVec S120000 1 := cmpi .sge main_v219 main_v220
  let main_c_85 : IVec S_ 1 := constantI S_ 1 1#1
  let main_v222 : IVec S_ 1 := (fun x v => Host.reduce IntOp.andi x v reducesTo_S120000_S_d0 h_S_) main_v221 main_c_85
  let main_v223 : IVec S_ 1 := andi main_v217 main_v222
  fn_part13 (F := F) main_arg41 main_v223

def fn_part11 {F : FTy → Type} [FloatOps F] (main_arg38 : FVec F S1 .f32) (main_arg39 : IVec S2x200000 32) (main_arg40 : IVec S2x200000 32) (main_arg41 : IVec S2x120000 32) (main_v183 : IVec S_ 1) (main_v187 : IVec S_ 1) : IVec S_ 1 :=
  let main_v188 : IVec S_ 1 := andi main_v183 main_v187
  let main_v189 : FVec F S1 .f32 := Host.absf main_arg38
  let main_cst_74 : FVec F S_ .f32 := constant S_ .f32 0x7F800000#32
  let main_v190 : FVec F S1 .f32 := broadcastInDim S1 ![] bcast_S_S1 main_cst_74
  let main_v191 : IVec S1 1 := cmpf .olt main_v189 main_v190
  let main_c_75 : IVec S_ 1 := constantI S_ 1 1#1
  let main_v192 : IVec S_ 1 := (fun x v => Host.reduce IntOp.andi x v reducesTo_S1_S_d0 h_S_) main_v191 main_c_75
  let main_v193 : IVec S_ 1 := andi main_v188 main_v192
  let main_v194 : IVec S1x200000 32 := (extractStridedSlice S1x200000 ![0, 0] · slices_S2x200000_S1x200000_0_0) main_arg39
  let main_v195 : IVec S200000 32 := shapeCast S200000 main_v194 shapeCasts_S1x200000_S200000
  let main_c_76 : IVec S_ 32 := constantI S_ 32 4294927296#32
  let main_v196 : IVec S200000 32 := broadcastInDim S200000 ![] bcast_S_S200000 main_c_76
  let main_v197 : IVec S200000 1 := cmpi .sge main_v195 main_v196
  let main_c_77 : IVec S_ 1 := constantI S_ 1 1#1
  let main_v198 : IVec S_ 1 := (fun x v => Host.reduce IntOp.andi x v reducesTo_S200000_S_d0 h_S_) main_v197 main_c_77
  let main_v199 : IVec S_ 1 := andi main_v193 main_v198
  let main_v200 : IVec S1x200000 32 := (extractStridedSlice S1x200000 ![0, 0] · slices_S2x200000_S1x200000_0_0) main_arg39
  let main_v201 : IVec S200000 32 := shapeCast S200000 main_v200 shapeCasts_S1x200000_S200000
  let main_c_78 : IVec S_ 32 := constantI S_ 32 40000#32
  let main_v202 : IVec S200000 32 := broadcastInDim S200000 ![] bcast_S_S200000 main_c_78
  let main_v203 : IVec S200000 1 := cmpi .slt main_v201 main_v202
  let main_c_79 : IVec S_ 1 := constantI S_ 1 1#1
  let main_v204 : IVec S_ 1 := (fun x v => Host.reduce IntOp.andi x v reducesTo_S200000_S_d0 h_S_) main_v203 main_c_79
  let main_v205 : IVec S_ 1 := andi main_v199 main_v204
  fn_part12 (F := F) main_arg40 main_arg41 main_v205

def fn_part10 {F : FTy → Type} [FloatOps F] (main_arg35 : FVec F S256 .f32) (main_arg36 : FVec F S1 .f32) (main_arg37 : FVec F S1 .f32) (main_arg38 : FVec F S1 .f32) (main_arg39 : IVec S2x200000 32) (main_arg40 : IVec S2x200000 32) (main_arg41 : IVec S2x120000 32) (main_v168 : IVec S_ 1) (main_v169 : FVec F S256 .f32) (main_v170 : FVec F S256 .f32) : IVec S_ 1 :=
  let main_v171 : IVec S256 1 := cmpf .olt main_v169 main_v170
  let main_c_67 : IVec S_ 1 := constantI S_ 1 1#1
  let main_v172 : IVec S_ 1 := (fun x v => Host.reduce IntOp.andi x v reducesTo_S256_S_d0 h_S_) main_v171 main_c_67
  let main_v173 : IVec S_ 1 := andi main_v168 main_v172
  let main_v174 : FVec F S256 .f32 := Host.absf main_arg35
  let main_cst_68 : FVec F S_ .f32 := constant S_ .f32 0x7F800000#32
  let main_v175 : FVec F S256 .f32 := broadcastInDim S256 ![] bcast_S_S256 main_cst_68
  let main_v176 : IVec S256 1 := cmpf .olt main_v174 main_v175
  let main_c_69 : IVec S_ 1 := constantI S_ 1 1#1
  let main_v177 : IVec S_ 1 := (fun x v => Host.reduce IntOp.andi x v reducesTo_S256_S_d0 h_S_) main_v176 main_c_69
  let main_v178 : IVec S_ 1 := andi main_v173 main_v177
  let main_v179 : FVec F S1 .f32 := Host.absf main_arg36
  let main_cst_70 : FVec F S_ .f32 := constant S_ .f32 0x7F800000#32
  let main_v180 : FVec F S1 .f32 := broadcastInDim S1 ![] bcast_S_S1 main_cst_70
  let main_v181 : IVec S1 1 := cmpf .olt main_v179 main_v180
  let main_c_71 : IVec S_ 1 := constantI S_ 1 1#1
  let main_v182 : IVec S_ 1 := (fun x v => Host.reduce IntOp.andi x v reducesTo_S1_S_d0 h_S_) main_v181 main_c_71
  let main_v183 : IVec S_ 1 := andi main_v178 main_v182
  let main_v184 : FVec F S1 .f32 := Host.absf main_arg37
  let main_cst_72 : FVec F S_ .f32 := constant S_ .f32 0x7F800000#32
  let main_v185 : FVec F S1 .f32 := broadcastInDim S1 ![] bcast_S_S1 main_cst_72
  let main_v186 : IVec S1 1 := cmpf .olt main_v184 main_v185
  let main_c_73 : IVec S_ 1 := constantI S_ 1 1#1
  let main_v187 : IVec S_ 1 := (fun x v => Host.reduce IntOp.andi x v reducesTo_S1_S_d0 h_S_) main_v186 main_c_73
  fn_part11 (F := F) main_arg38 main_arg39 main_arg40 main_arg41 main_v183 main_v187

def fn_part9 {F : FTy → Type} [FloatOps F] (main_arg31 : FVec F S256 .f32) (main_arg32 : FVec F S768x256 .f32) (main_arg33 : FVec F S256 .f32) (main_arg34 : FVec F S256 .f32) (main_arg35 : FVec F S256 .f32) (main_arg36 : FVec F S1 .f32) (main_arg37 : FVec F S1 .f32) (main_arg38 : FVec F S1 .f32) (main_arg39 : IVec S2x200000 32) (main_arg40 : IVec S2x200000 32) (main_arg41 : IVec S2x120000 32) (main_v153 : IVec S_ 1) : IVec S_ 1 :=
  let main_v154 : FVec F S256 .f32 := Host.absf main_arg31
  let main_cst_60 : FVec F S_ .f32 := constant S_ .f32 0x7F800000#32
  let main_v155 : FVec F S256 .f32 := broadcastInDim S256 ![] bcast_S_S256 main_cst_60
  let main_v156 : IVec S256 1 := cmpf .olt main_v154 main_v155
  let main_c_61 : IVec S_ 1 := constantI S_ 1 1#1
  let main_v157 : IVec S_ 1 := (fun x v => Host.reduce IntOp.andi x v reducesTo_S256_S_d0 h_S_) main_v156 main_c_61
  let main_v158 : IVec S_ 1 := andi main_v153 main_v157
  let main_v159 : FVec F S768x256 .f32 := Host.absf main_arg32
  let main_cst_62 : FVec F S_ .f32 := constant S_ .f32 0x7F800000#32
  let main_v160 : FVec F S768x256 .f32 := broadcastInDim S768x256 ![] bcast_S_S768x256 main_cst_62
  let main_v161 : IVec S768x256 1 := cmpf .olt main_v159 main_v160
  let main_c_63 : IVec S_ 1 := constantI S_ 1 1#1
  let main_v162 : IVec S_ 1 := (fun x v => Host.reduce IntOp.andi x v reducesTo_S768x256_S_d0_1 h_S_) main_v161 main_c_63
  let main_v163 : IVec S_ 1 := andi main_v158 main_v162
  let main_v164 : FVec F S256 .f32 := Host.absf main_arg33
  let main_cst_64 : FVec F S_ .f32 := constant S_ .f32 0x7F800000#32
  let main_v165 : FVec F S256 .f32 := broadcastInDim S256 ![] bcast_S_S256 main_cst_64
  let main_v166 : IVec S256 1 := cmpf .olt main_v164 main_v165
  let main_c_65 : IVec S_ 1 := constantI S_ 1 1#1
  let main_v167 : IVec S_ 1 := (fun x v => Host.reduce IntOp.andi x v reducesTo_S256_S_d0 h_S_) main_v166 main_c_65
  let main_v168 : IVec S_ 1 := andi main_v163 main_v167
  let main_v169 : FVec F S256 .f32 := Host.absf main_arg34
  let main_cst_66 : FVec F S_ .f32 := constant S_ .f32 0x7F800000#32
  let main_v170 : FVec F S256 .f32 := broadcastInDim S256 ![] bcast_S_S256 main_cst_66
  fn_part10 (F := F) main_arg35 main_arg36 main_arg37 main_arg38 main_arg39 main_arg40 main_arg41 main_v168 main_v169 main_v170

def fn_part8 {F : FTy → Type} [FloatOps F] (main_arg28 : FVec F S256x256 .f32) (main_arg29 : FVec F S256 .f32) (main_arg30 : FVec F S256 .f32) (main_arg31 : FVec F S256 .f32) (main_arg32 : FVec F S768x256 .f32) (main_arg33 : FVec F S256 .f32) (main_arg34 : FVec F S256 .f32) (main_arg35 : FVec F S256 .f32) (main_arg36 : FVec F S1 .f32) (main_arg37 : FVec F S1 .f32) (main_arg38 : FVec F S1 .f32) (main_arg39 : IVec S2x200000 32) (main_arg40 : IVec S2x200000 32) (main_arg41 : IVec S2x120000 32) (main_v133 : IVec S_ 1) (main_v136 : IVec S256 1) : IVec S_ 1 :=
  let main_c_53 : IVec S_ 1 := constantI S_ 1 1#1
  let main_v137 : IVec S_ 1 := (fun x v => Host.reduce IntOp.andi x v reducesTo_S256_S_d0 h_S_) main_v136 main_c_53
  let main_v138 : IVec S_ 1 := andi main_v133 main_v137
  let main_v139 : FVec F S256x256 .f32 := Host.absf main_arg28
  let main_cst_54 : FVec F S_ .f32 := constant S_ .f32 0x7F800000#32
  let main_v140 : FVec F S256x256 .f32 := broadcastInDim S256x256 ![] bcast_S_S256x256 main_cst_54
  let main_v141 : IVec S256x256 1 := cmpf .olt main_v139 main_v140
  let main_c_55 : IVec S_ 1 := constantI S_ 1 1#1
  let main_v142 : IVec S_ 1 := (fun x v => Host.reduce IntOp.andi x v reducesTo_S256x256_S_d0_1 h_S_) main_v141 main_c_55
  let main_v143 : IVec S_ 1 := andi main_v138 main_v142
  let main_v144 : FVec F S256 .f32 := Host.absf main_arg29
  let main_cst_56 : FVec F S_ .f32 := constant S_ .f32 0x7F800000#32
  let main_v145 : FVec F S256 .f32 := broadcastInDim S256 ![] bcast_S_S256 main_cst_56
  let main_v146 : IVec S256 1 := cmpf .olt main_v144 main_v145
  let main_c_57 : IVec S_ 1 := constantI S_ 1 1#1
  let main_v147 : IVec S_ 1 := (fun x v => Host.reduce IntOp.andi x v reducesTo_S256_S_d0 h_S_) main_v146 main_c_57
  let main_v148 : IVec S_ 1 := andi main_v143 main_v147
  let main_v149 : FVec F S256 .f32 := Host.absf main_arg30
  let main_cst_58 : FVec F S_ .f32 := constant S_ .f32 0x7F800000#32
  let main_v150 : FVec F S256 .f32 := broadcastInDim S256 ![] bcast_S_S256 main_cst_58
  let main_v151 : IVec S256 1 := cmpf .olt main_v149 main_v150
  let main_c_59 : IVec S_ 1 := constantI S_ 1 1#1
  let main_v152 : IVec S_ 1 := (fun x v => Host.reduce IntOp.andi x v reducesTo_S256_S_d0 h_S_) main_v151 main_c_59
  let main_v153 : IVec S_ 1 := andi main_v148 main_v152
  fn_part9 (F := F) main_arg31 main_arg32 main_arg33 main_arg34 main_arg35 main_arg36 main_arg37 main_arg38 main_arg39 main_arg40 main_arg41 main_v153

def fn_part7 {F : FTy → Type} [FloatOps F] (main_arg25 : FVec F S256 .f32) (main_arg26 : FVec F S256 .f32) (main_arg27 : FVec F S256 .f32) (main_arg28 : FVec F S256x256 .f32) (main_arg29 : FVec F S256 .f32) (main_arg30 : FVec F S256 .f32) (main_arg31 : FVec F S256 .f32) (main_arg32 : FVec F S768x256 .f32) (main_arg33 : FVec F S256 .f32) (main_arg34 : FVec F S256 .f32) (main_arg35 : FVec F S256 .f32) (main_arg36 : FVec F S1 .f32) (main_arg37 : FVec F S1 .f32) (main_arg38 : FVec F S1 .f32) (main_arg39 : IVec S2x200000 32) (main_arg40 : IVec S2x200000 32) (main_arg41 : IVec S2x120000 32) (main_v118 : IVec S_ 1) (main_v119 : FVec F S256x256 .f32) : IVec S_ 1 :=
  let main_cst_46 : FVec F S_ .f32 := constant S_ .f32 0x7F800000#32
  let main_v120 : FVec F S256x256 .f32 := broadcastInDim S256x256 ![] bcast_S_S256x256 main_cst_46
  let main_v121 : IVec S256x256 1 := cmpf .olt main_v119 main_v120
  let main_c_47 : IVec S_ 1 := constantI S_ 1 1#1
  let main_v122 : IVec S_ 1 := (fun x v => Host.reduce IntOp.andi x v reducesTo_S256x256_S_d0_1 h_S_) main_v121 main_c_47
  let main_v123 : IVec S_ 1 := andi main_v118 main_v122
  let main_v124 : FVec F S256 .f32 := Host.absf main_arg25
  let main_cst_48 : FVec F S_ .f32 := constant S_ .f32 0x7F800000#32
  let main_v125 : FVec F S256 .f32 := broadcastInDim S256 ![] bcast_S_S256 main_cst_48
  let main_v126 : IVec S256 1 := cmpf .olt main_v124 main_v125
  let main_c_49 : IVec S_ 1 := constantI S_ 1 1#1
  let main_v127 : IVec S_ 1 := (fun x v => Host.reduce IntOp.andi x v reducesTo_S256_S_d0 h_S_) main_v126 main_c_49
  let main_v128 : IVec S_ 1 := andi main_v123 main_v127
  let main_v129 : FVec F S256 .f32 := Host.absf main_arg26
  let main_cst_50 : FVec F S_ .f32 := constant S_ .f32 0x7F800000#32
  let main_v130 : FVec F S256 .f32 := broadcastInDim S256 ![] bcast_S_S256 main_cst_50
  let main_v131 : IVec S256 1 := cmpf .olt main_v129 main_v130
  let main_c_51 : IVec S_ 1 := constantI S_ 1 1#1
  let main_v132 : IVec S_ 1 := (fun x v => Host.reduce IntOp.andi x v reducesTo_S256_S_d0 h_S_) main_v131 main_c_51
  let main_v133 : IVec S_ 1 := andi main_v128 main_v132
  let main_v134 : FVec F S256 .f32 := Host.absf main_arg27
  let main_cst_52 : FVec F S_ .f32 := constant S_ .f32 0x7F800000#32
  let main_v135 : FVec F S256 .f32 := broadcastInDim S256 ![] bcast_S_S256 main_cst_52
  let main_v136 : IVec S256 1 := cmpf .olt main_v134 main_v135
  fn_part8 (F := F) main_arg28 main_arg29 main_arg30 main_arg31 main_arg32 main_arg33 main_arg34 main_arg35 main_arg36 main_arg37 main_arg38 main_arg39 main_arg40 main_arg41 main_v133 main_v136

def fn_part6 {F : FTy → Type} [FloatOps F] (main_arg21 : FVec F S256 .f32) (main_arg22 : FVec F S256 .f32) (main_arg23 : FVec F S256 .f32) (main_arg24 : FVec F S256x256 .f32) (main_arg25 : FVec F S256 .f32) (main_arg26 : FVec F S256 .f32) (main_arg27 : FVec F S256 .f32) (main_arg28 : FVec F S256x256 .f32) (main_arg29 : FVec F S256 .f32) (main_arg30 : FVec F S256 .f32) (main_arg31 : FVec F S256 .f32) (main_arg32 : FVec F S768x256 .f32) (main_arg33 : FVec F S256 .f32) (main_arg34 : FVec F S256 .f32) (main_arg35 : FVec F S256 .f32) (main_arg36 : FVec F S1 .f32) (main_arg37 : FVec F S1 .f32) (main_arg38 : FVec F S1 .f32) (main_arg39 : IVec S2x200000 32) (main_arg40 : IVec S2x200000 32) (main_arg41 : IVec S2x120000 32) (main_v98 : IVec S_ 1) (main_v101 : IVec S256x256 1) (main_c_39 : IVec S_ 1) : IVec S_ 1 :=
  let main_v102 : IVec S_ 1 := (fun x v => Host.reduce IntOp.andi x v reducesTo_S256x256_S_d0_1 h_S_) main_v101 main_c_39
  let main_v103 : IVec S_ 1 := andi main_v98 main_v102
  let main_v104 : FVec F S256 .f32 := Host.absf main_arg21
  let main_cst_40 : FVec F S_ .f32 := constant S_ .f32 0x7F800000#32
  let main_v105 : FVec F S256 .f32 := broadcastInDim S256 ![] bcast_S_S256 main_cst_40
  let main_v106 : IVec S256 1 := cmpf .olt main_v104 main_v105
  let main_c_41 : IVec S_ 1 := constantI S_ 1 1#1
  let main_v107 : IVec S_ 1 := (fun x v => Host.reduce IntOp.andi x v reducesTo_S256_S_d0 h_S_) main_v106 main_c_41
  let main_v108 : IVec S_ 1 := andi main_v103 main_v107
  let main_v109 : FVec F S256 .f32 := Host.absf main_arg22
  let main_cst_42 : FVec F S_ .f32 := constant S_ .f32 0x7F800000#32
  let main_v110 : FVec F S256 .f32 := broadcastInDim S256 ![] bcast_S_S256 main_cst_42
  let main_v111 : IVec S256 1 := cmpf .olt main_v109 main_v110
  let main_c_43 : IVec S_ 1 := constantI S_ 1 1#1
  let main_v112 : IVec S_ 1 := (fun x v => Host.reduce IntOp.andi x v reducesTo_S256_S_d0 h_S_) main_v111 main_c_43
  let main_v113 : IVec S_ 1 := andi main_v108 main_v112
  let main_v114 : FVec F S256 .f32 := Host.absf main_arg23
  let main_cst_44 : FVec F S_ .f32 := constant S_ .f32 0x7F800000#32
  let main_v115 : FVec F S256 .f32 := broadcastInDim S256 ![] bcast_S_S256 main_cst_44
  let main_v116 : IVec S256 1 := cmpf .olt main_v114 main_v115
  let main_c_45 : IVec S_ 1 := constantI S_ 1 1#1
  let main_v117 : IVec S_ 1 := (fun x v => Host.reduce IntOp.andi x v reducesTo_S256_S_d0 h_S_) main_v116 main_c_45
  let main_v118 : IVec S_ 1 := andi main_v113 main_v117
  let main_v119 : FVec F S256x256 .f32 := Host.absf main_arg24
  fn_part7 (F := F) main_arg25 main_arg26 main_arg27 main_arg28 main_arg29 main_arg30 main_arg31 main_arg32 main_arg33 main_arg34 main_arg35 main_arg36 main_arg37 main_arg38 main_arg39 main_arg40 main_arg41 main_v118 main_v119

def fn_part5 {F : FTy → Type} [FloatOps F] (main_arg18 : FVec F S256 .f32) (main_arg19 : FVec F S256 .f32) (main_arg20 : FVec F S256x256 .f32) (main_arg21 : FVec F S256 .f32) (main_arg22 : FVec F S256 .f32) (main_arg23 : FVec F S256 .f32) (main_arg24 : FVec F S256x256 .f32) (main_arg25 : FVec F S256 .f32) (main_arg26 : FVec F S256 .f32) (main_arg27 : FVec F S256 .f32) (main_arg28 : FVec F S256x256 .f32) (main_arg29 : FVec F S256 .f32) (main_arg30 : FVec F S256 .f32) (main_arg31 : FVec F S256 .f32) (main_arg32 : FVec F S768x256 .f32) (main_arg33 : FVec F S256 .f32) (main_arg34 : FVec F S256 .f32) (main_arg35 : FVec F S256 .f32) (main_arg36 : FVec F S1 .f32) (main_arg37 : FVec F S1 .f32) (main_arg38 : FVec F S1 .f32) (main_arg39 : IVec S2x200000 32) (main_arg40 : IVec S2x200000 32) (main_arg41 : IVec S2x120000 32) (main_v83 : IVec S_ 1) (main_v84 : FVec F S256 .f32) (main_cst_32 : FVec F S_ .f32) : IVec S_ 1 :=
  let main_v85 : FVec F S256 .f32 := broadcastInDim S256 ![] bcast_S_S256 main_cst_32
  let main_v86 : IVec S256 1 := cmpf .olt main_v84 main_v85
  let main_c_33 : IVec S_ 1 := constantI S_ 1 1#1
  let main_v87 : IVec S_ 1 := (fun x v => Host.reduce IntOp.andi x v reducesTo_S256_S_d0 h_S_) main_v86 main_c_33
  let main_v88 : IVec S_ 1 := andi main_v83 main_v87
  let main_v89 : FVec F S256 .f32 := Host.absf main_arg18
  let main_cst_34 : FVec F S_ .f32 := constant S_ .f32 0x7F800000#32
  let main_v90 : FVec F S256 .f32 := broadcastInDim S256 ![] bcast_S_S256 main_cst_34
  let main_v91 : IVec S256 1 := cmpf .olt main_v89 main_v90
  let main_c_35 : IVec S_ 1 := constantI S_ 1 1#1
  let main_v92 : IVec S_ 1 := (fun x v => Host.reduce IntOp.andi x v reducesTo_S256_S_d0 h_S_) main_v91 main_c_35
  let main_v93 : IVec S_ 1 := andi main_v88 main_v92
  let main_v94 : FVec F S256 .f32 := Host.absf main_arg19
  let main_cst_36 : FVec F S_ .f32 := constant S_ .f32 0x7F800000#32
  let main_v95 : FVec F S256 .f32 := broadcastInDim S256 ![] bcast_S_S256 main_cst_36
  let main_v96 : IVec S256 1 := cmpf .olt main_v94 main_v95
  let main_c_37 : IVec S_ 1 := constantI S_ 1 1#1
  let main_v97 : IVec S_ 1 := (fun x v => Host.reduce IntOp.andi x v reducesTo_S256_S_d0 h_S_) main_v96 main_c_37
  let main_v98 : IVec S_ 1 := andi main_v93 main_v97
  let main_v99 : FVec F S256x256 .f32 := Host.absf main_arg20
  let main_cst_38 : FVec F S_ .f32 := constant S_ .f32 0x7F800000#32
  let main_v100 : FVec F S256x256 .f32 := broadcastInDim S256x256 ![] bcast_S_S256x256 main_cst_38
  let main_v101 : IVec S256x256 1 := cmpf .olt main_v99 main_v100
  let main_c_39 : IVec S_ 1 := constantI S_ 1 1#1
  fn_part6 (F := F) main_arg21 main_arg22 main_arg23 main_arg24 main_arg25 main_arg26 main_arg27 main_arg28 main_arg29 main_arg30 main_arg31 main_arg32 main_arg33 main_arg34 main_arg35 main_arg36 main_arg37 main_arg38 main_arg39 main_arg40 main_arg41 main_v98 main_v101 main_c_39

def fn_part4 {F : FTy → Type} [FloatOps F] (main_arg14 : FVec F S256 .f32) (main_arg15 : FVec F S256 .f32) (main_arg16 : FVec F S256x256 .f32) (main_arg17 : FVec F S256 .f32) (main_arg18 : FVec F S256 .f32) (main_arg19 : FVec F S256 .f32) (main_arg20 : FVec F S256x256 .f32) (main_arg21 : FVec F S256 .f32) (main_arg22 : FVec F S256 .f32) (main_arg23 : FVec F S256 .f32) (main_arg24 : FVec F S256x256 .f32) (main_arg25 : FVec F S256 .f32) (main_arg26 : FVec F S256 .f32) (main_arg27 : FVec F S256 .f32) (main_arg28 : FVec F S256x256 .f32) (main_arg29 : FVec F S256 .f32) (main_arg30 : FVec F S256 .f32) (main_arg31 : FVec F S256 .f32) (main_arg32 : FVec F S768x256 .f32) (main_arg33 : FVec F S256 .f32) (main_arg34 : FVec F S256 .f32) (main_arg35 : FVec F S256 .f32) (main_arg36 : FVec F S1 .f32) (main_arg37 : FVec F S1 .f32) (main_arg38 : FVec F S1 .f32) (main_arg39 : IVec S2x200000 32) (main_arg40 : IVec S2x200000 32) (main_arg41 : IVec S2x120000 32) (main_v63 : IVec S_ 1) (main_v67 : IVec S_ 1) : IVec S_ 1 :=
  let main_v68 : IVec S_ 1 := andi main_v63 main_v67
  let main_v69 : FVec F S256 .f32 := Host.absf main_arg14
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S256 .f32 := Host.absf main_arg15
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_v79 : FVec F S256x256 .f32 := Host.absf main_arg16
  let main_cst_30 : FVec F S_ .f32 := constant S_ .f32 0x7F800000#32
  let main_v80 : FVec F S256x256 .f32 := broadcastInDim S256x256 ![] bcast_S_S256x256 main_cst_30
  let main_v81 : IVec S256x256 1 := cmpf .olt main_v79 main_v80
  let main_c_31 : IVec S_ 1 := constantI S_ 1 1#1
  let main_v82 : IVec S_ 1 := (fun x v => Host.reduce IntOp.andi x v reducesTo_S256x256_S_d0_1 h_S_) main_v81 main_c_31
  let main_v83 : IVec S_ 1 := andi main_v78 main_v82
  let main_v84 : FVec F S256 .f32 := Host.absf main_arg17
  let main_cst_32 : FVec F S_ .f32 := constant S_ .f32 0x7F800000#32
  fn_part5 (F := F) main_arg18 main_arg19 main_arg20 main_arg21 main_arg22 main_arg23 main_arg24 main_arg25 main_arg26 main_arg27 main_arg28 main_arg29 main_arg30 main_arg31 main_arg32 main_arg33 main_arg34 main_arg35 main_arg36 main_arg37 main_arg38 main_arg39 main_arg40 main_arg41 main_v83 main_v84 main_cst_32

def fn_part3 {F : FTy → Type} [FloatOps F] (main_arg11 : FVec F S256 .f32) (main_arg12 : FVec F S256x256 .f32) (main_arg13 : FVec F S256 .f32) (main_arg14 : FVec F S256 .f32) (main_arg15 : FVec F S256 .f32) (main_arg16 : FVec F S256x256 .f32) (main_arg17 : FVec F S256 .f32) (main_arg18 : FVec F S256 .f32) (main_arg19 : FVec F S256 .f32) (main_arg20 : FVec F S256x256 .f32) (main_arg21 : FVec F S256 .f32) (main_arg22 : FVec F S256 .f32) (main_arg23 : FVec F S256 .f32) (main_arg24 : FVec F S256x256 .f32) (main_arg25 : FVec F S256 .f32) (main_arg26 : FVec F S256 .f32) (main_arg27 : FVec F S256 .f32) (main_arg28 : FVec F S256x256 .f32) (main_arg29 : FVec F S256 .f32) (main_arg30 : FVec F S256 .f32) (main_arg31 : FVec F S256 .f32) (main_arg32 : FVec F S768x256 .f32) (main_arg33 : FVec F S256 .f32) (main_arg34 : FVec F S256 .f32) (main_arg35 : FVec F S256 .f32) (main_arg36 : FVec F S1 .f32) (main_arg37 : FVec F S1 .f32) (main_arg38 : FVec F S1 .f32) (main_arg39 : IVec S2x200000 32) (main_arg40 : IVec S2x200000 32) (main_arg41 : IVec S2x120000 32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256 .f32 := Host.absf main_arg11
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256x256 .f32 := Host.absf main_arg12
  let main_cst_22 : FVec F S_ .f32 := constant S_ .f32 0x7F800000#32
  let main_v60 : FVec F S256x256 .f32 := broadcastInDim S256x256 ![] bcast_S_S256x256 main_cst_22
  let main_v61 : IVec S256x256 1 := cmpf .olt main_v59 main_v60
  let main_c_23 : IVec S_ 1 := constantI S_ 1 1#1
  let main_v62 : IVec S_ 1 := (fun x v => Host.reduce IntOp.andi x v reducesTo_S256x256_S_d0_1 h_S_) main_v61 main_c_23
  let main_v63 : IVec S_ 1 := andi main_v58 main_v62
  let main_v64 : FVec F S256 .f32 := Host.absf main_arg13
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_arg36 main_arg37 main_arg38 main_arg39 main_arg40 main_arg41 main_v63 main_v67

def fn_part2 {F : FTy → Type} [FloatOps F] (main_arg7 : FVec F S256 .f32) (main_arg8 : FVec F S256x256 .f32) (main_arg9 : FVec F S256 .f32) (main_arg10 : FVec F S256 .f32) (main_arg11 : FVec F S256 .f32) (main_arg12 : FVec F S256x256 .f32) (main_arg13 : FVec F S256 .f32) (main_arg14 : FVec F S256 .f32) (main_arg15 : FVec F S256 .f32) (main_arg16 : FVec F S256x256 .f32) (main_arg17 : FVec F S256 .f32) (main_arg18 : FVec F S256 .f32) (main_arg19 : FVec F S256 .f32) (main_arg20 : FVec F S256x256 .f32) (main_arg21 : FVec F S256 .f32) (main_arg22 : FVec F S256 .f32) (main_arg23 : FVec F S256 .f32) (main_arg24 : FVec F S256x256 .f32) (main_arg25 : FVec F S256 .f32) (main_arg26 : FVec F S256 .f32) (main_arg27 : FVec F S256 .f32) (main_arg28 : FVec F S256x256 .f32) (main_arg29 : FVec F S256 .f32) (main_arg30 : FVec F S256 .f32) (main_arg31 : FVec F S256 .f32) (main_arg32 : FVec F S768x256 .f32) (main_arg33 : FVec F S256 .f32) (main_arg34 : FVec F S256 .f32) (main_arg35 : FVec F S256 .f32) (main_arg36 : FVec F S1 .f32) (main_arg37 : FVec F S1 .f32) (main_arg38 : FVec F S1 .f32) (main_arg39 : IVec S2x200000 32) (main_arg40 : IVec S2x200000 32) (main_arg41 : IVec S2x120000 32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg8
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_arg36 main_arg37 main_arg38 main_arg39 main_arg40 main_arg41 main_v48 main_v49 main_v50

def fn_part1 {F : FTy → Type} [FloatOps F] (main_arg4 : FVec F S512x256 .f32) (main_arg5 : FVec F S256 .f32) (main_arg6 : FVec F S512x256 .f32) (main_arg7 : FVec F S256 .f32) (main_arg8 : FVec F S256x256 .f32) (main_arg9 : FVec F S256 .f32) (main_arg10 : FVec F S256 .f32) (main_arg11 : FVec F S256 .f32) (main_arg12 : FVec F S256x256 .f32) (main_arg13 : FVec F S256 .f32) (main_arg14 : FVec F S256 .f32) (main_arg15 : FVec F S256 .f32) (main_arg16 : FVec F S256x256 .f32) (main_arg17 : FVec F S256 .f32) (main_arg18 : FVec F S256 .f32) (main_arg19 : FVec F S256 .f32) (main_arg20 : FVec F S256x256 .f32) (main_arg21 : FVec F S256 .f32) (main_arg22 : FVec F S256 .f32) (main_arg23 : FVec F S256 .f32) (main_arg24 : FVec F S256x256 .f32) (main_arg25 : FVec F S256 .f32) (main_arg26 : FVec F S256 .f32) (main_arg27 : FVec F S256 .f32) (main_arg28 : FVec F S256x256 .f32) (main_arg29 : FVec F S256 .f32) (main_arg30 : FVec F S256 .f32) (main_arg31 : FVec F S256 .f32) (main_arg32 : FVec F S768x256 .f32) (main_arg33 : FVec F S256 .f32) (main_arg34 : FVec F S256 .f32) (main_arg35 : FVec F S256 .f32) (main_arg36 : FVec F S1 .f32) (main_arg37 : FVec F S1 .f32) (main_arg38 : FVec F S1 .f32) (main_arg39 : IVec S2x200000 32) (main_arg40 : IVec S2x200000 32) (main_arg41 : IVec S2x120000 32) (main_v13 : IVec S_ 1) (main_v16 : IVec S60000x256 1) : IVec S_ 1 :=
  let main_c_5 : IVec S_ 1 := constantI S_ 1 1#1
  let main_v17 : IVec S_ 1 := (fun x v => Host.reduce IntOp.andi x v reducesTo_S60000x256_S_d0_1 h_S_) main_v16 main_c_5
  let main_v18 : IVec S_ 1 := andi main_v13 main_v17
  let main_v19 : FVec F S512x256 .f32 := Host.absf main_arg4
  let main_cst_6 : FVec F S_ .f32 := constant S_ .f32 0x7F800000#32
  let main_v20 : FVec F S512x256 .f32 := broadcastInDim S512x256 ![] bcast_S_S512x256 main_cst_6
  let main_v21 : IVec S512x256 1 := cmpf .olt main_v19 main_v20
  let main_c_7 : IVec S_ 1 := constantI S_ 1 1#1
  let main_v22 : IVec S_ 1 := (fun x v => Host.reduce IntOp.andi x v reducesTo_S512x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S512x256 .f32 := Host.absf main_arg6
  let main_cst_10 : FVec F S_ .f32 := constant S_ .f32 0x7F800000#32
  let main_v30 : FVec F S512x256 .f32 := broadcastInDim S512x256 ![] bcast_S_S512x256 main_cst_10
  let main_v31 : IVec S512x256 1 := cmpf .olt main_v29 main_v30
  let main_c_11 : IVec S_ 1 := constantI S_ 1 1#1
  let main_v32 : IVec S_ 1 := (fun x v => Host.reduce IntOp.andi x v reducesTo_S512x256_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_arg36 main_arg37 main_arg38 main_arg39 main_arg40 main_arg41 main_v33

def fn {F : FTy → Type} [FloatOps F] (main_arg0 : FVec F S40000x256 .f32) (main_arg1 : FVec F S200000x256 .f32) (main_arg2 : FVec F S200000x256 .f32) (main_arg3 : FVec F S60000x256 .f32) (main_arg4 : FVec F S512x256 .f32) (main_arg5 : FVec F S256 .f32) (main_arg6 : FVec F S512x256 .f32) (main_arg7 : FVec F S256 .f32) (main_arg8 : FVec F S256x256 .f32) (main_arg9 : FVec F S256 .f32) (main_arg10 : FVec F S256 .f32) (main_arg11 : FVec F S256 .f32) (main_arg12 : FVec F S256x256 .f32) (main_arg13 : FVec F S256 .f32) (main_arg14 : FVec F S256 .f32) (main_arg15 : FVec F S256 .f32) (main_arg16 : FVec F S256x256 .f32) (main_arg17 : FVec F S256 .f32) (main_arg18 : FVec F S256 .f32) (main_arg19 : FVec F S256 .f32) (main_arg20 : FVec F S256x256 .f32) (main_arg21 : FVec F S256 .f32) (main_arg22 : FVec F S256 .f32) (main_arg23 : FVec F S256 .f32) (main_arg24 : FVec F S256x256 .f32) (main_arg25 : FVec F S256 .f32) (main_arg26 : FVec F S256 .f32) (main_arg27 : FVec F S256 .f32) (main_arg28 : FVec F S256x256 .f32) (main_arg29 : FVec F S256 .f32) (main_arg30 : FVec F S256 .f32) (main_arg31 : FVec F S256 .f32) (main_arg32 : FVec F S768x256 .f32) (main_arg33 : FVec F S256 .f32) (main_arg34 : FVec F S256 .f32) (main_arg35 : FVec F S256 .f32) (main_arg36 : FVec F S1 .f32) (main_arg37 : FVec F S1 .f32) (main_arg38 : FVec F S1 .f32) (main_arg39 : IVec S2x200000 32) (main_arg40 : IVec S2x200000 32) (main_arg41 : IVec S2x120000 32) : IVec S_ 1 :=
  let main_v0 : FVec F S40000x256 .f32 := Host.absf main_arg0
  let main_cst : FVec F S_ .f32 := constant S_ .f32 0x7F800000#32
  let main_v1 : FVec F S40000x256 .f32 := broadcastInDim S40000x256 ![] bcast_S_S40000x256 main_cst
  let main_v2 : IVec S40000x256 1 := cmpf .olt main_v0 main_v1
  let main_c : IVec S_ 1 := constantI S_ 1 1#1
  let main_v3 : IVec S_ 1 := (fun x v => Host.reduce IntOp.andi x v reducesTo_S40000x256_S_d0_1 h_S_) main_v2 main_c
  let main_v4 : FVec F S200000x256 .f32 := Host.absf main_arg1
  let main_cst_0 : FVec F S_ .f32 := constant S_ .f32 0x7F800000#32
  let main_v5 : FVec F S200000x256 .f32 := broadcastInDim S200000x256 ![] bcast_S_S200000x256 main_cst_0
  let main_v6 : IVec S200000x256 1 := cmpf .olt main_v4 main_v5
  let main_c_1 : IVec S_ 1 := constantI S_ 1 1#1
  let main_v7 : IVec S_ 1 := (fun x v => Host.reduce IntOp.andi x v reducesTo_S200000x256_S_d0_1 h_S_) main_v6 main_c_1
  let main_v8 : IVec S_ 1 := andi main_v3 main_v7
  let main_v9 : FVec F S200000x256 .f32 := Host.absf main_arg2
  let main_cst_2 : FVec F S_ .f32 := constant S_ .f32 0x7F800000#32
  let main_v10 : FVec F S200000x256 .f32 := broadcastInDim S200000x256 ![] bcast_S_S200000x256 main_cst_2
  let main_v11 : IVec S200000x256 1 := cmpf .olt main_v9 main_v10
  let main_c_3 : IVec S_ 1 := constantI S_ 1 1#1
  let main_v12 : IVec S_ 1 := (fun x v => Host.reduce IntOp.andi x v reducesTo_S200000x256_S_d0_1 h_S_) main_v11 main_c_3
  let main_v13 : IVec S_ 1 := andi main_v8 main_v12
  let main_v14 : FVec F S60000x256 .f32 := Host.absf main_arg3
  let main_cst_4 : FVec F S_ .f32 := constant S_ .f32 0x7F800000#32
  let main_v15 : FVec F S60000x256 .f32 := broadcastInDim S60000x256 ![] bcast_S_S60000x256 main_cst_4
  let main_v16 : IVec S60000x256 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_arg36 main_arg37 main_arg38 main_arg39 main_arg40 main_arg41 main_v13 main_v16
-- ==== Kernel.lean ====
abbrev S40000x256 : Shape := ⟨2, ![40000, 256]⟩
abbrev S200000x256 : Shape := ⟨2, ![200000, 256]⟩
abbrev S60000x256 : Shape := ⟨2, ![60000, 256]⟩
abbrev S512x256 : Shape := ⟨2, ![512, 256]⟩
abbrev S256 : Shape := ⟨1, ![256]⟩
abbrev S256x256 : Shape := ⟨2, ![256, 256]⟩
abbrev S768x256 : Shape := ⟨2, ![768, 256]⟩
abbrev S1 : Shape := ⟨1, ![1]⟩
abbrev S2x200000 : Shape := ⟨2, ![2, 200000]⟩
abbrev S2x120000 : Shape := ⟨2, ![2, 120000]⟩
abbrev S1x200000 : Shape := ⟨2, ![1, 200000]⟩
abbrev S200000 : Shape := ⟨1, ![200000]⟩
abbrev S_ : Shape := ⟨0, ![]⟩
abbrev S200000x1 : Shape := ⟨2, ![200000, 1]⟩
abbrev S1x1 : Shape := ⟨2, ![1, 1]⟩
abbrev S1x120000 : Shape := ⟨2, ![1, 120000]⟩
abbrev S120000 : Shape := ⟨1, ![120000]⟩
abbrev S120000x1 : Shape := ⟨2, ![120000, 1]⟩
abbrev S120000x256 : Shape := ⟨2, ![120000, 256]⟩
abbrev S1x256 : Shape := ⟨2, ![1, 256]⟩
abbrev S5000x256 : Shape := ⟨2, ![5000, 256]⟩

abbrev nBuf : Space → Nat
  | .hbm => 334
  | .vmem => 96
  | .smem => 0
  | _ => 0

abbrev hbmTy0_0 (i : Nat) : BufTy := match i % 128 with
  | 0 => ⟨S40000x256, .f32⟩
  | 1 => ⟨S200000x256, .f32⟩
  | 2 => ⟨S200000x256, .f32⟩
  | 3 => ⟨S60000x256, .f32⟩
  | 4 => ⟨S512x256, .f32⟩
  | 5 => ⟨S256, .f32⟩
  | 6 => ⟨S512x256, .f32⟩
  | 7 => ⟨S256, .f32⟩
  | 8 => ⟨S256x256, .f32⟩
  | 9 => ⟨S256, .f32⟩
  | 10 => ⟨S256, .f32⟩
  | 11 => ⟨S256, .f32⟩
  | 12 => ⟨S256x256, .f32⟩
  | 13 => ⟨S256, .f32⟩
  | 14 => ⟨S256, .f32⟩
  | 15 => ⟨S256, .f32⟩
  | 16 => ⟨S256x256, .f32⟩
  | 17 => ⟨S256, .f32⟩
  | 18 => ⟨S256, .f32⟩
  | 19 => ⟨S256, .f32⟩
  | 20 => ⟨S256x256, .f32⟩
  | 21 => ⟨S256, .f32⟩
  | 22 => ⟨S256, .f32⟩
  | 23 => ⟨S256, .f32⟩
  | 24 => ⟨S256x256, .f32⟩
  | 25 => ⟨S256, .f32⟩
  | 26 => ⟨S256, .f32⟩
  | 27 => ⟨S256, .f32⟩
  | 28 => ⟨S256x256, .f32⟩
  | 29 => ⟨S256, .f32⟩
  | 30 => ⟨S256, .f32⟩
  | 31 => ⟨S256, .f32⟩
  | 32 => ⟨S768x256, .f32⟩
  | 33 => ⟨S256, .f32⟩
  | 34 => ⟨S256, .f32⟩
  | 35 => ⟨S256, .f32⟩
  | 36 => ⟨S1, .f32⟩
  | 37 => ⟨S1, .f32⟩
  | 38 => ⟨S1, .f32⟩
  | 39 => ⟨S2x200000, .i32⟩
  | 40 => ⟨S2x200000, .i32⟩
  | 41 => ⟨S2x120000, .i32⟩
  | 42 => ⟨S1x200000, .i32⟩
  | 43 => ⟨S200000, .i32⟩
  | 44 => ⟨S_, .i32⟩
  | 45 => ⟨S200000, .i32⟩
  | 46 => ⟨S200000, .i1⟩
  | 47 => ⟨S_, .i32⟩
  | 48 => ⟨S200000, .i32⟩
  | 49 => ⟨S200000, .i32⟩
  | 50 => ⟨S200000, .i32⟩
  | 51 => ⟨S200000x1, .i32⟩
  | 52 => ⟨S1, .i32⟩
  | 53 => ⟨S_, .i32⟩
  | 54 => ⟨S200000x1, .i32⟩
  | 55 => ⟨S200000x1, .i1⟩
  | 56 => ⟨S1x1, .i32⟩
  | 57 => ⟨S200000x1, .i32⟩
  | 58 => ⟨S200000x1, .i1⟩
  | 59 => ⟨S200000x1, .i1⟩
  | 60 => ⟨S_, .i1⟩
  | 61 => ⟨S200000, .i1⟩
  | 62 => ⟨S200000x256, .f32⟩
  | 63 => ⟨S200000x256, .i1⟩
  | 64 => ⟨S_, .f32⟩
  | 65 => ⟨S200000x256, .f32⟩
  | 66 => ⟨S200000x256, .f32⟩
  | 67 => ⟨S1x200000, .i32⟩
  | 68 => ⟨S200000, .i32⟩
  | 69 => ⟨S_, .i32⟩
  | 70 => ⟨S200000, .i32⟩
  | 71 => ⟨S200000, .i1⟩
  | 72 => ⟨S_, .i32⟩
  | 73 => ⟨S200000, .i32⟩
  | 74 => ⟨S200000, .i32⟩
  | 75 => ⟨S200000, .i32⟩
  | 76 => ⟨S200000x1, .i32⟩
  | 77 => ⟨S1, .i32⟩
  | 78 => ⟨S_, .i32⟩
  | 79 => ⟨S200000x1, .i32⟩
  | 80 => ⟨S200000x1, .i1⟩
  | 81 => ⟨S1x1, .i32⟩
  | 82 => ⟨S200000x1, .i32⟩
  | 83 => ⟨S200000x1, .i1⟩
  | 84 => ⟨S200000x1, .i1⟩
  | 85 => ⟨S_, .i1⟩
  | 86 => ⟨S200000, .i1⟩
  | 87 => ⟨S200000x256, .f32⟩
  | 88 => ⟨S200000x256, .i1⟩
  | 89 => ⟨S_, .f32⟩
  | 90 => ⟨S200000x256, .f32⟩
  | 91 => ⟨S200000x256, .f32⟩
  | 92 => ⟨S1x120000, .i32⟩
  | 93 => ⟨S120000, .i32⟩
  | 94 => ⟨S_, .i32⟩
  | 95 => ⟨S120000, .i32⟩
  | 96 => ⟨S120000, .i1⟩
  | 97 => ⟨S_, .i32⟩
  | 98 => ⟨S120000, .i32⟩
  | 99 => ⟨S120000, .i32⟩
  | 100 => ⟨S120000, .i32⟩
  | 101 => ⟨S120000x1, .i32⟩
  | 102 => ⟨S1, .i32⟩
  | 103 => ⟨S_, .i32⟩
  | 104 => ⟨S120000x1, .i32⟩
  | 105 => ⟨S120000x1, .i1⟩
  | 106 => ⟨S1x1, .i32⟩
  | 107 => ⟨S120000x1, .i32⟩
  | 108 => ⟨S120000x1, .i1⟩
  | 109 => ⟨S120000x1, .i1⟩
  | 110 => ⟨S_, .i1⟩
  | 111 => ⟨S120000, .i1⟩
  | 112 => ⟨S120000x256, .f32⟩
  | 113 => ⟨S120000x256, .i1⟩
  | 114 => ⟨S_, .f32⟩
  | 115 => ⟨S120000x256, .f32⟩
  | 116 => ⟨S120000x256, .f32⟩
  | 117 => ⟨S256x256, .f32⟩
  | 118 => ⟨S256x256, .f32⟩
  | 119 => ⟨S1x256, .f32⟩
  | 120 => ⟨S200000x256, .f32⟩
  | 121 => ⟨S256x256, .f32⟩
  | 122 => ⟨S256x256, .f32⟩
  | 123 => ⟨S1x256, .f32⟩
  | 124 => ⟨S200000x256, .f32⟩
  | 125 => ⟨S1x200000, .i32⟩
  | 126 => ⟨S200000, .i32⟩
  | 127 => ⟨S_, .f32⟩
  | _ => ⟨S40000x256, .f32⟩

abbrev hbmTy0_1 (i : Nat) : BufTy := match i % 128 with
  | 0 => ⟨S40000x256, .f32⟩
  | 1 => ⟨S200000x1, .i32⟩
  | 2 => ⟨S40000x256, .f32⟩
  | 3 => ⟨S1x200000, .i32⟩
  | 4 => ⟨S200000, .i32⟩
  | 5 => ⟨S_, .f32⟩
  | 6 => ⟨S40000x256, .f32⟩
  | 7 => ⟨S200000x1, .i32⟩
  | 8 => ⟨S40000x256, .f32⟩
  | 9 => ⟨S1x120000, .i32⟩
  | 10 => ⟨S120000, .i32⟩
  | 11 => ⟨S_, .f32⟩
  | 12 => ⟨S40000x256, .f32⟩
  | 13 => ⟨S120000x1, .i32⟩
  | 14 => ⟨S40000x256, .f32⟩
  | 15 => ⟨S_, .f32⟩
  | 16 => ⟨S_, .f32⟩
  | 17 => ⟨S_, .f32⟩
  | 18 => ⟨S_, .f32⟩
  | 19 => ⟨S_, .f32⟩
  | 20 => ⟨S40000x256, .f32⟩
  | 21 => ⟨S40000x256, .f32⟩
  | 22 => ⟨S40000x256, .f32⟩
  | 23 => ⟨S_, .f32⟩
  | 24 => ⟨S_, .f32⟩
  | 25 => ⟨S40000x256, .f32⟩
  | 26 => ⟨S40000x256, .f32⟩
  | 27 => ⟨S40000x256, .f32⟩
  | 28 => ⟨S_, .f32⟩
  | 29 => ⟨S_, .f32⟩
  | 30 => ⟨S40000x256, .f32⟩
  | 31 => ⟨S40000x256, .f32⟩
  | 32 => ⟨S40000x256, .f32⟩
  | 33 => ⟨S256x256, .f32⟩
  | 34 => ⟨S256x256, .f32⟩
  | 35 => ⟨S256x256, .f32⟩
  | 36 => ⟨S1x256, .f32⟩
  | 37 => ⟨S40000x256, .f32⟩
  | 38 => ⟨S_, .f32⟩
  | 39 => ⟨S256, .f32⟩
  | 40 => ⟨S_, .f32⟩
  | 41 => ⟨S256, .f32⟩
  | 42 => ⟨S256, .f32⟩
  | 43 => ⟨S1x256, .f32⟩
  | 44 => ⟨S40000x256, .f32⟩
  | 45 => ⟨S40000x256, .f32⟩
  | 46 => ⟨S40000x256, .f32⟩
  | 47 => ⟨S_, .f32⟩
  | 48 => ⟨S256, .f32⟩
  | 49 => ⟨S_, .f32⟩
  | 50 => ⟨S256, .f32⟩
  | 51 => ⟨S256, .f32⟩
  | 52 => ⟨S1x256, .f32⟩
  | 53 => ⟨S1x256, .f32⟩
  | 54 => ⟨S1x256, .f32⟩
  | 55 => ⟨S1x256, .f32⟩
  | 56 => ⟨S1x256, .f32⟩
  | 57 => ⟨S40000x256, .f32⟩
  | 58 => ⟨S_, .f32⟩
  | 59 => ⟨S256, .f32⟩
  | 60 => ⟨S_, .f32⟩
  | 61 => ⟨S256, .f32⟩
  | 62 => ⟨S256, .f32⟩
  | 63 => ⟨S1x256, .f32⟩
  | 64 => ⟨S40000x256, .f32⟩
  | 65 => ⟨S40000x256, .f32⟩
  | 66 => ⟨S40000x256, .f32⟩
  | 67 => ⟨S_, .f32⟩
  | 68 => ⟨S256, .f32⟩
  | 69 => ⟨S_, .f32⟩
  | 70 => ⟨S256, .f32⟩
  | 71 => ⟨S256, .f32⟩
  | 72 => ⟨S_, .f32⟩
  | 73 => ⟨S256, .f32⟩
  | 74 => ⟨S1x256, .f32⟩
  | 75 => ⟨S1x256, .f32⟩
  | 76 => ⟨S1x256, .f32⟩
  | 77 => ⟨S1x256, .f32⟩
  | 78 => ⟨S1x256, .f32⟩
  | 79 => ⟨S40000x256, .f32⟩
  | 80 => ⟨S1x256, .f32⟩
  | 81 => ⟨S40000x256, .f32⟩
  | 82 => ⟨S_, .f32⟩
  | 83 => ⟨S256, .f32⟩
  | 84 => ⟨S_, .f32⟩
  | 85 => ⟨S256, .f32⟩
  | 86 => ⟨S256, .f32⟩
  | 87 => ⟨S1x256, .f32⟩
  | 88 => ⟨S40000x256, .f32⟩
  | 89 => ⟨S40000x256, .f32⟩
  | 90 => ⟨S40000x256, .f32⟩
  | 91 => ⟨S_, .f32⟩
  | 92 => ⟨S256, .f32⟩
  | 93 => ⟨S_, .f32⟩
  | 94 => ⟨S256, .f32⟩
  | 95 => ⟨S256, .f32⟩
  | 96 => ⟨S1x256, .f32⟩
  | 97 => ⟨S1x256, .f32⟩
  | 98 => ⟨S1x256, .f32⟩
  | 99 => ⟨S1x256, .f32⟩
  | 100 => ⟨S1x256, .f32⟩
  | 101 => ⟨S40000x256, .f32⟩
  | 102 => ⟨S_, .f32⟩
  | 103 => ⟨S256, .f32⟩
  | 104 => ⟨S_, .f32⟩
  | 105 => ⟨S256, .f32⟩
  | 106 => ⟨S256, .f32⟩
  | 107 => ⟨S1x256, .f32⟩
  | 108 => ⟨S40000x256, .f32⟩
  | 109 => ⟨S40000x256, .f32⟩
  | 110 => ⟨S40000x256, .f32⟩
  | 111 => ⟨S_, .f32⟩
  | 112 => ⟨S256, .f32⟩
  | 113 => ⟨S_, .f32⟩
  | 114 => ⟨S256, .f32⟩
  | 115 => ⟨S256, .f32⟩
  | 116 => ⟨S_, .f32⟩
  | 117 => ⟨S256, .f32⟩
  | 118 => ⟨S1x256, .f32⟩
  | 119 => ⟨S1x256, .f32⟩
  | 120 => ⟨S1x256, .f32⟩
  | 121 => ⟨S1x256, .f32⟩
  | 122 => ⟨S1x256, .f32⟩
  | 123 => ⟨S40000x256, .f32⟩
  | 124 => ⟨S1x256, .f32⟩
  | 125 => ⟨S40000x256, .f32⟩
  | 126 => ⟨S_, .f32⟩
  | 127 => ⟨S256, .f32⟩
  | _ => ⟨S40000x256, .f32⟩

abbrev hbmTy0_2 (i : Nat) : BufTy := match i % 128 with
  | 0 => ⟨S_, .f32⟩
  | 1 => ⟨S256, .f32⟩
  | 2 => ⟨S256, .f32⟩
  | 3 => ⟨S1x256, .f32⟩
  | 4 => ⟨S40000x256, .f32⟩
  | 5 => ⟨S40000x256, .f32⟩
  | 6 => ⟨S40000x256, .f32⟩
  | 7 => ⟨S_, .f32⟩
  | 8 => ⟨S256, .f32⟩
  | 9 => ⟨S_, .f32⟩
  | 10 => ⟨S256, .f32⟩
  | 11 => ⟨S256, .f32⟩
  | 12 => ⟨S1x256, .f32⟩
  | 13 => ⟨S1x256, .f32⟩
  | 14 => ⟨S1x256, .f32⟩
  | 15 => ⟨S1x256, .f32⟩
  | 16 => ⟨S1x256, .f32⟩
  | 17 => ⟨S40000x256, .f32⟩
  | 18 => ⟨S_, .f32⟩
  | 19 => ⟨S256, .f32⟩
  | 20 => ⟨S_, .f32⟩
  | 21 => ⟨S256, .f32⟩
  | 22 => ⟨S256, .f32⟩
  | 23 => ⟨S1x256, .f32⟩
  | 24 => ⟨S40000x256, .f32⟩
  | 25 => ⟨S40000x256, .f32⟩
  | 26 => ⟨S40000x256, .f32⟩
  | 27 => ⟨S_, .f32⟩
  | 28 => ⟨S256, .f32⟩
  | 29 => ⟨S_, .f32⟩
  | 30 => ⟨S256, .f32⟩
  | 31 => ⟨S256, .f32⟩
  | 32 => ⟨S_, .f32⟩
  | 33 => ⟨S256, .f32⟩
  | 34 => ⟨S1x256, .f32⟩
  | 35 => ⟨S1x256, .f32⟩
  | 36 => ⟨S1x256, .f32⟩
  | 37 => ⟨S1x256, .f32⟩
  | 38 => ⟨S1x256, .f32⟩
  | 39 => ⟨S40000x256, .f32⟩
  | 40 => ⟨S40000x256, .f32⟩
  | 41 => ⟨S40000x256, .f32⟩
  | 42 => ⟨S1x256, .f32⟩
  | 43 => ⟨S40000x256, .f32⟩
  | 44 => ⟨S40000x256, .f32⟩
  | 45 => ⟨S_, .f32⟩
  | 46 => ⟨S256, .f32⟩
  | 47 => ⟨S_, .f32⟩
  | 48 => ⟨S256, .f32⟩
  | 49 => ⟨S256, .f32⟩
  | 50 => ⟨S1x256, .f32⟩
  | 51 => ⟨S40000x256, .f32⟩
  | 52 => ⟨S40000x256, .f32⟩
  | 53 => ⟨S40000x256, .f32⟩
  | 54 => ⟨S_, .f32⟩
  | 55 => ⟨S256, .f32⟩
  | 56 => ⟨S_, .f32⟩
  | 57 => ⟨S256, .f32⟩
  | 58 => ⟨S256, .f32⟩
  | 59 => ⟨S1x256, .f32⟩
  | 60 => ⟨S40000x256, .f32⟩
  | 61 => ⟨S40000x256, .f32⟩
  | 62 => ⟨S1x256, .f32⟩
  | 63 => ⟨S40000x256, .f32⟩
  | 64 => ⟨S40000x256, .f32⟩
  | 65 => ⟨S_, .f32⟩
  | 66 => ⟨S256, .f32⟩
  | 67 => ⟨S256, .f32⟩
  | 68 => ⟨S256, .f32⟩
  | 69 => ⟨S1x256, .f32⟩
  | 70 => ⟨S40000x256, .f32⟩
  | 71 => ⟨S40000x256, .f32⟩
  | 72 => ⟨S1x256, .f32⟩
  | 73 => ⟨S40000x256, .f32⟩
  | 74 => ⟨S40000x256, .f32⟩
  | 75 => ⟨S_, .f32⟩
  | 76 => ⟨S40000x256, .f32⟩
  | 77 => ⟨S40000x256, .f32⟩
  | _ => ⟨S40000x256, .f32⟩

abbrev hbmTy (i : Nat) : BufTy := match i / 128 with
  | 0 => hbmTy0_0 i
  | 1 => hbmTy0_1 i
  | 2 => hbmTy0_2 i
  | _ => ⟨S40000x256, .f32⟩

abbrev bufTy : (tb : Table) → Fin (tcTables nBuf tb) → BufTy
  | .hbm, ⟨i, _⟩ => hbmTy i
  | .local _ .vmem, ⟨0, _⟩ => ⟨S5000x256, .f32⟩
  | .local _ .vmem, ⟨1, _⟩ => ⟨S5000x256, .f32⟩
  | .local _ .vmem, ⟨2, _⟩ => ⟨S5000x256, .f32⟩
  | .local _ .vmem, ⟨3, _⟩ => ⟨S5000x256, .f32⟩
  | .local _ .vmem, ⟨4, _⟩ => ⟨S256x256, .f32⟩
  | .local _ .vmem, ⟨5, _⟩ => ⟨S256x256, .f32⟩
  | .local _ .vmem, ⟨6, _⟩ => ⟨S1x256, .f32⟩
  | .local _ .vmem, ⟨7, _⟩ => ⟨S5000x256, .f32⟩
  | .local _ .vmem, ⟨8, _⟩ => ⟨S5000x256, .f32⟩
  | .local _ .vmem, ⟨9, _⟩ => ⟨S5000x256, .f32⟩
  | .local _ .vmem, ⟨10, _⟩ => ⟨S5000x256, .f32⟩
  | .local _ .vmem, ⟨11, _⟩ => ⟨S5000x256, .f32⟩
  | .local _ .vmem, ⟨12, _⟩ => ⟨S5000x256, .f32⟩
  | .local _ .vmem, ⟨13, _⟩ => ⟨S256x256, .f32⟩
  | .local _ .vmem, ⟨14, _⟩ => ⟨S256x256, .f32⟩
  | .local _ .vmem, ⟨15, _⟩ => ⟨S1x256, .f32⟩
  | .local _ .vmem, ⟨16, _⟩ => ⟨S5000x256, .f32⟩
  | .local _ .vmem, ⟨17, _⟩ => ⟨S5000x256, .f32⟩
  | .local _ .vmem, ⟨18, _⟩ => ⟨S5000x256, .f32⟩
  | .local _ .vmem, ⟨19, _⟩ => ⟨S5000x256, .f32⟩
  | .local _ .vmem, ⟨20, _⟩ => ⟨S256x256, .f32⟩
  | .local _ .vmem, ⟨21, _⟩ => ⟨S1x256, .f32⟩
  | .local _ .vmem, ⟨22, _⟩ => ⟨S5000x256, .f32⟩
  | .local _ .vmem, ⟨23, _⟩ => ⟨S5000x256, .f32⟩
  | .local _ .vmem, ⟨24, _⟩ => ⟨S5000x256, .f32⟩
  | .local _ .vmem, ⟨25, _⟩ => ⟨S5000x256, .f32⟩
  | .local _ .vmem, ⟨26, _⟩ => ⟨S1x256, .f32⟩
  | .local _ .vmem, ⟨27, _⟩ => ⟨S1x256, .f32⟩
  | .local _ .vmem, ⟨28, _⟩ => ⟨S1x256, .f32⟩
  | .local _ .vmem, ⟨29, _⟩ => ⟨S1x256, .f32⟩
  | .local _ .vmem, ⟨30, _⟩ => ⟨S256x256, .f32⟩
  | .local _ .vmem, ⟨31, _⟩ => ⟨S1x256, .f32⟩
  | .local _ .vmem, ⟨32, _⟩ => ⟨S5000x256, .f32⟩
  | .local _ .vmem, ⟨33, _⟩ => ⟨S5000x256, .f32⟩
  | .local _ .vmem, ⟨34, _⟩ => ⟨S5000x256, .f32⟩
  | .local _ .vmem, ⟨35, _⟩ => ⟨S5000x256, .f32⟩
  | .local _ .vmem, ⟨36, _⟩ => ⟨S1x256, .f32⟩
  | .local _ .vmem, ⟨37, _⟩ => ⟨S1x256, .f32⟩
  | .local _ .vmem, ⟨38, _⟩ => ⟨S1x256, .f32⟩
  | .local _ .vmem, ⟨39, _⟩ => ⟨S1x256, .f32⟩
  | .local _ .vmem, ⟨40, _⟩ => ⟨S256x256, .f32⟩
  | .local _ .vmem, ⟨41, _⟩ => ⟨S1x256, .f32⟩
  | .local _ .vmem, ⟨42, _⟩ => ⟨S5000x256, .f32⟩
  | .local _ .vmem, ⟨43, _⟩ => ⟨S5000x256, .f32⟩
  | .local _ .vmem, ⟨44, _⟩ => ⟨S5000x256, .f32⟩
  | .local _ .vmem, ⟨45, _⟩ => ⟨S5000x256, .f32⟩
  | .local _ .vmem, ⟨46, _⟩ => ⟨S256x256, .f32⟩
  | .local _ .vmem, ⟨47, _⟩ => ⟨S1x256, .f32⟩
  | .local _ .vmem, ⟨48, _⟩ => ⟨S5000x256, .f32⟩
  | .local _ .vmem, ⟨49, _⟩ => ⟨S5000x256, .f32⟩
  | .local _ .vmem, ⟨50, _⟩ => ⟨S5000x256, .f32⟩
  | .local _ .vmem, ⟨51, _⟩ => ⟨S5000x256, .f32⟩
  | .local _ .vmem, ⟨52, _⟩ => ⟨S1x256, .f32⟩
  | .local _ .vmem, ⟨53, _⟩ => ⟨S1x256, .f32⟩
  | .local _ .vmem, ⟨54, _⟩ => ⟨S1x256, .f32⟩
  | .local _ .vmem, ⟨55, _⟩ => ⟨S1x256, .f32⟩
  | .local _ .vmem, ⟨56, _⟩ => ⟨S256x256, .f32⟩
  | .local _ .vmem, ⟨57, _⟩ => ⟨S1x256, .f32⟩
  | .local _ .vmem, ⟨58, _⟩ => ⟨S5000x256, .f32⟩
  | .local _ .vmem, ⟨59, _⟩ => ⟨S5000x256, .f32⟩
  | .local _ .vmem, ⟨60, _⟩ => ⟨S5000x256, .f32⟩
  | .local _ .vmem, ⟨61, _⟩ => ⟨S5000x256, .f32⟩
  | .local _ .vmem, ⟨62, _⟩ => ⟨S1x256, .f32⟩
  | .local _ .vmem, ⟨63, _⟩ => ⟨S1x256, .f32⟩
  | .local _ .vmem, ⟨64, _⟩ => ⟨S1x256, .f32⟩
  | .local _ .vmem, ⟨65, _⟩ => ⟨S1x256, .f32⟩
  | .local _ .vmem, ⟨66, _⟩ => ⟨S256x256, .f32⟩
  | .local _ .vmem, ⟨67, _⟩ => ⟨S1x256, .f32⟩
  | .local _ .vmem, ⟨68, _⟩ => ⟨S5000x256, .f32⟩
  | .local _ .vmem, ⟨69, _⟩ => ⟨S5000x256, .f32⟩
  | .local _ .vmem, ⟨70, _⟩ => ⟨S5000x256, .f32⟩
  | .local _ .vmem, ⟨71, _⟩ => ⟨S5000x256, .f32⟩
  | .local _ .vmem, ⟨72, _⟩ => ⟨S256x256, .f32⟩
  | .local _ .vmem, ⟨73, _⟩ => ⟨S1x256, .f32⟩
  | .local _ .vmem, ⟨74, _⟩ => ⟨S5000x256, .f32⟩
  | .local _ .vmem, ⟨75, _⟩ => ⟨S5000x256, .f32⟩
  | .local _ .vmem, ⟨76, _⟩ => ⟨S5000x256, .f32⟩
  | .local _ .vmem, ⟨77, _⟩ => ⟨S5000x256, .f32⟩
  | .local _ .vmem, ⟨78, _⟩ => ⟨S1x256, .f32⟩
  | .local _ .vmem, ⟨79, _⟩ => ⟨S1x256, .f32⟩
  | .local _ .vmem, ⟨80, _⟩ => ⟨S1x256, .f32⟩
  | .local _ .vmem, ⟨81, _⟩ => ⟨S1x256, .f32⟩
  | .local _ .vmem, ⟨82, _⟩ => ⟨S256x256, .f32⟩
  | .local _ .vmem, ⟨83, _⟩ => ⟨S1x256, .f32⟩
  | .local _ .vmem, ⟨84, _⟩ => ⟨S5000x256, .f32⟩
  | .local _ .vmem, ⟨85, _⟩ => ⟨S5000x256, .f32⟩
  | .local _ .vmem, ⟨86, _⟩ => ⟨S5000x256, .f32⟩
  | .local _ .vmem, ⟨87, _⟩ => ⟨S5000x256, .f32⟩
  | .local _ .vmem, ⟨88, _⟩ => ⟨S1x256, .f32⟩
  | .local _ .vmem, ⟨89, _⟩ => ⟨S1x256, .f32⟩
  | .local _ .vmem, ⟨90, _⟩ => ⟨S1x256, .f32⟩
  | .local _ .vmem, ⟨91, _⟩ => ⟨S1x256, .f32⟩
  | .local _ .vmem, ⟨92, _⟩ => ⟨S256x256, .f32⟩
  | .local _ .vmem, ⟨93, _⟩ => ⟨S1x256, .f32⟩
  | .local _ .vmem, ⟨94, _⟩ => ⟨S5000x256, .f32⟩
  | .local _ .vmem, ⟨95, _⟩ => ⟨S5000x256, .f32⟩
  | _, _ => ⟨S40000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | _, _ => false

abbrev semScoped : Fin 0 → Bool
  | ⟨_, h⟩ => absurd h (Nat.not_lt_zero _)

abbrev dmaSemScoped : Fin 96 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | _ => false

abbrev sig : RefSig :=
  ofTc nBuf bufTy 0 96 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_v0 : Ref sig .tc := ⟨.hbm, 42, rfl⟩
abbrev main_v1 : Ref sig .tc := ⟨.hbm, 43, rfl⟩
abbrev main_call0_c : Ref sig .tc := ⟨.hbm, 44, rfl⟩
abbrev main_call0_v0 : Ref sig .tc := ⟨.hbm, 45, rfl⟩
abbrev main_call0_v1 : Ref sig .tc := ⟨.hbm, 46, rfl⟩
abbrev main_call0_c_0 : Ref sig .tc := ⟨.hbm, 47, rfl⟩
abbrev main_call0_v2 : Ref sig .tc := ⟨.hbm, 48, rfl⟩
abbrev main_call0_v3 : Ref sig .tc := ⟨.hbm, 49, rfl⟩
abbrev main_call0_v4 : Ref sig .tc := ⟨.hbm, 50, rfl⟩
abbrev main_call0_v5 : Ref sig .tc := ⟨.hbm, 51, rfl⟩
abbrev main_call0_c_1 : Ref sig .tc := ⟨.hbm, 52, rfl⟩
abbrev main_call0_c_2 : Ref sig .tc := ⟨.hbm, 53, rfl⟩
abbrev main_call0_v6 : Ref sig .tc := ⟨.hbm, 54, rfl⟩
abbrev main_call0_v7 : Ref sig .tc := ⟨.hbm, 55, rfl⟩
abbrev main_call0_v8 : Ref sig .tc := ⟨.hbm, 56, rfl⟩
abbrev main_call0_v9 : Ref sig .tc := ⟨.hbm, 57, rfl⟩
abbrev main_call0_v10 : Ref sig .tc := ⟨.hbm, 58, rfl⟩
abbrev main_call0_v11 : Ref sig .tc := ⟨.hbm, 59, rfl⟩
abbrev main_call0_c_3 : Ref sig .tc := ⟨.hbm, 60, rfl⟩
abbrev main_call0_v12 : Ref sig .tc := ⟨.hbm, 61, rfl⟩
abbrev main_call0_v13 : Ref sig .tc := ⟨.hbm, 62, rfl⟩
abbrev main_call0_v14 : Ref sig .tc := ⟨.hbm, 63, rfl⟩
abbrev main_call0_cst : Ref sig .tc := ⟨.hbm, 64, rfl⟩
abbrev main_call0_v15 : Ref sig .tc := ⟨.hbm, 65, rfl⟩
abbrev main_v2 : Ref sig .tc := ⟨.hbm, 66, rfl⟩
abbrev main_v3 : Ref sig .tc := ⟨.hbm, 67, rfl⟩
abbrev main_v4 : Ref sig .tc := ⟨.hbm, 68, rfl⟩
abbrev main_call1_c : Ref sig .tc := ⟨.hbm, 69, rfl⟩
abbrev main_call1_v0 : Ref sig .tc := ⟨.hbm, 70, rfl⟩
abbrev main_call1_v1 : Ref sig .tc := ⟨.hbm, 71, rfl⟩
abbrev main_call1_c_0 : Ref sig .tc := ⟨.hbm, 72, rfl⟩
abbrev main_call1_v2 : Ref sig .tc := ⟨.hbm, 73, rfl⟩
abbrev main_call1_v3 : Ref sig .tc := ⟨.hbm, 74, rfl⟩
abbrev main_call1_v4 : Ref sig .tc := ⟨.hbm, 75, rfl⟩
abbrev main_call1_v5 : Ref sig .tc := ⟨.hbm, 76, rfl⟩
abbrev main_call1_c_1 : Ref sig .tc := ⟨.hbm, 77, rfl⟩
abbrev main_call1_c_2 : Ref sig .tc := ⟨.hbm, 78, rfl⟩
abbrev main_call1_v6 : Ref sig .tc := ⟨.hbm, 79, rfl⟩
abbrev main_call1_v7 : Ref sig .tc := ⟨.hbm, 80, rfl⟩
abbrev main_call1_v8 : Ref sig .tc := ⟨.hbm, 81, rfl⟩
abbrev main_call1_v9 : Ref sig .tc := ⟨.hbm, 82, rfl⟩
abbrev main_call1_v10 : Ref sig .tc := ⟨.hbm, 83, rfl⟩
abbrev main_call1_v11 : Ref sig .tc := ⟨.hbm, 84, rfl⟩
abbrev main_call1_c_3 : Ref sig .tc := ⟨.hbm, 85, rfl⟩
abbrev main_call1_v12 : Ref sig .tc := ⟨.hbm, 86, rfl⟩
abbrev main_call1_v13 : Ref sig .tc := ⟨.hbm, 87, rfl⟩
abbrev main_call1_v14 : Ref sig .tc := ⟨.hbm, 88, rfl⟩
abbrev main_call1_cst : Ref sig .tc := ⟨.hbm, 89, rfl⟩
abbrev main_call1_v15 : Ref sig .tc := ⟨.hbm, 90, rfl⟩
abbrev main_v5 : Ref sig .tc := ⟨.hbm, 91, rfl⟩
abbrev main_v6 : Ref sig .tc := ⟨.hbm, 92, rfl⟩
abbrev main_v7 : Ref sig .tc := ⟨.hbm, 93, rfl⟩
abbrev main_call2_c : Ref sig .tc := ⟨.hbm, 94, rfl⟩
abbrev main_call2_v0 : Ref sig .tc := ⟨.hbm, 95, rfl⟩
abbrev main_call2_v1 : Ref sig .tc := ⟨.hbm, 96, rfl⟩
abbrev main_call2_c_0 : Ref sig .tc := ⟨.hbm, 97, rfl⟩
abbrev main_call2_v2 : Ref sig .tc := ⟨.hbm, 98, rfl⟩
abbrev main_call2_v3 : Ref sig .tc := ⟨.hbm, 99, rfl⟩
abbrev main_call2_v4 : Ref sig .tc := ⟨.hbm, 100, rfl⟩
abbrev main_call2_v5 : Ref sig .tc := ⟨.hbm, 101, rfl⟩
abbrev main_call2_c_1 : Ref sig .tc := ⟨.hbm, 102, rfl⟩
abbrev main_call2_c_2 : Ref sig .tc := ⟨.hbm, 103, rfl⟩
abbrev main_call2_v6 : Ref sig .tc := ⟨.hbm, 104, rfl⟩
abbrev main_call2_v7 : Ref sig .tc := ⟨.hbm, 105, rfl⟩
abbrev main_call2_v8 : Ref sig .tc := ⟨.hbm, 106, rfl⟩
abbrev main_call2_v9 : Ref sig .tc := ⟨.hbm, 107, rfl⟩
abbrev main_call2_v10 : Ref sig .tc := ⟨.hbm, 108, rfl⟩
abbrev main_call2_v11 : Ref sig .tc := ⟨.hbm, 109, rfl⟩
abbrev main_call2_c_3 : Ref sig .tc := ⟨.hbm, 110, rfl⟩
abbrev main_call2_v12 : Ref sig .tc := ⟨.hbm, 111, rfl⟩
abbrev main_call2_v13 : Ref sig .tc := ⟨.hbm, 112, rfl⟩
abbrev main_call2_v14 : Ref sig .tc := ⟨.hbm, 113, rfl⟩
abbrev main_call2_cst : Ref sig .tc := ⟨.hbm, 114, rfl⟩
abbrev main_call2_v15 : Ref sig .tc := ⟨.hbm, 115, rfl⟩
abbrev main_v8 : Ref sig .tc := ⟨.hbm, 116, rfl⟩
abbrev main_v9 : Ref sig .tc := ⟨.hbm, 117, rfl⟩
abbrev main_v10 : Ref sig .tc := ⟨.hbm, 118, rfl⟩
abbrev main_v11 : Ref sig .tc := ⟨.hbm, 119, rfl⟩
abbrev main_v12 : Ref sig .tc := ⟨.hbm, 120, rfl⟩
abbrev main_v13 : Ref sig .tc := ⟨.hbm, 121, rfl⟩
abbrev main_v14 : Ref sig .tc := ⟨.hbm, 122, rfl⟩
abbrev main_v15 : Ref sig .tc := ⟨.hbm, 123, rfl⟩
abbrev main_v16 : Ref sig .tc := ⟨.hbm, 124, rfl⟩
abbrev main_v17 : Ref sig .tc := ⟨.hbm, 125, rfl⟩
abbrev main_v18 : Ref sig .tc := ⟨.hbm, 126, rfl⟩
abbrev main_cst : Ref sig .tc := ⟨.hbm, 127, rfl⟩
abbrev main_v19 : Ref sig .tc := ⟨.hbm, 128, rfl⟩
abbrev main_v20 : Ref sig .tc := ⟨.hbm, 129, rfl⟩
abbrev main_v21 : Ref sig .tc := ⟨.hbm, 130, rfl⟩
abbrev main_v22 : Ref sig .tc := ⟨.hbm, 131, rfl⟩
abbrev main_v23 : Ref sig .tc := ⟨.hbm, 132, rfl⟩
abbrev main_cst_0 : Ref sig .tc := ⟨.hbm, 133, rfl⟩
abbrev main_v24 : Ref sig .tc := ⟨.hbm, 134, rfl⟩
abbrev main_v25 : Ref sig .tc := ⟨.hbm, 135, rfl⟩
abbrev main_v26 : Ref sig .tc := ⟨.hbm, 136, rfl⟩
abbrev main_v27 : Ref sig .tc := ⟨.hbm, 137, rfl⟩
abbrev main_v28 : Ref sig .tc := ⟨.hbm, 138, rfl⟩
abbrev main_cst_1 : Ref sig .tc := ⟨.hbm, 139, rfl⟩
abbrev main_v29 : Ref sig .tc := ⟨.hbm, 140, rfl⟩
abbrev main_v30 : Ref sig .tc := ⟨.hbm, 141, rfl⟩
abbrev main_v31 : Ref sig .tc := ⟨.hbm, 142, rfl⟩
abbrev main_v32 : Ref sig .tc := ⟨.hbm, 143, rfl⟩
abbrev main_v33 : Ref sig .tc := ⟨.hbm, 144, rfl⟩
abbrev main_v34 : Ref sig .tc := ⟨.hbm, 145, rfl⟩
abbrev main_cst_2 : Ref sig .tc := ⟨.hbm, 146, rfl⟩
abbrev main_v35 : Ref sig .tc := ⟨.hbm, 147, rfl⟩
abbrev main_v36 : Ref sig .tc := ⟨.hbm, 148, rfl⟩
abbrev main_v37 : Ref sig .tc := ⟨.hbm, 149, rfl⟩
abbrev main_v38 : Ref sig .tc := ⟨.hbm, 150, rfl⟩
abbrev main_cst_3 : Ref sig .tc := ⟨.hbm, 151, rfl⟩
abbrev main_v39 : Ref sig .tc := ⟨.hbm, 152, rfl⟩
abbrev main_v40 : Ref sig .tc := ⟨.hbm, 153, rfl⟩
abbrev main_v41 : Ref sig .tc := ⟨.hbm, 154, rfl⟩
abbrev main_v42 : Ref sig .tc := ⟨.hbm, 155, rfl⟩
abbrev main_cst_4 : Ref sig .tc := ⟨.hbm, 156, rfl⟩
abbrev main_v43 : Ref sig .tc := ⟨.hbm, 157, rfl⟩
abbrev main_v44 : Ref sig .tc := ⟨.hbm, 158, rfl⟩
abbrev main_v45 : Ref sig .tc := ⟨.hbm, 159, rfl⟩
abbrev main_v46 : Ref sig .tc := ⟨.hbm, 160, rfl⟩
abbrev main_v47 : Ref sig .tc := ⟨.hbm, 161, rfl⟩
abbrev main_v48 : Ref sig .tc := ⟨.hbm, 162, rfl⟩
abbrev main_v49 : Ref sig .tc := ⟨.hbm, 163, rfl⟩
abbrev main_v50 : Ref sig .tc := ⟨.hbm, 164, rfl⟩
abbrev main_v51 : Ref sig .tc := ⟨.hbm, 165, rfl⟩
abbrev main_cst_5 : Ref sig .tc := ⟨.hbm, 166, rfl⟩
abbrev main_v52 : Ref sig .tc := ⟨.hbm, 167, rfl⟩
abbrev main_cst_6 : Ref sig .tc := ⟨.hbm, 168, rfl⟩
abbrev main_v53 : Ref sig .tc := ⟨.hbm, 169, rfl⟩
abbrev main_v54 : Ref sig .tc := ⟨.hbm, 170, rfl⟩
abbrev main_v55 : Ref sig .tc := ⟨.hbm, 171, rfl⟩
abbrev main_v56 : Ref sig .tc := ⟨.hbm, 172, rfl⟩
abbrev main_v57 : Ref sig .tc := ⟨.hbm, 173, rfl⟩
abbrev main_v58 : Ref sig .tc := ⟨.hbm, 174, rfl⟩
abbrev main_cst_7 : Ref sig .tc := ⟨.hbm, 175, rfl⟩
abbrev main_v59 : Ref sig .tc := ⟨.hbm, 176, rfl⟩
abbrev main_cst_8 : Ref sig .tc := ⟨.hbm, 177, rfl⟩
abbrev main_v60 : Ref sig .tc := ⟨.hbm, 178, rfl⟩
abbrev main_v61 : Ref sig .tc := ⟨.hbm, 179, rfl⟩
abbrev main_v62 : Ref sig .tc := ⟨.hbm, 180, rfl⟩
abbrev main_v63 : Ref sig .tc := ⟨.hbm, 181, rfl⟩
abbrev main_v64 : Ref sig .tc := ⟨.hbm, 182, rfl⟩
abbrev main_v65 : Ref sig .tc := ⟨.hbm, 183, rfl⟩
abbrev main_v66 : Ref sig .tc := ⟨.hbm, 184, rfl⟩
abbrev main_v67 : Ref sig .tc := ⟨.hbm, 185, rfl⟩
abbrev main_cst_9 : Ref sig .tc := ⟨.hbm, 186, rfl⟩
abbrev main_v68 : Ref sig .tc := ⟨.hbm, 187, rfl⟩
abbrev main_cst_10 : Ref sig .tc := ⟨.hbm, 188, rfl⟩
abbrev main_v69 : Ref sig .tc := ⟨.hbm, 189, rfl⟩
abbrev main_v70 : Ref sig .tc := ⟨.hbm, 190, rfl⟩
abbrev main_v71 : Ref sig .tc := ⟨.hbm, 191, rfl⟩
abbrev main_v72 : Ref sig .tc := ⟨.hbm, 192, rfl⟩
abbrev main_v73 : Ref sig .tc := ⟨.hbm, 193, rfl⟩
abbrev main_v74 : Ref sig .tc := ⟨.hbm, 194, rfl⟩
abbrev main_cst_11 : Ref sig .tc := ⟨.hbm, 195, rfl⟩
abbrev main_v75 : Ref sig .tc := ⟨.hbm, 196, rfl⟩
abbrev main_cst_12 : Ref sig .tc := ⟨.hbm, 197, rfl⟩
abbrev main_v76 : Ref sig .tc := ⟨.hbm, 198, rfl⟩
abbrev main_v77 : Ref sig .tc := ⟨.hbm, 199, rfl⟩
abbrev main_cst_13 : Ref sig .tc := ⟨.hbm, 200, rfl⟩
abbrev main_v78 : Ref sig .tc := ⟨.hbm, 201, rfl⟩
abbrev main_v79 : Ref sig .tc := ⟨.hbm, 202, rfl⟩
abbrev main_v80 : Ref sig .tc := ⟨.hbm, 203, rfl⟩
abbrev main_v81 : Ref sig .tc := ⟨.hbm, 204, rfl⟩
abbrev main_v82 : Ref sig .tc := ⟨.hbm, 205, rfl⟩
abbrev main_v83 : Ref sig .tc := ⟨.hbm, 206, rfl⟩
abbrev main_v84 : Ref sig .tc := ⟨.hbm, 207, rfl⟩
abbrev main_v85 : Ref sig .tc := ⟨.hbm, 208, rfl⟩
abbrev main_v86 : Ref sig .tc := ⟨.hbm, 209, rfl⟩
abbrev main_cst_14 : Ref sig .tc := ⟨.hbm, 210, rfl⟩
abbrev main_v87 : Ref sig .tc := ⟨.hbm, 211, rfl⟩
abbrev main_cst_15 : Ref sig .tc := ⟨.hbm, 212, rfl⟩
abbrev main_v88 : Ref sig .tc := ⟨.hbm, 213, rfl⟩
abbrev main_v89 : Ref sig .tc := ⟨.hbm, 214, rfl⟩
abbrev main_v90 : Ref sig .tc := ⟨.hbm, 215, rfl⟩
abbrev main_v91 : Ref sig .tc := ⟨.hbm, 216, rfl⟩
abbrev main_v92 : Ref sig .tc := ⟨.hbm, 217, rfl⟩
abbrev main_v93 : Ref sig .tc := ⟨.hbm, 218, rfl⟩
abbrev main_cst_16 : Ref sig .tc := ⟨.hbm, 219, rfl⟩
abbrev main_v94 : Ref sig .tc := ⟨.hbm, 220, rfl⟩
abbrev main_cst_17 : Ref sig .tc := ⟨.hbm, 221, rfl⟩
abbrev main_v95 : Ref sig .tc := ⟨.hbm, 222, rfl⟩
abbrev main_v96 : Ref sig .tc := ⟨.hbm, 223, rfl⟩
abbrev main_v97 : Ref sig .tc := ⟨.hbm, 224, rfl⟩
abbrev main_v98 : Ref sig .tc := ⟨.hbm, 225, rfl⟩
abbrev main_v99 : Ref sig .tc := ⟨.hbm, 226, rfl⟩
abbrev main_v100 : Ref sig .tc := ⟨.hbm, 227, rfl⟩
abbrev main_v101 : Ref sig .tc := ⟨.hbm, 228, rfl⟩
abbrev main_v102 : Ref sig .tc := ⟨.hbm, 229, rfl⟩
abbrev main_cst_18 : Ref sig .tc := ⟨.hbm, 230, rfl⟩
abbrev main_v103 : Ref sig .tc := ⟨.hbm, 231, rfl⟩
abbrev main_cst_19 : Ref sig .tc := ⟨.hbm, 232, rfl⟩
abbrev main_v104 : Ref sig .tc := ⟨.hbm, 233, rfl⟩
abbrev main_v105 : Ref sig .tc := ⟨.hbm, 234, rfl⟩
abbrev main_v106 : Ref sig .tc := ⟨.hbm, 235, rfl⟩
abbrev main_v107 : Ref sig .tc := ⟨.hbm, 236, rfl⟩
abbrev main_v108 : Ref sig .tc := ⟨.hbm, 237, rfl⟩
abbrev main_v109 : Ref sig .tc := ⟨.hbm, 238, rfl⟩
abbrev main_cst_20 : Ref sig .tc := ⟨.hbm, 239, rfl⟩
abbrev main_v110 : Ref sig .tc := ⟨.hbm, 240, rfl⟩
abbrev main_cst_21 : Ref sig .tc := ⟨.hbm, 241, rfl⟩
abbrev main_v111 : Ref sig .tc := ⟨.hbm, 242, rfl⟩
abbrev main_v112 : Ref sig .tc := ⟨.hbm, 243, rfl⟩
abbrev main_cst_22 : Ref sig .tc := ⟨.hbm, 244, rfl⟩
abbrev main_v113 : Ref sig .tc := ⟨.hbm, 245, rfl⟩
abbrev main_v114 : Ref sig .tc := ⟨.hbm, 246, rfl⟩
abbrev main_v115 : Ref sig .tc := ⟨.hbm, 247, rfl⟩
abbrev main_v116 : Ref sig .tc := ⟨.hbm, 248, rfl⟩
abbrev main_v117 : Ref sig .tc := ⟨.hbm, 249, rfl⟩
abbrev main_v118 : Ref sig .tc := ⟨.hbm, 250, rfl⟩
abbrev main_v119 : Ref sig .tc := ⟨.hbm, 251, rfl⟩
abbrev main_v120 : Ref sig .tc := ⟨.hbm, 252, rfl⟩
abbrev main_v121 : Ref sig .tc := ⟨.hbm, 253, rfl⟩
abbrev main_cst_23 : Ref sig .tc := ⟨.hbm, 254, rfl⟩
abbrev main_v122 : Ref sig .tc := ⟨.hbm, 255, rfl⟩
abbrev main_cst_24 : Ref sig .tc := ⟨.hbm, 256, rfl⟩
abbrev main_v123 : Ref sig .tc := ⟨.hbm, 257, rfl⟩
abbrev main_v124 : Ref sig .tc := ⟨.hbm, 258, rfl⟩
abbrev main_v125 : Ref sig .tc := ⟨.hbm, 259, rfl⟩
abbrev main_v126 : Ref sig .tc := ⟨.hbm, 260, rfl⟩
abbrev main_v127 : Ref sig .tc := ⟨.hbm, 261, rfl⟩
abbrev main_v128 : Ref sig .tc := ⟨.hbm, 262, rfl⟩
abbrev main_cst_25 : Ref sig .tc := ⟨.hbm, 263, rfl⟩
abbrev main_v129 : Ref sig .tc := ⟨.hbm, 264, rfl⟩
abbrev main_cst_26 : Ref sig .tc := ⟨.hbm, 265, rfl⟩
abbrev main_v130 : Ref sig .tc := ⟨.hbm, 266, rfl⟩
abbrev main_v131 : Ref sig .tc := ⟨.hbm, 267, rfl⟩
abbrev main_v132 : Ref sig .tc := ⟨.hbm, 268, rfl⟩
abbrev main_v133 : Ref sig .tc := ⟨.hbm, 269, rfl⟩
abbrev main_v134 : Ref sig .tc := ⟨.hbm, 270, rfl⟩
abbrev main_v135 : Ref sig .tc := ⟨.hbm, 271, rfl⟩
abbrev main_v136 : Ref sig .tc := ⟨.hbm, 272, rfl⟩
abbrev main_v137 : Ref sig .tc := ⟨.hbm, 273, rfl⟩
abbrev main_cst_27 : Ref sig .tc := ⟨.hbm, 274, rfl⟩
abbrev main_v138 : Ref sig .tc := ⟨.hbm, 275, rfl⟩
abbrev main_cst_28 : Ref sig .tc := ⟨.hbm, 276, rfl⟩
abbrev main_v139 : Ref sig .tc := ⟨.hbm, 277, rfl⟩
abbrev main_v140 : Ref sig .tc := ⟨.hbm, 278, rfl⟩
abbrev main_v141 : Ref sig .tc := ⟨.hbm, 279, rfl⟩
abbrev main_v142 : Ref sig .tc := ⟨.hbm, 280, rfl⟩
abbrev main_v143 : Ref sig .tc := ⟨.hbm, 281, rfl⟩
abbrev main_v144 : Ref sig .tc := ⟨.hbm, 282, rfl⟩
abbrev main_cst_29 : Ref sig .tc := ⟨.hbm, 283, rfl⟩
abbrev main_v145 : Ref sig .tc := ⟨.hbm, 284, rfl⟩
abbrev main_cst_30 : Ref sig .tc := ⟨.hbm, 285, rfl⟩
abbrev main_v146 : Ref sig .tc := ⟨.hbm, 286, rfl⟩
abbrev main_v147 : Ref sig .tc := ⟨.hbm, 287, rfl⟩
abbrev main_cst_31 : Ref sig .tc := ⟨.hbm, 288, rfl⟩
abbrev main_v148 : Ref sig .tc := ⟨.hbm, 289, rfl⟩
abbrev main_v149 : Ref sig .tc := ⟨.hbm, 290, rfl⟩
abbrev main_v150 : Ref sig .tc := ⟨.hbm, 291, rfl⟩
abbrev main_v151 : Ref sig .tc := ⟨.hbm, 292, rfl⟩
abbrev main_v152 : Ref sig .tc := ⟨.hbm, 293, rfl⟩
abbrev main_v153 : Ref sig .tc := ⟨.hbm, 294, rfl⟩
abbrev main_v154 : Ref sig .tc := ⟨.hbm, 295, rfl⟩
abbrev main_v155 : Ref sig .tc := ⟨.hbm, 296, rfl⟩
abbrev main_v156 : Ref sig .tc := ⟨.hbm, 297, rfl⟩
abbrev main_v157 : Ref sig .tc := ⟨.hbm, 298, rfl⟩
abbrev main_v158 : Ref sig .tc := ⟨.hbm, 299, rfl⟩
abbrev main_v159 : Ref sig .tc := ⟨.hbm, 300, rfl⟩
abbrev main_cst_32 : Ref sig .tc := ⟨.hbm, 301, rfl⟩
abbrev main_v160 : Ref sig .tc := ⟨.hbm, 302, rfl⟩
abbrev main_cst_33 : Ref sig .tc := ⟨.hbm, 303, rfl⟩
abbrev main_v161 : Ref sig .tc := ⟨.hbm, 304, rfl⟩
abbrev main_v162 : Ref sig .tc := ⟨.hbm, 305, rfl⟩
abbrev main_v163 : Ref sig .tc := ⟨.hbm, 306, rfl⟩
abbrev main_v164 : Ref sig .tc := ⟨.hbm, 307, rfl⟩
abbrev main_v165 : Ref sig .tc := ⟨.hbm, 308, rfl⟩
abbrev main_v166 : Ref sig .tc := ⟨.hbm, 309, rfl⟩
abbrev main_cst_34 : Ref sig .tc := ⟨.hbm, 310, rfl⟩
abbrev main_v167 : Ref sig .tc := ⟨.hbm, 311, rfl⟩
abbrev main_cst_35 : Ref sig .tc := ⟨.hbm, 312, rfl⟩
abbrev main_v168 : Ref sig .tc := ⟨.hbm, 313, rfl⟩
abbrev main_v169 : Ref sig .tc := ⟨.hbm, 314, rfl⟩
abbrev main_v170 : Ref sig .tc := ⟨.hbm, 315, rfl⟩
abbrev main_v171 : Ref sig .tc := ⟨.hbm, 316, rfl⟩
abbrev main_v172 : Ref sig .tc := ⟨.hbm, 317, rfl⟩
abbrev main_v173 : Ref sig .tc := ⟨.hbm, 318, rfl⟩
abbrev main_v174 : Ref sig .tc := ⟨.hbm, 319, rfl⟩
abbrev main_v175 : Ref sig .tc := ⟨.hbm, 320, rfl⟩
abbrev main_cst_36 : Ref sig .tc := ⟨.hbm, 321, rfl⟩
abbrev main_v176 : Ref sig .tc := ⟨.hbm, 322, rfl⟩
abbrev main_v177 : Ref sig .tc := ⟨.hbm, 323, rfl⟩
abbrev main_v178 : Ref sig .tc := ⟨.hbm, 324, rfl⟩
abbrev main_v179 : Ref sig .tc := ⟨.hbm, 325, rfl⟩
abbrev main_v180 : Ref sig .tc := ⟨.hbm, 326, rfl⟩
abbrev main_v181 : Ref sig .tc := ⟨.hbm, 327, rfl⟩
abbrev main_v182 : Ref sig .tc := ⟨.hbm, 328, rfl⟩
abbrev main_v183 : Ref sig .tc := ⟨.hbm, 329, rfl⟩
abbrev main_v184 : Ref sig .tc := ⟨.hbm, 330, rfl⟩
abbrev main_cst_37 : Ref sig .tc := ⟨.hbm, 331, rfl⟩
abbrev main_v185 : Ref sig .tc := ⟨.hbm, 332, rfl⟩
abbrev main_v186 : Ref sig .tc := ⟨.hbm, 333, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg5_0 : Ref sig .tc := ⟨.vmem, 30, rfl⟩
abbrev cc3_stg6_0 : Ref sig .tc := ⟨.vmem, 31, rfl⟩
abbrev cc3_stg7_0 : Ref sig .tc := ⟨.vmem, 32, rfl⟩
abbrev cc3_stg7_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg2_0 : Ref sig .tc := ⟨.vmem, 37, rfl⟩
abbrev cc4_stg3_0 : Ref sig .tc := ⟨.vmem, 38, rfl⟩
abbrev cc4_stg4_0 : Ref sig .tc := ⟨.vmem, 39, rfl⟩
abbrev cc4_stg5_0 : Ref sig .tc := ⟨.vmem, 40, rfl⟩
abbrev cc4_stg6_0 : Ref sig .tc := ⟨.vmem, 41, rfl⟩
abbrev cc4_stg7_0 : Ref sig .tc := ⟨.vmem, 42, rfl⟩
abbrev cc4_stg7_1 : Ref sig .tc := ⟨.vmem, 43, rfl⟩
abbrev cc5_stg0_0 : Ref sig .tc := ⟨.vmem, 44, rfl⟩
abbrev cc5_stg0_1 : Ref sig .tc := ⟨.vmem, 45, rfl⟩
abbrev cc5_stg1_0 : Ref sig .tc := ⟨.vmem, 46, rfl⟩
abbrev cc5_stg2_0 : Ref sig .tc := ⟨.vmem, 47, rfl⟩
abbrev cc5_stg3_0 : Ref sig .tc := ⟨.vmem, 48, rfl⟩
abbrev cc5_stg3_1 : Ref sig .tc := ⟨.vmem, 49, rfl⟩
abbrev cc6_stg0_0 : Ref sig .tc := ⟨.vmem, 50, rfl⟩
abbrev cc6_stg0_1 : Ref sig .tc := ⟨.vmem, 51, rfl⟩
abbrev cc6_stg1_0 : Ref sig .tc := ⟨.vmem, 52, rfl⟩
abbrev cc6_stg2_0 : Ref sig .tc := ⟨.vmem, 53, rfl⟩
abbrev cc6_stg3_0 : Ref sig .tc := ⟨.vmem, 54, rfl⟩
abbrev cc6_stg4_0 : Ref sig .tc := ⟨.vmem, 55, rfl⟩
abbrev cc6_stg5_0 : Ref sig .tc := ⟨.vmem, 56, rfl⟩
abbrev cc6_stg6_0 : Ref sig .tc := ⟨.vmem, 57, rfl⟩
abbrev cc6_stg7_0 : Ref sig .tc := ⟨.vmem, 58, rfl⟩
abbrev cc6_stg7_1 : Ref sig .tc := ⟨.vmem, 59, rfl⟩
abbrev cc7_stg0_0 : Ref sig .tc := ⟨.vmem, 60, rfl⟩
abbrev cc7_stg0_1 : Ref sig .tc := ⟨.vmem, 61, rfl⟩
abbrev cc7_stg1_0 : Ref sig .tc := ⟨.vmem, 62, rfl⟩
abbrev cc7_stg2_0 : Ref sig .tc := ⟨.vmem, 63, rfl⟩
abbrev cc7_stg3_0 : Ref sig .tc := ⟨.vmem, 64, rfl⟩
abbrev cc7_stg4_0 : Ref sig .tc := ⟨.vmem, 65, rfl⟩
abbrev cc7_stg5_0 : Ref sig .tc := ⟨.vmem, 66, rfl⟩
abbrev cc7_stg6_0 : Ref sig .tc := ⟨.vmem, 67, rfl⟩
abbrev cc7_stg7_0 : Ref sig .tc := ⟨.vmem, 68, rfl⟩
abbrev cc7_stg7_1 : Ref sig .tc := ⟨.vmem, 69, rfl⟩
abbrev cc8_stg0_0 : Ref sig .tc := ⟨.vmem, 70, rfl⟩
abbrev cc8_stg0_1 : Ref sig .tc := ⟨.vmem, 71, rfl⟩
abbrev cc8_stg1_0 : Ref sig .tc := ⟨.vmem, 72, rfl⟩
abbrev cc8_stg2_0 : Ref sig .tc := ⟨.vmem, 73, rfl⟩
abbrev cc8_stg3_0 : Ref sig .tc := ⟨.vmem, 74, rfl⟩
abbrev cc8_stg3_1 : Ref sig .tc := ⟨.vmem, 75, rfl⟩
abbrev cc9_stg0_0 : Ref sig .tc := ⟨.vmem, 76, rfl⟩
abbrev cc9_stg0_1 : Ref sig .tc := ⟨.vmem, 77, rfl⟩
abbrev cc9_stg1_0 : Ref sig .tc := ⟨.vmem, 78, rfl⟩
abbrev cc9_stg2_0 : Ref sig .tc := ⟨.vmem, 79, rfl⟩
abbrev cc9_stg3_0 : Ref sig .tc := ⟨.vmem, 80, rfl⟩
abbrev cc9_stg4_0 : Ref sig .tc := ⟨.vmem, 81, rfl⟩
abbrev cc9_stg5_0 : Ref sig .tc := ⟨.vmem, 82, rfl⟩
abbrev cc9_stg6_0 : Ref sig .tc := ⟨.vmem, 83, rfl⟩
abbrev cc9_stg7_0 : Ref sig .tc := ⟨.vmem, 84, rfl⟩
abbrev cc9_stg7_1 : Ref sig .tc := ⟨.vmem, 85, rfl⟩
abbrev cc10_stg0_0 : Ref sig .tc := ⟨.vmem, 86, rfl⟩
abbrev cc10_stg0_1 : Ref sig .tc := ⟨.vmem, 87, rfl⟩
abbrev cc10_stg1_0 : Ref sig .tc := ⟨.vmem, 88, rfl⟩
abbrev cc10_stg2_0 : Ref sig .tc := ⟨.vmem, 89, rfl⟩
abbrev cc10_stg3_0 : Ref sig .tc := ⟨.vmem, 90, rfl⟩
abbrev cc10_stg4_0 : Ref sig .tc := ⟨.vmem, 91, rfl⟩
abbrev cc10_stg5_0 : Ref sig .tc := ⟨.vmem, 92, rfl⟩
abbrev cc10_stg6_0 : Ref sig .tc := ⟨.vmem, 93, rfl⟩
abbrev cc10_stg7_0 : Ref sig .tc := ⟨.vmem, 94, rfl⟩
abbrev cc10_stg7_1 : Ref sig .tc := ⟨.vmem, 95, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem3_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem3_0 : DmaSem sig := 28
abbrev cc3_sem4_0 : DmaSem sig := 29
abbrev cc3_sem5_0 : DmaSem sig := 30
abbrev cc3_sem6_0 : DmaSem sig := 31
abbrev cc3_sem7_0 : DmaSem sig := 32
abbrev cc3_sem7_1 : DmaSem sig := 33
abbrev cc4_sem0_0 : DmaSem sig := 34
abbrev cc4_sem0_1 : DmaSem sig := 35
abbrev cc4_sem1_0 : DmaSem sig := 36
abbrev cc4_sem2_0 : DmaSem sig := 37
abbrev cc4_sem3_0 : DmaSem sig := 38
abbrev cc4_sem4_0 : DmaSem sig := 39
abbrev cc4_sem5_0 : DmaSem sig := 40
abbrev cc4_sem6_0 : DmaSem sig := 41
abbrev cc4_sem7_0 : DmaSem sig := 42
abbrev cc4_sem7_1 : DmaSem sig := 43
abbrev cc5_sem0_0 : DmaSem sig := 44
abbrev cc5_sem0_1 : DmaSem sig := 45
abbrev cc5_sem1_0 : DmaSem sig := 46
abbrev cc5_sem2_0 : DmaSem sig := 47
abbrev cc5_sem3_0 : DmaSem sig := 48
abbrev cc5_sem3_1 : DmaSem sig := 49
abbrev cc6_sem0_0 : DmaSem sig := 50
abbrev cc6_sem0_1 : DmaSem sig := 51
abbrev cc6_sem1_0 : DmaSem sig := 52
abbrev cc6_sem2_0 : DmaSem sig := 53
abbrev cc6_sem3_0 : DmaSem sig := 54
abbrev cc6_sem4_0 : DmaSem sig := 55
abbrev cc6_sem5_0 : DmaSem sig := 56
abbrev cc6_sem6_0 : DmaSem sig := 57
abbrev cc6_sem7_0 : DmaSem sig := 58
abbrev cc6_sem7_1 : DmaSem sig := 59
abbrev cc7_sem0_0 : DmaSem sig := 60
abbrev cc7_sem0_1 : DmaSem sig := 61
abbrev cc7_sem1_0 : DmaSem sig := 62
abbrev cc7_sem2_0 : DmaSem sig := 63
abbrev cc7_sem3_0 : DmaSem sig := 64
abbrev cc7_sem4_0 : DmaSem sig := 65
abbrev cc7_sem5_0 : DmaSem sig := 66
abbrev cc7_sem6_0 : DmaSem sig := 67
abbrev cc7_sem7_0 : DmaSem sig := 68
abbrev cc7_sem7_1 : DmaSem sig := 69
abbrev cc8_sem0_0 : DmaSem sig := 70
abbrev cc8_sem0_1 : DmaSem sig := 71
abbrev cc8_sem1_0 : DmaSem sig := 72
abbrev cc8_sem2_0 : DmaSem sig := 73
abbrev cc8_sem3_0 : DmaSem sig := 74
abbrev cc8_sem3_1 : DmaSem sig := 75
abbrev cc9_sem0_0 : DmaSem sig := 76
abbrev cc9_sem0_1 : DmaSem sig := 77
abbrev cc9_sem1_0 : DmaSem sig := 78
abbrev cc9_sem2_0 : DmaSem sig := 79
abbrev cc9_sem3_0 : DmaSem sig := 80
abbrev cc9_sem4_0 : DmaSem sig := 81
abbrev cc9_sem5_0 : DmaSem sig := 82
abbrev cc9_sem6_0 : DmaSem sig := 83
abbrev cc9_sem7_0 : DmaSem sig := 84
abbrev cc9_sem7_1 : DmaSem sig := 85
abbrev cc10_sem0_0 : DmaSem sig := 86
abbrev cc10_sem0_1 : DmaSem sig := 87
abbrev cc10_sem1_0 : DmaSem sig := 88
abbrev cc10_sem2_0 : DmaSem sig := 89
abbrev cc10_sem3_0 : DmaSem sig := 90
abbrev cc10_sem4_0 : DmaSem sig := 91
abbrev cc10_sem5_0 : DmaSem sig := 92
abbrev cc10_sem6_0 : DmaSem sig := 93
abbrev cc10_sem7_0 : DmaSem sig := 94
abbrev cc10_sem7_1 : DmaSem sig := 95

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![40], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S256x256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x256 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S5000x256 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x256 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S256x256 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x256 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S5000x256 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev grid5 : Pipeline.Grid := ⟨1, ![8], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S256x256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x256 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![8], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x256 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x256 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x256 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x256 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S256x256 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x256 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 2 → Memref sig .tc .vmem S5000x256 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

abbrev grid7 : Pipeline.Grid := ⟨1, ![8], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x256 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x256 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x256 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x256 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x256 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S256x256 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1x256 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 2 → Memref sig .tc .vmem S5000x256 .f32 := fun | 0 => Memref.whole cc7_stg7_0 | 1 => Memref.whole cc7_stg7_1 | ⟨_ + 2, h⟩ => absurd h (Nat.not_lt.2 (Nat.le_add_left _ _))
abbrev sem7_7 : Fin 2 → DmaSem sig := fun | 0 => cc7_sem7_0 | 1 => cc7_sem7_1 | ⟨_ + 2, h⟩ => absurd h (Nat.not_lt.2 (Nat.le_add_left _ _))
abbrev reads7_7 : Fin grid7.rank → Bool := ![true]

abbrev grid8 : Pipeline.Grid := ⟨1, ![8], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x256 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S256x256 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x256 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S5000x256 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev grid9 : Pipeline.Grid := ⟨1, ![8], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_6 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_7 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x256 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x256 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x256 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x256 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x256 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 1 → Memref sig .tc .vmem S256x256 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev stage9_6 : Fin 1 → Memref sig .tc .vmem S1x256 .f32 := fun | 0 => Memref.whole cc9_stg6_0 | ⟨_ + 1, h⟩ => absurd h (Nat.not_lt.2 (Nat.le_add_left _ _))
abbrev sem9_6 : Fin 1 → DmaSem sig := fun | 0 => cc9_sem6_0 | ⟨_ + 1, h⟩ => absurd h (Nat.not_lt.2 (Nat.le_add_left _ _))
abbrev reads9_6 : Fin grid9.rank → Bool := ![false]

abbrev stage9_7 : Fin 2 → Memref sig .tc .vmem S5000x256 .f32 := fun | 0 => Memref.whole cc9_stg7_0 | 1 => Memref.whole cc9_stg7_1 | ⟨_ + 2, h⟩ => absurd h (Nat.not_lt.2 (Nat.le_add_left _ _))
abbrev sem9_7 : Fin 2 → DmaSem sig := fun | 0 => cc9_sem7_0 | 1 => cc9_sem7_1 | ⟨_ + 2, h⟩ => absurd h (Nat.not_lt.2 (Nat.le_add_left _ _))
abbrev reads9_7 : Fin grid9.rank → Bool := ![true]

abbrev grid10 : Pipeline.Grid := ⟨1, ![8], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_6 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_7 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S5000x256 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S1x256 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x256 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S1x256 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S1x256 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 1 → Memref sig .tc .vmem S256x256 .f32 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))
abbrev reads10_5 : Fin grid10.rank → Bool := ![false]

abbrev stage10_6 : Fin 1 → Memref sig .tc .vmem S1x256 .f32 := fun | 0 => Memref.whole cc10_stg6_0 | ⟨_ + 1, h⟩ => absurd h (Nat.not_lt.2 (Nat.le_add_left _ _))
abbrev sem10_6 : Fin 1 → DmaSem sig := fun | 0 => cc10_sem6_0 | ⟨_ + 1, h⟩ => absurd h (Nat.not_lt.2 (Nat.le_add_left _ _))
abbrev reads10_6 : Fin grid10.rank → Bool := ![false]

abbrev stage10_7 : Fin 2 → Memref sig .tc .vmem S5000x256 .f32 := fun | 0 => Memref.whole cc10_stg7_0 | 1 => Memref.whole cc10_stg7_1 | ⟨_ + 2, h⟩ => absurd h (Nat.not_lt.2 (Nat.le_add_left _ _))
abbrev sem10_7 : Fin 2 → DmaSem sig := fun | 0 => cc10_sem7_0 | 1 => cc10_sem7_1 | ⟨_ + 2, h⟩ => absurd h (Nat.not_lt.2 (Nat.le_add_left _ _))
abbrev reads10_7 : Fin grid10.rank → Bool := ![true]

class Facts₀ : Prop where
  slices_S2x200000_S1x200000_0_0 : S2x200000.Slices ![0, 0] S1x200000
  shapeCasts_S1x200000_S200000 : S1x200000.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  bcast_S_S200000x1 : S_.BroadcastsInDim S200000x1 (![] : Fin 0 → Fin S200000x1.rank)
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  reducesTo_S200000x1_S200000_d1 : S200000x1.ReducesTo [1] S200000
  h_S_ : 0 < S_.numel
  bcast_S200000_S200000x256_0 : S200000.BroadcastsInDim S200000x256 (![0] : Fin 1 → Fin S200000x256.rank)
  bcast_S_S200000x256 : S_.BroadcastsInDim S200000x256 (![] : Fin 0 → Fin S200000x256.rank)
  slices_S2x120000_S1x120000_0_0 : S2x120000.Slices ![0, 0] S1x120000
  shapeCasts_S1x120000_S120000 : S1x120000.ShapeCasts S120000
  bcast_S_S120000 : S_.BroadcastsInDim S120000 (![] : Fin 0 → Fin S120000.rank)
  bcast_S120000_S120000x1_0 : S120000.BroadcastsInDim S120000x1 (![0] : Fin 1 → Fin S120000x1.rank)
  bcast_S_S120000x1 : S_.BroadcastsInDim S120000x1 (![] : Fin 0 → Fin S120000x1.rank)
  bcast_S1x1_S120000x1_0_1 : S1x1.BroadcastsInDim S120000x1 (![0, 1] : Fin 2 → Fin S120000x1.rank)
  reducesTo_S120000x1_S120000_d1 : S120000x1.ReducesTo [1] S120000
  bcast_S120000_S120000x256_0 : S120000.BroadcastsInDim S120000x256 (![0] : Fin 1 → Fin S120000x256.rank)
  bcast_S_S120000x256 : S_.BroadcastsInDim S120000x256 (![] : Fin 0 → Fin S120000x256.rank)
  slices_S512x256_S256x256_0_0 : S512x256.Slices ![0, 0] S256x256
  slices_S512x256_S256x256_256_0 : S512x256.Slices ![256, 0] S256x256
  shapeCasts_S256_S1x256 : S256.ShapeCasts S1x256
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  slices_S2x200000_S1x200000_1_0 : S2x200000.Slices ![1, 0] S1x200000
  bcast_S_S40000x256 : S_.BroadcastsInDim S40000x256 (![] : Fin 0 → Fin S40000x256.rank)
  slices_S2x120000_S1x120000_1_0 : S2x120000.Slices ![1, 0] S1x120000
  shapeCasts_S1_S_ : S1.ShapeCasts S_
  slices_S768x256_S256x256_0_0 : S768x256.Slices ![0, 0] S256x256
  slices_S768x256_S256x256_256_0 : S768x256.Slices ![256, 0] S256x256
  slices_S768x256_S256x256_512_0 : S768x256.Slices ![512, 0] S256x256
  reducesTo_S40000x256_S256_d0 : S40000x256.ReducesTo [0] S256
  bcast_S_S256 : S_.BroadcastsInDim S256 (![] : Fin 0 → Fin S256.rank)
  bcast_S256_S1x256_1 : S256.BroadcastsInDim S1x256 (![1] : Fin 1 → Fin S1x256.rank)
  bcast_S1x256_S40000x256_0_1 : S1x256.BroadcastsInDim S40000x256 (![0, 1] : Fin 2 → Fin S40000x256.rank)
  gather_S40000x256_S200000x1_S200000x256_1_0_n_n_0_1_1256_wf : GatherDims.WF S40000x256 S200000x1 S200000x256 [1] [0] [] [0] [] 1 ![1, 256]
  gather_S60000x256_S120000x1_S120000x256_1_0_n_n_0_1_1256_wf : GatherDims.WF S60000x256 S120000x1 S120000x256 [1] [0] [] [0] [] 1 ![1, 256]
  dot_S5000x256_S256x256_S5000x256_1_0_0_1_n_n_wf : DotDims.WF S5000x256 S256x256 S5000x256 [1] [0] [0] [1] [] []
  scatter_S40000x256_S200000x1_S200000x256_1_0_0_1_wf : ScatterDims.WF S40000x256 S200000x1 S200000x256 [1] [0] [0] 1
  scatter_S40000x256_S120000x1_S120000x256_1_0_0_1_wf : ScatterDims.WF S40000x256 S120000x1 S120000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S200000x256.size a
  hwx0_0 : ∀ i : grid0.Coords, EltTy.bits .f32 = 32 ∨ (Rect.block (s := S200000x256) S5000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x256.size a ≤ S200000x256.size a
  hwx0_1 : ∀ i : grid0.Coords, EltTy.bits .f32 = 32 ∨ (Rect.block (s := S200000x256) S5000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x256.size a ≤ S200000x256.size a
  hwx0_5 : ∀ i : grid0.Coords, EltTy.bits .f32 = 32 ∨ (Rect.block (s := S200000x256) S5000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S200000x256.size a
  hwx1_0 : ∀ i : grid1.Coords, EltTy.bits .f32 = 32 ∨ (Rect.block (s := S200000x256) S5000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x256.size a ≤ S200000x256.size a
  hwx1_1 : ∀ i : grid1.Coords, EltTy.bits .f32 = 32 ∨ (Rect.block (s := S200000x256) S5000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x256.size a ≤ S200000x256.size a
  hwx1_5 : ∀ i : grid1.Coords, EltTy.bits .f32 = 32 ∨ (Rect.block (s := S200000x256) S5000x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S40000x256.size a
  hwx2_0 : ∀ i : grid2.Coords, EltTy.bits .f32 = 32 ∨ (Rect.block (s := S40000x256) S5000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x256.size a ≤ S40000x256.size a
  hwx2_3 : ∀ i : grid2.Coords, EltTy.bits .f32 = 32 ∨ (Rect.block (s := S40000x256) S5000x256.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x256.size a ≤ S40000x256.size a
  hwx3_0 : ∀ i : grid3.Coords, EltTy.bits .f32 = 32 ∨ (Rect.block (s := S40000x256) S5000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x256.size a ≤ S1x256.size a
  hwx3_1 : ∀ i : grid3.Coords, EltTy.bits .f32 = 32 ∨ (Rect.block (s := S1x256) S1x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x256.size a ≤ S1x256.size a
  hwx3_4 : ∀ i : grid3.Coords, EltTy.bits .f32 = 32 ∨ (Rect.block (s := S1x256) S1x256.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S256x256.size a ≤ S256x256.size a
  hwx3_5 : ∀ i : grid3.Coords, EltTy.bits .f32 = 32 ∨ (Rect.block (s := S256x256) S256x256.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x256.size a ≤ S1x256.size a
  hwx3_6 : ∀ i : grid3.Coords, EltTy.bits .f32 = 32 ∨ (Rect.block (s := S1x256) S1x256.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S5000x256.size a ≤ S40000x256.size a
  hwx3_7 : ∀ i : grid3.Coords, EltTy.bits .f32 = 32 ∨ (Rect.block (s := S40000x256) S5000x256.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x256.size a ≤ S40000x256.size a
  hwx4_0 : ∀ i : grid4.Coords, EltTy.bits .f32 = 32 ∨ (Rect.block (s := S40000x256) S5000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x256.size a ≤ S1x256.size a
  hwx4_1 : ∀ i : grid4.Coords, EltTy.bits .f32 = 32 ∨ (Rect.block (s := S1x256) S1x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x256.size a ≤ S1x256.size a
  hwx4_2 : ∀ i : grid4.Coords, EltTy.bits .f32 = 32 ∨ (Rect.block (s := S1x256) S1x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x256.size a ≤ S1x256.size a
  hwx4_3 : ∀ i : grid4.Coords, EltTy.bits .f32 = 32 ∨ (Rect.block (s := S1x256) S1x256.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x256.size a ≤ S1x256.size a
  hwx4_4 : ∀ i : grid4.Coords, EltTy.bits .f32 = 32 ∨ (Rect.block (s := S1x256) S1x256.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S256x256.size a ≤ S256x256.size a
  hwx4_5 : ∀ i : grid4.Coords, EltTy.bits .f32 = 32 ∨ (Rect.block (s := S256x256) S256x256.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x256.size a ≤ S1x256.size a
  hwx4_6 : ∀ i : grid4.Coords, EltTy.bits .f32 = 32 ∨ (Rect.block (s := S1x256) S1x256.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S5000x256.size a ≤ S40000x256.size a
  hwx4_7 : ∀ i : grid4.Coords, EltTy.bits .f32 = 32 ∨ (Rect.block (s := S40000x256) S5000x256.size (cc4_transform_7 i) (hinb4_7 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x256.size a ≤ S40000x256.size a
  hwx5_0 : ∀ i : grid5.Coords, EltTy.bits .f32 = 32 ∨ (Rect.block (s := S40000x256) S5000x256.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S256x256.size a ≤ S256x256.size a
  hwx5_1 : ∀ i : grid5.Coords, EltTy.bits .f32 = 32 ∨ (Rect.block (s := S256x256) S256x256.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x256.size a ≤ S1x256.size a
  hwx5_2 : ∀ i : grid5.Coords, EltTy.bits .f32 = 32 ∨ (Rect.block (s := S1x256) S1x256.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x256.size a ≤ S40000x256.size a
  hwx5_3 : ∀ i : grid5.Coords, EltTy.bits .f32 = 32 ∨ (Rect.block (s := S40000x256) S5000x256.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x256.size a ≤ S40000x256.size a
  hwx6_0 : ∀ i : grid6.Coords, EltTy.bits .f32 = 32 ∨ (Rect.block (s := S40000x256) S5000x256.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x256.size a ≤ S1x256.size a
  hwx6_1 : ∀ i : grid6.Coords, EltTy.bits .f32 = 32 ∨ (Rect.block (s := S1x256) S1x256.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x256.size a ≤ S1x256.size a
  hwx6_2 : ∀ i : grid6.Coords, EltTy.bits .f32 = 32 ∨ (Rect.block (s := S1x256) S1x256.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x256.size a ≤ S1x256.size a
  hwx6_3 : ∀ i : grid6.Coords, EltTy.bits .f32 = 32 ∨ (Rect.block (s := S1x256) S1x256.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x256.size a ≤ S1x256.size a
  hwx6_4 : ∀ i : grid6.Coords, EltTy.bits .f32 = 32 ∨ (Rect.block (s := S1x256) S1x256.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S256x256.size a ≤ S256x256.size a
  hwx6_5 : ∀ i : grid6.Coords, EltTy.bits .f32 = 32 ∨ (Rect.block (s := S256x256) S256x256.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x256.size a ≤ S1x256.size a
  hwx6_6 : ∀ i : grid6.Coords, EltTy.bits .f32 = 32 ∨ (Rect.block (s := S1x256) S1x256.size (cc6_transform_6 i) (hinb6_6 i)).WholeWords (EltTy.packing .f32)
  hstage6_7 : ∀ j, (stage6_7 j).IsWhole
  nbuf6_7 : grid6.bufCount reads6_7 false = 2
  hreads6_7 : ∀ i i' : grid6.Coords, (∀ a, reads6_7 a = true → i a = i' a) → cc6_transform_7 i = cc6_transform_7 i'
  hinb6_7 : ∀ (i : grid6.Coords) a, (cc6_transform_7 i a + 1) * S5000x256.size a ≤ S40000x256.size a
  hwx6_7 : ∀ i : grid6.Coords, EltTy.bits .f32 = 32 ∨ (Rect.block (s := S40000x256) S5000x256.size (cc6_transform_7 i) (hinb6_7 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x256.size a ≤ S40000x256.size a
  hwx7_0 : ∀ i : grid7.Coords, EltTy.bits .f32 = 32 ∨ (Rect.block (s := S40000x256) S5000x256.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x256.size a ≤ S1x256.size a
  hwx7_1 : ∀ i : grid7.Coords, EltTy.bits .f32 = 32 ∨ (Rect.block (s := S1x256) S1x256.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x256.size a ≤ S1x256.size a
  hwx7_2 : ∀ i : grid7.Coords, EltTy.bits .f32 = 32 ∨ (Rect.block (s := S1x256) S1x256.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x256.size a ≤ S1x256.size a
  hwx7_3 : ∀ i : grid7.Coords, EltTy.bits .f32 = 32 ∨ (Rect.block (s := S1x256) S1x256.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x256.size a ≤ S1x256.size a
  hwx7_4 : ∀ i : grid7.Coords, EltTy.bits .f32 = 32 ∨ (Rect.block (s := S1x256) S1x256.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S256x256.size a ≤ S256x256.size a
  hwx7_5 : ∀ i : grid7.Coords, EltTy.bits .f32 = 32 ∨ (Rect.block (s := S256x256) S256x256.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1x256.size a ≤ S1x256.size a
  hwx7_6 : ∀ i : grid7.Coords, EltTy.bits .f32 = 32 ∨ (Rect.block (s := S1x256) S1x256.size (cc7_transform_6 i) (hinb7_6 i)).WholeWords (EltTy.packing .f32)
  hstage7_7 : ∀ j, (stage7_7 j).IsWhole
  nbuf7_7 : grid7.bufCount reads7_7 false = 2
  hreads7_7 : ∀ i i' : grid7.Coords, (∀ a, reads7_7 a = true → i a = i' a) → cc7_transform_7 i = cc7_transform_7 i'
  hinb7_7 : ∀ (i : grid7.Coords) a, (cc7_transform_7 i a + 1) * S5000x256.size a ≤ S40000x256.size a
  hwx7_7 : ∀ i : grid7.Coords, EltTy.bits .f32 = 32 ∨ (Rect.block (s := S40000x256) S5000x256.size (cc7_transform_7 i) (hinb7_7 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x256.size a ≤ S40000x256.size a
  hwx8_0 : ∀ i : grid8.Coords, EltTy.bits .f32 = 32 ∨ (Rect.block (s := S40000x256) S5000x256.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S256x256.size a ≤ S256x256.size a
  hwx8_1 : ∀ i : grid8.Coords, EltTy.bits .f32 = 32 ∨ (Rect.block (s := S256x256) S256x256.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x256.size a ≤ S1x256.size a
  hwx8_2 : ∀ i : grid8.Coords, EltTy.bits .f32 = 32 ∨ (Rect.block (s := S1x256) S1x256.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S5000x256.size a ≤ S40000x256.size a
  hwx8_3 : ∀ i : grid8.Coords, EltTy.bits .f32 = 32 ∨ (Rect.block (s := S40000x256) S5000x256.size (cc8_transform_3 i) (hinb8_3 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x256.size a ≤ S40000x256.size a
  hwx9_0 : ∀ i : grid9.Coords, EltTy.bits .f32 = 32 ∨ (Rect.block (s := S40000x256) S5000x256.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x256.size a ≤ S1x256.size a
  hwx9_1 : ∀ i : grid9.Coords, EltTy.bits .f32 = 32 ∨ (Rect.block (s := S1x256) S1x256.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x256.size a ≤ S1x256.size a
  hwx9_2 : ∀ i : grid9.Coords, EltTy.bits .f32 = 32 ∨ (Rect.block (s := S1x256) S1x256.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x256.size a ≤ S1x256.size a
  hwx9_3 : ∀ i : grid9.Coords, EltTy.bits .f32 = 32 ∨ (Rect.block (s := S1x256) S1x256.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x256.size a ≤ S1x256.size a
  hwx9_4 : ∀ i : grid9.Coords, EltTy.bits .f32 = 32 ∨ (Rect.block (s := S1x256) S1x256.size (cc9_transform_4 i) (hinb9_4 i)).WholeWords (EltTy.packing .f32)
  hstage9_5 : ∀ j, (stage9_5 j).IsWhole
  nbuf9_5 : grid9.bufCount reads9_5 true = 1
  hreads9_5 : ∀ i i' : grid9.Coords, (∀ a, reads9_5 a = true → i a = i' a) → cc9_transform_5 i = cc9_transform_5 i'
  hinb9_5 : ∀ (i : grid9.Coords) a, (cc9_transform_5 i a + 1) * S256x256.size a ≤ S256x256.size a
  hwx9_5 : ∀ i : grid9.Coords, EltTy.bits .f32 = 32 ∨ (Rect.block (s := S256x256) S256x256.size (cc9_transform_5 i) (hinb9_5 i)).WholeWords (EltTy.packing .f32)
  hstage9_6 : ∀ j, (stage9_6 j).IsWhole
  nbuf9_6 : grid9.bufCount reads9_6 true = 1
  hreads9_6 : ∀ i i' : grid9.Coords, (∀ a, reads9_6 a = true → i a = i' a) → cc9_transform_6 i = cc9_transform_6 i'
  hinb9_6 : ∀ (i : grid9.Coords) a, (cc9_transform_6 i a + 1) * S1x256.size a ≤ S1x256.size a
  hwx9_6 : ∀ i : grid9.Coords, EltTy.bits .f32 = 32 ∨ (Rect.block (s := S1x256) S1x256.size (cc9_transform_6 i) (hinb9_6 i)).WholeWords (EltTy.packing .f32)
  hstage9_7 : ∀ j, (stage9_7 j).IsWhole
  nbuf9_7 : grid9.bufCount reads9_7 false = 2
  hreads9_7 : ∀ i i' : grid9.Coords, (∀ a, reads9_7 a = true → i a = i' a) → cc9_transform_7 i = cc9_transform_7 i'
  hinb9_7 : ∀ (i : grid9.Coords) a, (cc9_transform_7 i a + 1) * S5000x256.size a ≤ S40000x256.size a
  hwx9_7 : ∀ i : grid9.Coords, EltTy.bits .f32 = 32 ∨ (Rect.block (s := S40000x256) S5000x256.size (cc9_transform_7 i) (hinb9_7 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x256.size a ≤ S40000x256.size a
  hwx10_0 : ∀ i : grid10.Coords, EltTy.bits .f32 = 32 ∨ (Rect.block (s := S40000x256) S5000x256.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S1x256.size a ≤ S1x256.size a
  hwx10_1 : ∀ i : grid10.Coords, EltTy.bits .f32 = 32 ∨ (Rect.block (s := S1x256) S1x256.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x256.size a ≤ S1x256.size a
  hwx10_2 : ∀ i : grid10.Coords, EltTy.bits .f32 = 32 ∨ (Rect.block (s := S1x256) S1x256.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S1x256.size a ≤ S1x256.size a
  hwx10_3 : ∀ i : grid10.Coords, EltTy.bits .f32 = 32 ∨ (Rect.block (s := S1x256) S1x256.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S1x256.size a ≤ S1x256.size a
  hwx10_4 : ∀ i : grid10.Coords, EltTy.bits .f32 = 32 ∨ (Rect.block (s := S1x256) S1x256.size (cc10_transform_4 i) (hinb10_4 i)).WholeWords (EltTy.packing .f32)
  hstage10_5 : ∀ j, (stage10_5 j).IsWhole
  nbuf10_5 : grid10.bufCount reads10_5 true = 1
  hreads10_5 : ∀ i i' : grid10.Coords, (∀ a, reads10_5 a = true → i a = i' a) → cc10_transform_5 i = cc10_transform_5 i'
  hinb10_5 : ∀ (i : grid10.Coords) a, (cc10_transform_5 i a + 1) * S256x256.size a ≤ S256x256.size a
  hwx10_5 : ∀ i : grid10.Coords, EltTy.bits .f32 = 32 ∨ (Rect.block (s := S256x256) S256x256.size (cc10_transform_5 i) (hinb10_5 i)).WholeWords (EltTy.packing .f32)
  hstage10_6 : ∀ j, (stage10_6 j).IsWhole
  nbuf10_6 : grid10.bufCount reads10_6 true = 1
  hreads10_6 : ∀ i i' : grid10.Coords, (∀ a, reads10_6 a = true → i a = i' a) → cc10_transform_6 i = cc10_transform_6 i'
  hinb10_6 : ∀ (i : grid10.Coords) a, (cc10_transform_6 i a + 1) * S1x256.size a ≤ S1x256.size a
  hwx10_6 : ∀ i : grid10.Coords, EltTy.bits .f32 = 32 ∨ (Rect.block (s := S1x256) S1x256.size (cc10_transform_6 i) (hinb10_6 i)).WholeWords (EltTy.packing .f32)
  hstage10_7 : ∀ j, (stage10_7 j).IsWhole
  nbuf10_7 : grid10.bufCount reads10_7 false = 2
  hreads10_7 : ∀ i i' : grid10.Coords, (∀ a, reads10_7 a = true → i a = i' a) → cc10_transform_7 i = cc10_transform_7 i'
  hinb10_7 : ∀ (i : grid10.Coords) a, (cc10_transform_7 i a + 1) * S5000x256.size a ≤ S40000x256.size a
  hwx10_7 : ∀ i : grid10.Coords, EltTy.bits .f32 = 32 ∨ (Rect.block (s := S40000x256) S5000x256.size (cc10_transform_7 i) (hinb10_7 i)).WholeWords (EltTy.packing .f32)

variable [Facts₀]

def gather_S40000x256_S200000x1_S200000x256_1_0_n_n_0_1_1256 : GatherDims S40000x256 S200000x1 S200000x256 where
  offsetDims := [1]
  collapsedSliceDims := [0]
  operandBatchingDims := []
  startIndicesBatchingDims := []
  startIndexMap := [0]
  indexVectorDim := 1
  sliceSizes := ![1, 256]
  wf := gather_S40000x256_S200000x1_S200000x256_1_0_n_n_0_1_1256_wf
def gather_S60000x256_S120000x1_S120000x256_1_0_n_n_0_1_1256 : GatherDims S60000x256 S120000x1 S120000x256 where
  offsetDims := [1]
  collapsedSliceDims := [0]
  operandBatchingDims := []
  startIndicesBatchingDims := []
  startIndexMap := [0]
  indexVectorDim := 1
  sliceSizes := ![1, 256]
  wf := gather_S60000x256_S120000x1_S120000x256_1_0_n_n_0_1_1256_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def scatter_S40000x256_S200000x1_S200000x256_1_0_0_1 : ScatterDims S40000x256 S200000x1 S200000x256 where
  updateWindowDims := [1]
  insertedWindowDims := [0]
  scatterDimsToOperandDims := [0]
  indexVectorDim := 1
  wf := scatter_S40000x256_S200000x1_S200000x256_1_0_0_1_wf
def scatter_S40000x256_S120000x1_S120000x256_1_0_0_1 : ScatterDims S40000x256 S120000x1 S120000x256 where
  updateWindowDims := [1]
  insertedWindowDims := [0]
  scatterDimsToOperandDims := [0]
  indexVectorDim := 1
  wf := scatter_S40000x256_S120000x1_S120000x256_1_0_0_1_wf

abbrev win0_0 : Pipeline.Window sig grid0 :=
  Pipeline.Window.ofSpec (Memref.whole main_v2) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S5000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v5) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S5000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v14) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v15) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v16) S5000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v38) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v50) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v51) S5000x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v51) S5000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v64) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v65) S1x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg12) S256x256.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v66) S1x256.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v67) S5000x256.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v67) S5000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v79) S1x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v80) S1x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v81) S1x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v82) S1x256.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v47) S256x256.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v83) S1x256.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v84) S5000x256.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev win5_0 : Pipeline.Window sig grid5 :=
  Pipeline.Window.ofSpec (Memref.whole main_v42) S5000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg16) S256x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v85) S1x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v86) S5000x256.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v86) S5000x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v97) S1x256.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v98) S1x256.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v99) S1x256.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v100) S1x256.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_arg20) S256x256.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v101) S1x256.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v102) S5000x256.size cc6_transform_7 reads6_7 true false 2 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

abbrev win7_0 : Pipeline.Window sig grid7 :=
  Pipeline.Window.ofSpec (Memref.whole main_v102) S5000x256.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v114) S1x256.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v115) S1x256.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v116) S1x256.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v117) S1x256.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v48) S256x256.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v118) S1x256.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_v119) S5000x256.size cc7_transform_7 reads7_7 true false 2 stage7_7 sem7_7
    hrank7 hreads7_7 hinb7_7 nbuf7_7 (Memref.isWhole_whole _) hwx7_7 hstage7_7

abbrev win7 : Fin 8 → Pipeline.Window sig grid7 := fun | 0 => win7_0 | 1 => win7_1 | 2 => win7_2 | 3 => win7_3 | 4 => win7_4 | 5 => win7_5 | 6 => win7_6 | 7 => win7_7 | ⟨_ + 8, h⟩ => absurd h (Nat.not_lt.2 (Nat.le_add_left _ _))
abbrev spec7 : Fin 8 → Pipeline.WinSpec sig grid7.rank := fun w => (win7 w).toWinSpec

abbrev win8_0 : Pipeline.Window sig grid8 :=
  Pipeline.Window.ofSpec (Memref.whole main_v46) S5000x256.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg24) S256x256.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v120) S1x256.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v121) S5000x256.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

abbrev win9_0 : Pipeline.Window sig grid9 :=
  Pipeline.Window.ofSpec (Memref.whole main_v121) S5000x256.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v132) S1x256.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v133) S1x256.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v134) S1x256.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v135) S1x256.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_arg28) S256x256.size cc9_transform_5 reads9_5 false true 1 stage9_5 sem9_5
    hrank9 hreads9_5 hinb9_5 nbuf9_5 (Memref.isWhole_whole _) hwx9_5 hstage9_5

abbrev win9_6 : Pipeline.Window sig grid9 :=
  Pipeline.Window.ofSpec (Memref.whole main_v136) S1x256.size cc9_transform_6 reads9_6 false true 1 stage9_6 sem9_6
    hrank9 hreads9_6 hinb9_6 nbuf9_6 (Memref.isWhole_whole _) hwx9_6 hstage9_6

abbrev win9_7 : Pipeline.Window sig grid9 :=
  Pipeline.Window.ofSpec (Memref.whole main_v137) S5000x256.size cc9_transform_7 reads9_7 true false 2 stage9_7 sem9_7
    hrank9 hreads9_7 hinb9_7 nbuf9_7 (Memref.isWhole_whole _) hwx9_7 hstage9_7

abbrev win9 : Fin 8 → Pipeline.Window sig grid9 := fun | 0 => win9_0 | 1 => win9_1 | 2 => win9_2 | 3 => win9_3 | 4 => win9_4 | 5 => win9_5 | 6 => win9_6 | 7 => win9_7 | ⟨_ + 8, h⟩ => absurd h (Nat.not_lt.2 (Nat.le_add_left _ _))
abbrev spec9 : Fin 8 → Pipeline.WinSpec sig grid9.rank := fun w => (win9 w).toWinSpec

abbrev win10_0 : Pipeline.Window sig grid10 :=
  Pipeline.Window.ofSpec (Memref.whole main_v137) S5000x256.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v149) S1x256.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v150) S1x256.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v151) S1x256.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v152) S1x256.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_v49) S256x256.size cc10_transform_5 reads10_5 false true 1 stage10_5 sem10_5
    hrank10 hreads10_5 hinb10_5 nbuf10_5 (Memref.isWhole_whole _) hwx10_5 hstage10_5

abbrev win10_6 : Pipeline.Window sig grid10 :=
  Pipeline.Window.ofSpec (Memref.whole main_v153) S1x256.size cc10_transform_6 reads10_6 false true 1 stage10_6 sem10_6
    hrank10 hreads10_6 hinb10_6 nbuf10_6 (Memref.isWhole_whole _) hwx10_6 hstage10_6

abbrev win10_7 : Pipeline.Window sig grid10 :=
  Pipeline.Window.ofSpec (Memref.whole main_v154) S5000x256.size cc10_transform_7 reads10_7 true false 2 stage10_7 sem10_7
    hrank10 hreads10_7 hinb10_7 nbuf10_7 (Memref.isWhole_whole _) hwx10_7 hstage10_7

abbrev win10 : Fin 8 → Pipeline.Window sig grid10 := fun | 0 => win10_0 | 1 => win10_1 | 2 => win10_2 | 3 => win10_3 | 4 => win10_4 | 5 => win10_5 | 6 => win10_6 | 7 => win10_7 | ⟨_ + 8, h⟩ => absurd h (Nat.not_lt.2 (Nat.le_add_left _ _))
abbrev spec10 : Fin 8 → Pipeline.WinSpec sig grid10.rank := fun w => (win10 w).toWinSpec

class Facts : Prop extends Facts₀ where

variable [Facts]
-- ==== ReferenceIdeal.lean ====
abbrev S40000x256 : Shape := ⟨2, ![40000, 256]⟩
abbrev S200000x256 : Shape := ⟨2, ![200000, 256]⟩
abbrev S60000x256 : Shape := ⟨2, ![60000, 256]⟩
abbrev S512x256 : Shape := ⟨2, ![512, 256]⟩
abbrev S256 : Shape := ⟨1, ![256]⟩
abbrev S256x256 : Shape := ⟨2, ![256, 256]⟩
abbrev S768x256 : Shape := ⟨2, ![768, 256]⟩
abbrev S1 : Shape := ⟨1, ![1]⟩
abbrev S2x200000 : Shape := ⟨2, ![2, 200000]⟩
abbrev S2x120000 : Shape := ⟨2, ![2, 120000]⟩
abbrev S1x200000 : Shape := ⟨2, ![1, 200000]⟩
abbrev S200000 : Shape := ⟨1, ![200000]⟩
abbrev S_ : Shape := ⟨0, ![]⟩
abbrev S200000x1 : Shape := ⟨2, ![200000, 1]⟩
abbrev S1x256 : Shape := ⟨2, ![1, 256]⟩
abbrev S1x120000 : Shape := ⟨2, ![1, 120000]⟩
abbrev S120000 : Shape := ⟨1, ![120000]⟩
abbrev S120000x1 : Shape := ⟨2, ![120000, 1]⟩
abbrev S120000x256 : Shape := ⟨2, ![120000, 256]⟩
abbrev S1x1 : Shape := ⟨2, ![1, 1]⟩
abbrev S40000x768 : Shape := ⟨2, ![40000, 768]⟩

abbrev nBuf : Space → Nat
  | .hbm => 396
  | .vmem => 0
  | .smem => 0
  | _ => 0

abbrev hbmTy0_0 (i : Nat) : BufTy := match i % 128 with
  | 0 => ⟨S40000x256, .f32⟩
  | 1 => ⟨S200000x256, .f32⟩
  | 2 => ⟨S200000x256, .f32⟩
  | 3 => ⟨S60000x256, .f32⟩
  | 4 => ⟨S512x256, .f32⟩
  | 5 => ⟨S256, .f32⟩
  | 6 => ⟨S512x256, .f32⟩
  | 7 => ⟨S256, .f32⟩
  | 8 => ⟨S256x256, .f32⟩
  | 9 => ⟨S256, .f32⟩
  | 10 => ⟨S256, .f32⟩
  | 11 => ⟨S256, .f32⟩
  | 12 => ⟨S256x256, .f32⟩
  | 13 => ⟨S256, .f32⟩
  | 14 => ⟨S256, .f32⟩
  | 15 => ⟨S256, .f32⟩
  | 16 => ⟨S256x256, .f32⟩
  | 17 => ⟨S256, .f32⟩
  | 18 => ⟨S256, .f32⟩
  | 19 => ⟨S256, .f32⟩
  | 20 => ⟨S256x256, .f32⟩
  | 21 => ⟨S256, .f32⟩
  | 22 => ⟨S256, .f32⟩
  | 23 => ⟨S256, .f32⟩
  | 24 => ⟨S256x256, .f32⟩
  | 25 => ⟨S256, .f32⟩
  | 26 => ⟨S256, .f32⟩
  | 27 => ⟨S256, .f32⟩
  | 28 => ⟨S256x256, .f32⟩
  | 29 => ⟨S256, .f32⟩
  | 30 => ⟨S256, .f32⟩
  | 31 => ⟨S256, .f32⟩
  | 32 => ⟨S768x256, .f32⟩
  | 33 => ⟨S256, .f32⟩
  | 34 => ⟨S256, .f32⟩
  | 35 => ⟨S256, .f32⟩
  | 36 => ⟨S1, .f32⟩
  | 37 => ⟨S1, .f32⟩
  | 38 => ⟨S1, .f32⟩
  | 39 => ⟨S2x200000, .i32⟩
  | 40 => ⟨S2x200000, .i32⟩
  | 41 => ⟨S2x120000, .i32⟩
  | 42 => ⟨S1x200000, .i32⟩
  | 43 => ⟨S200000, .i32⟩
  | 44 => ⟨S_, .i32⟩
  | 45 => ⟨S200000, .i32⟩
  | 46 => ⟨S200000, .i1⟩
  | 47 => ⟨S_, .i32⟩
  | 48 => ⟨S200000, .i32⟩
  | 49 => ⟨S200000, .i32⟩
  | 50 => ⟨S200000, .i32⟩
  | 51 => ⟨S200000x1, .i32⟩
  | 52 => ⟨S200000x256, .f32⟩
  | 53 => ⟨S256x256, .f32⟩
  | 54 => ⟨S200000x256, .f32⟩
  | 55 => ⟨S256x256, .f32⟩
  | 56 => ⟨S200000x256, .f32⟩
  | 57 => ⟨S200000x256, .f32⟩
  | 58 => ⟨S1x256, .f32⟩
  | 59 => ⟨S200000x256, .f32⟩
  | 60 => ⟨S200000x256, .f32⟩
  | 61 => ⟨S_, .f32⟩
  | 62 => ⟨S200000x256, .f32⟩
  | 63 => ⟨S200000x256, .f32⟩
  | 64 => ⟨S1x200000, .i32⟩
  | 65 => ⟨S200000, .i32⟩
  | 66 => ⟨S_, .f32⟩
  | 67 => ⟨S40000x256, .f32⟩
  | 68 => ⟨S200000x1, .i32⟩
  | 69 => ⟨S40000x256, .f32⟩
  | 70 => ⟨S1x200000, .i32⟩
  | 71 => ⟨S200000, .i32⟩
  | 72 => ⟨S_, .i32⟩
  | 73 => ⟨S200000, .i32⟩
  | 74 => ⟨S200000, .i1⟩
  | 75 => ⟨S_, .i32⟩
  | 76 => ⟨S200000, .i32⟩
  | 77 => ⟨S200000, .i32⟩
  | 78 => ⟨S200000, .i32⟩
  | 79 => ⟨S200000x1, .i32⟩
  | 80 => ⟨S200000x256, .f32⟩
  | 81 => ⟨S256x256, .f32⟩
  | 82 => ⟨S200000x256, .f32⟩
  | 83 => ⟨S256x256, .f32⟩
  | 84 => ⟨S200000x256, .f32⟩
  | 85 => ⟨S200000x256, .f32⟩
  | 86 => ⟨S1x256, .f32⟩
  | 87 => ⟨S200000x256, .f32⟩
  | 88 => ⟨S200000x256, .f32⟩
  | 89 => ⟨S_, .f32⟩
  | 90 => ⟨S200000x256, .f32⟩
  | 91 => ⟨S200000x256, .f32⟩
  | 92 => ⟨S1x200000, .i32⟩
  | 93 => ⟨S200000, .i32⟩
  | 94 => ⟨S_, .f32⟩
  | 95 => ⟨S40000x256, .f32⟩
  | 96 => ⟨S200000x1, .i32⟩
  | 97 => ⟨S40000x256, .f32⟩
  | 98 => ⟨S1x120000, .i32⟩
  | 99 => ⟨S120000, .i32⟩
  | 100 => ⟨S_, .i32⟩
  | 101 => ⟨S120000, .i32⟩
  | 102 => ⟨S120000, .i1⟩
  | 103 => ⟨S_, .i32⟩
  | 104 => ⟨S120000, .i32⟩
  | 105 => ⟨S120000, .i32⟩
  | 106 => ⟨S120000, .i32⟩
  | 107 => ⟨S120000x1, .i32⟩
  | 108 => ⟨S120000x256, .f32⟩
  | 109 => ⟨S1x120000, .i32⟩
  | 110 => ⟨S120000, .i32⟩
  | 111 => ⟨S_, .f32⟩
  | 112 => ⟨S40000x256, .f32⟩
  | 113 => ⟨S120000x1, .i32⟩
  | 114 => ⟨S40000x256, .f32⟩
  | 115 => ⟨S_, .f32⟩
  | 116 => ⟨S1, .f32⟩
  | 117 => ⟨S1, .f32⟩
  | 118 => ⟨S1x1, .f32⟩
  | 119 => ⟨S40000x256, .f32⟩
  | 120 => ⟨S40000x256, .f32⟩
  | 121 => ⟨S40000x256, .f32⟩
  | 122 => ⟨S40000x256, .f32⟩
  | 123 => ⟨S1x256, .f32⟩
  | 124 => ⟨S40000x256, .f32⟩
  | 125 => ⟨S40000x256, .f32⟩
  | 126 => ⟨S_, .f32⟩
  | 127 => ⟨S256, .f32⟩
  | _ => ⟨S40000x256, .f32⟩

abbrev hbmTy0_1 (i : Nat) : BufTy := match i % 128 with
  | 0 => ⟨S_, .f32⟩
  | 1 => ⟨S256, .f32⟩
  | 2 => ⟨S256, .f32⟩
  | 3 => ⟨S1x256, .f32⟩
  | 4 => ⟨S40000x256, .f32⟩
  | 5 => ⟨S40000x256, .f32⟩
  | 6 => ⟨S40000x256, .f32⟩
  | 7 => ⟨S_, .f32⟩
  | 8 => ⟨S256, .f32⟩
  | 9 => ⟨S_, .f32⟩
  | 10 => ⟨S256, .f32⟩
  | 11 => ⟨S256, .f32⟩
  | 12 => ⟨S1x256, .f32⟩
  | 13 => ⟨S40000x256, .f32⟩
  | 14 => ⟨S40000x256, .f32⟩
  | 15 => ⟨S1x256, .f32⟩
  | 16 => ⟨S40000x256, .f32⟩
  | 17 => ⟨S40000x256, .f32⟩
  | 18 => ⟨S_, .f32⟩
  | 19 => ⟨S256, .f32⟩
  | 20 => ⟨S256, .f32⟩
  | 21 => ⟨S256, .f32⟩
  | 22 => ⟨S1x256, .f32⟩
  | 23 => ⟨S40000x256, .f32⟩
  | 24 => ⟨S40000x256, .f32⟩
  | 25 => ⟨S1x256, .f32⟩
  | 26 => ⟨S40000x256, .f32⟩
  | 27 => ⟨S40000x256, .f32⟩
  | 28 => ⟨S_, .f32⟩
  | 29 => ⟨S40000x256, .f32⟩
  | 30 => ⟨S40000x256, .f32⟩
  | 31 => ⟨S40000x256, .f32⟩
  | 32 => ⟨S1x256, .f32⟩
  | 33 => ⟨S40000x256, .f32⟩
  | 34 => ⟨S40000x256, .f32⟩
  | 35 => ⟨S_, .f32⟩
  | 36 => ⟨S256, .f32⟩
  | 37 => ⟨S_, .f32⟩
  | 38 => ⟨S256, .f32⟩
  | 39 => ⟨S256, .f32⟩
  | 40 => ⟨S1x256, .f32⟩
  | 41 => ⟨S40000x256, .f32⟩
  | 42 => ⟨S40000x256, .f32⟩
  | 43 => ⟨S40000x256, .f32⟩
  | 44 => ⟨S_, .f32⟩
  | 45 => ⟨S256, .f32⟩
  | 46 => ⟨S_, .f32⟩
  | 47 => ⟨S256, .f32⟩
  | 48 => ⟨S256, .f32⟩
  | 49 => ⟨S1x256, .f32⟩
  | 50 => ⟨S40000x256, .f32⟩
  | 51 => ⟨S40000x256, .f32⟩
  | 52 => ⟨S1x256, .f32⟩
  | 53 => ⟨S40000x256, .f32⟩
  | 54 => ⟨S40000x256, .f32⟩
  | 55 => ⟨S_, .f32⟩
  | 56 => ⟨S256, .f32⟩
  | 57 => ⟨S256, .f32⟩
  | 58 => ⟨S256, .f32⟩
  | 59 => ⟨S1x256, .f32⟩
  | 60 => ⟨S40000x256, .f32⟩
  | 61 => ⟨S40000x256, .f32⟩
  | 62 => ⟨S1x256, .f32⟩
  | 63 => ⟨S40000x256, .f32⟩
  | 64 => ⟨S40000x256, .f32⟩
  | 65 => ⟨S_, .f32⟩
  | 66 => ⟨S40000x256, .f32⟩
  | 67 => ⟨S40000x256, .f32⟩
  | 68 => ⟨S_, .f32⟩
  | 69 => ⟨S1, .f32⟩
  | 70 => ⟨S1, .f32⟩
  | 71 => ⟨S1x1, .f32⟩
  | 72 => ⟨S40000x256, .f32⟩
  | 73 => ⟨S40000x256, .f32⟩
  | 74 => ⟨S40000x256, .f32⟩
  | 75 => ⟨S40000x256, .f32⟩
  | 76 => ⟨S1x256, .f32⟩
  | 77 => ⟨S40000x256, .f32⟩
  | 78 => ⟨S40000x256, .f32⟩
  | 79 => ⟨S_, .f32⟩
  | 80 => ⟨S256, .f32⟩
  | 81 => ⟨S_, .f32⟩
  | 82 => ⟨S256, .f32⟩
  | 83 => ⟨S256, .f32⟩
  | 84 => ⟨S1x256, .f32⟩
  | 85 => ⟨S40000x256, .f32⟩
  | 86 => ⟨S40000x256, .f32⟩
  | 87 => ⟨S40000x256, .f32⟩
  | 88 => ⟨S_, .f32⟩
  | 89 => ⟨S256, .f32⟩
  | 90 => ⟨S_, .f32⟩
  | 91 => ⟨S256, .f32⟩
  | 92 => ⟨S256, .f32⟩
  | 93 => ⟨S1x256, .f32⟩
  | 94 => ⟨S40000x256, .f32⟩
  | 95 => ⟨S40000x256, .f32⟩
  | 96 => ⟨S1x256, .f32⟩
  | 97 => ⟨S40000x256, .f32⟩
  | 98 => ⟨S40000x256, .f32⟩
  | 99 => ⟨S_, .f32⟩
  | 100 => ⟨S256, .f32⟩
  | 101 => ⟨S256, .f32⟩
  | 102 => ⟨S256, .f32⟩
  | 103 => ⟨S1x256, .f32⟩
  | 104 => ⟨S40000x256, .f32⟩
  | 105 => ⟨S40000x256, .f32⟩
  | 106 => ⟨S1x256, .f32⟩
  | 107 => ⟨S40000x256, .f32⟩
  | 108 => ⟨S40000x256, .f32⟩
  | 109 => ⟨S_, .f32⟩
  | 110 => ⟨S40000x256, .f32⟩
  | 111 => ⟨S40000x256, .f32⟩
  | 112 => ⟨S40000x256, .f32⟩
  | 113 => ⟨S1x256, .f32⟩
  | 114 => ⟨S40000x256, .f32⟩
  | 115 => ⟨S40000x256, .f32⟩
  | 116 => ⟨S_, .f32⟩
  | 117 => ⟨S256, .f32⟩
  | 118 => ⟨S_, .f32⟩
  | 119 => ⟨S256, .f32⟩
  | 120 => ⟨S256, .f32⟩
  | 121 => ⟨S1x256, .f32⟩
  | 122 => ⟨S40000x256, .f32⟩
  | 123 => ⟨S40000x256, .f32⟩
  | 124 => ⟨S40000x256, .f32⟩
  | 125 => ⟨S_, .f32⟩
  | 126 => ⟨S256, .f32⟩
  | 127 => ⟨S_, .f32⟩
  | _ => ⟨S40000x256, .f32⟩

abbrev hbmTy0_2 (i : Nat) : BufTy := match i % 128 with
  | 0 => ⟨S256, .f32⟩
  | 1 => ⟨S256, .f32⟩
  | 2 => ⟨S1x256, .f32⟩
  | 3 => ⟨S40000x256, .f32⟩
  | 4 => ⟨S40000x256, .f32⟩
  | 5 => ⟨S1x256, .f32⟩
  | 6 => ⟨S40000x256, .f32⟩
  | 7 => ⟨S40000x256, .f32⟩
  | 8 => ⟨S_, .f32⟩
  | 9 => ⟨S256, .f32⟩
  | 10 => ⟨S256, .f32⟩
  | 11 => ⟨S256, .f32⟩
  | 12 => ⟨S1x256, .f32⟩
  | 13 => ⟨S40000x256, .f32⟩
  | 14 => ⟨S40000x256, .f32⟩
  | 15 => ⟨S1x256, .f32⟩
  | 16 => ⟨S40000x256, .f32⟩
  | 17 => ⟨S40000x256, .f32⟩
  | 18 => ⟨S_, .f32⟩
  | 19 => ⟨S40000x256, .f32⟩
  | 20 => ⟨S40000x256, .f32⟩
  | 21 => ⟨S_, .f32⟩
  | 22 => ⟨S1, .f32⟩
  | 23 => ⟨S1, .f32⟩
  | 24 => ⟨S1x1, .f32⟩
  | 25 => ⟨S40000x256, .f32⟩
  | 26 => ⟨S40000x256, .f32⟩
  | 27 => ⟨S40000x256, .f32⟩
  | 28 => ⟨S40000x256, .f32⟩
  | 29 => ⟨S1x256, .f32⟩
  | 30 => ⟨S40000x256, .f32⟩
  | 31 => ⟨S40000x256, .f32⟩
  | 32 => ⟨S_, .f32⟩
  | 33 => ⟨S256, .f32⟩
  | 34 => ⟨S_, .f32⟩
  | 35 => ⟨S256, .f32⟩
  | 36 => ⟨S256, .f32⟩
  | 37 => ⟨S1x256, .f32⟩
  | 38 => ⟨S40000x256, .f32⟩
  | 39 => ⟨S40000x256, .f32⟩
  | 40 => ⟨S40000x256, .f32⟩
  | 41 => ⟨S_, .f32⟩
  | 42 => ⟨S256, .f32⟩
  | 43 => ⟨S_, .f32⟩
  | 44 => ⟨S256, .f32⟩
  | 45 => ⟨S256, .f32⟩
  | 46 => ⟨S1x256, .f32⟩
  | 47 => ⟨S40000x256, .f32⟩
  | 48 => ⟨S40000x256, .f32⟩
  | 49 => ⟨S1x256, .f32⟩
  | 50 => ⟨S40000x256, .f32⟩
  | 51 => ⟨S40000x256, .f32⟩
  | 52 => ⟨S_, .f32⟩
  | 53 => ⟨S256, .f32⟩
  | 54 => ⟨S256, .f32⟩
  | 55 => ⟨S256, .f32⟩
  | 56 => ⟨S1x256, .f32⟩
  | 57 => ⟨S40000x256, .f32⟩
  | 58 => ⟨S40000x256, .f32⟩
  | 59 => ⟨S1x256, .f32⟩
  | 60 => ⟨S40000x256, .f32⟩
  | 61 => ⟨S40000x256, .f32⟩
  | 62 => ⟨S_, .f32⟩
  | 63 => ⟨S40000x256, .f32⟩
  | 64 => ⟨S40000x256, .f32⟩
  | 65 => ⟨S40000x256, .f32⟩
  | 66 => ⟨S1x256, .f32⟩
  | 67 => ⟨S40000x256, .f32⟩
  | 68 => ⟨S40000x256, .f32⟩
  | 69 => ⟨S_, .f32⟩
  | 70 => ⟨S256, .f32⟩
  | 71 => ⟨S_, .f32⟩
  | 72 => ⟨S256, .f32⟩
  | 73 => ⟨S256, .f32⟩
  | 74 => ⟨S1x256, .f32⟩
  | 75 => ⟨S40000x256, .f32⟩
  | 76 => ⟨S40000x256, .f32⟩
  | 77 => ⟨S40000x256, .f32⟩
  | 78 => ⟨S_, .f32⟩
  | 79 => ⟨S256, .f32⟩
  | 80 => ⟨S_, .f32⟩
  | 81 => ⟨S256, .f32⟩
  | 82 => ⟨S256, .f32⟩
  | 83 => ⟨S1x256, .f32⟩
  | 84 => ⟨S40000x256, .f32⟩
  | 85 => ⟨S40000x256, .f32⟩
  | 86 => ⟨S1x256, .f32⟩
  | 87 => ⟨S40000x256, .f32⟩
  | 88 => ⟨S40000x256, .f32⟩
  | 89 => ⟨S_, .f32⟩
  | 90 => ⟨S256, .f32⟩
  | 91 => ⟨S256, .f32⟩
  | 92 => ⟨S256, .f32⟩
  | 93 => ⟨S1x256, .f32⟩
  | 94 => ⟨S40000x256, .f32⟩
  | 95 => ⟨S40000x256, .f32⟩
  | 96 => ⟨S1x256, .f32⟩
  | 97 => ⟨S40000x256, .f32⟩
  | 98 => ⟨S40000x256, .f32⟩
  | 99 => ⟨S_, .f32⟩
  | 100 => ⟨S40000x256, .f32⟩
  | 101 => ⟨S40000x256, .f32⟩
  | 102 => ⟨S40000x768, .f32⟩
  | 103 => ⟨S40000x256, .f32⟩
  | 104 => ⟨S1x256, .f32⟩
  | 105 => ⟨S40000x256, .f32⟩
  | 106 => ⟨S40000x256, .f32⟩
  | 107 => ⟨S_, .f32⟩
  | 108 => ⟨S256, .f32⟩
  | 109 => ⟨S_, .f32⟩
  | 110 => ⟨S256, .f32⟩
  | 111 => ⟨S256, .f32⟩
  | 112 => ⟨S1x256, .f32⟩
  | 113 => ⟨S40000x256, .f32⟩
  | 114 => ⟨S40000x256, .f32⟩
  | 115 => ⟨S40000x256, .f32⟩
  | 116 => ⟨S_, .f32⟩
  | 117 => ⟨S256, .f32⟩
  | 118 => ⟨S_, .f32⟩
  | 119 => ⟨S256, .f32⟩
  | 120 => ⟨S256, .f32⟩
  | 121 => ⟨S1x256, .f32⟩
  | 122 => ⟨S40000x256, .f32⟩
  | 123 => ⟨S40000x256, .f32⟩
  | 124 => ⟨S1x256, .f32⟩
  | 125 => ⟨S40000x256, .f32⟩
  | 126 => ⟨S40000x256, .f32⟩
  | 127 => ⟨S_, .f32⟩
  | _ => ⟨S40000x256, .f32⟩

abbrev hbmTy0_3 (i : Nat) : BufTy := match i % 128 with
  | 0 => ⟨S256, .f32⟩
  | 1 => ⟨S256, .f32⟩
  | 2 => ⟨S256, .f32⟩
  | 3 => ⟨S1x256, .f32⟩
  | 4 => ⟨S40000x256, .f32⟩
  | 5 => ⟨S40000x256, .f32⟩
  | 6 => ⟨S1x256, .f32⟩
  | 7 => ⟨S40000x256, .f32⟩
  | 8 => ⟨S40000x256, .f32⟩
  | 9 => ⟨S_, .f32⟩
  | 10 => ⟨S40000x256, .f32⟩
  | 11 => ⟨S40000x256, .f32⟩
  | _ => ⟨S40000x256, .f32⟩

abbrev hbmTy (i : Nat) : BufTy := match i / 128 with
  | 0 => hbmTy0_0 i
  | 1 => hbmTy0_1 i
  | 2 => hbmTy0_2 i
  | 3 => hbmTy0_3 i
  | _ => ⟨S40000x256, .f32⟩

abbrev bufTy : (tb : Table) → Fin (tcTables nBuf tb) → BufTy
  | .hbm, ⟨i, _⟩ => hbmTy i
  | _, _ => ⟨S40000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_v0 : Ref sig .tc := ⟨.hbm, 42, rfl⟩
abbrev main_v1 : Ref sig .tc := ⟨.hbm, 43, rfl⟩
abbrev main_c : Ref sig .tc := ⟨.hbm, 44, rfl⟩
abbrev main_v2 : Ref sig .tc := ⟨.hbm, 45, rfl⟩
abbrev main_v3 : Ref sig .tc := ⟨.hbm, 46, rfl⟩
abbrev main_c_0 : Ref sig .tc := ⟨.hbm, 47, rfl⟩
abbrev main_v4 : Ref sig .tc := ⟨.hbm, 48, rfl⟩
abbrev main_v5 : Ref sig .tc := ⟨.hbm, 49, rfl⟩
abbrev main_v6 : Ref sig .tc := ⟨.hbm, 50, rfl⟩
abbrev main_v7 : Ref sig .tc := ⟨.hbm, 51, rfl⟩
abbrev main_v8 : Ref sig .tc := ⟨.hbm, 52, rfl⟩
abbrev main_v9 : Ref sig .tc := ⟨.hbm, 53, rfl⟩
abbrev main_v10 : Ref sig .tc := ⟨.hbm, 54, rfl⟩
abbrev main_v11 : Ref sig .tc := ⟨.hbm, 55, rfl⟩
abbrev main_v12 : Ref sig .tc := ⟨.hbm, 56, rfl⟩
abbrev main_v13 : Ref sig .tc := ⟨.hbm, 57, rfl⟩
abbrev main_v14 : Ref sig .tc := ⟨.hbm, 58, rfl⟩
abbrev main_v15 : Ref sig .tc := ⟨.hbm, 59, rfl⟩
abbrev main_v16 : Ref sig .tc := ⟨.hbm, 60, rfl⟩
abbrev main_call0_cst : Ref sig .tc := ⟨.hbm, 61, rfl⟩
abbrev main_call0_v0 : Ref sig .tc := ⟨.hbm, 62, rfl⟩
abbrev main_v17 : Ref sig .tc := ⟨.hbm, 63, rfl⟩
abbrev main_v18 : Ref sig .tc := ⟨.hbm, 64, rfl⟩
abbrev main_v19 : Ref sig .tc := ⟨.hbm, 65, rfl⟩
abbrev main_cst : Ref sig .tc := ⟨.hbm, 66, rfl⟩
abbrev main_v20 : Ref sig .tc := ⟨.hbm, 67, rfl⟩
abbrev main_v21 : Ref sig .tc := ⟨.hbm, 68, rfl⟩
abbrev main_v22 : Ref sig .tc := ⟨.hbm, 69, rfl⟩
abbrev main_v23 : Ref sig .tc := ⟨.hbm, 70, rfl⟩
abbrev main_v24 : Ref sig .tc := ⟨.hbm, 71, rfl⟩
abbrev main_c_1 : Ref sig .tc := ⟨.hbm, 72, rfl⟩
abbrev main_v25 : Ref sig .tc := ⟨.hbm, 73, rfl⟩
abbrev main_v26 : Ref sig .tc := ⟨.hbm, 74, rfl⟩
abbrev main_c_2 : Ref sig .tc := ⟨.hbm, 75, rfl⟩
abbrev main_v27 : Ref sig .tc := ⟨.hbm, 76, rfl⟩
abbrev main_v28 : Ref sig .tc := ⟨.hbm, 77, rfl⟩
abbrev main_v29 : Ref sig .tc := ⟨.hbm, 78, rfl⟩
abbrev main_v30 : Ref sig .tc := ⟨.hbm, 79, rfl⟩
abbrev main_v31 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_v35 : Ref sig .tc := ⟨.hbm, 84, rfl⟩
abbrev main_v36 : Ref sig .tc := ⟨.hbm, 85, rfl⟩
abbrev main_v37 : Ref sig .tc := ⟨.hbm, 86, rfl⟩
abbrev main_v38 : Ref sig .tc := ⟨.hbm, 87, rfl⟩
abbrev main_v39 : Ref sig .tc := ⟨.hbm, 88, rfl⟩
abbrev main_call1_cst : Ref sig .tc := ⟨.hbm, 89, rfl⟩
abbrev main_call1_v0 : Ref sig .tc := ⟨.hbm, 90, rfl⟩
abbrev main_v40 : Ref sig .tc := ⟨.hbm, 91, rfl⟩
abbrev main_v41 : Ref sig .tc := ⟨.hbm, 92, rfl⟩
abbrev main_v42 : Ref sig .tc := ⟨.hbm, 93, rfl⟩
abbrev main_cst_3 : Ref sig .tc := ⟨.hbm, 94, rfl⟩
abbrev main_v43 : Ref sig .tc := ⟨.hbm, 95, rfl⟩
abbrev main_v44 : Ref sig .tc := ⟨.hbm, 96, rfl⟩
abbrev main_v45 : Ref sig .tc := ⟨.hbm, 97, rfl⟩
abbrev main_v46 : Ref sig .tc := ⟨.hbm, 98, rfl⟩
abbrev main_v47 : Ref sig .tc := ⟨.hbm, 99, rfl⟩
abbrev main_c_4 : Ref sig .tc := ⟨.hbm, 100, rfl⟩
abbrev main_v48 : Ref sig .tc := ⟨.hbm, 101, rfl⟩
abbrev main_v49 : Ref sig .tc := ⟨.hbm, 102, rfl⟩
abbrev main_c_5 : Ref sig .tc := ⟨.hbm, 103, rfl⟩
abbrev main_v50 : Ref sig .tc := ⟨.hbm, 104, rfl⟩
abbrev main_v51 : Ref sig .tc := ⟨.hbm, 105, rfl⟩
abbrev main_v52 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_v56 : Ref sig .tc := ⟨.hbm, 110, rfl⟩
abbrev main_cst_6 : Ref sig .tc := ⟨.hbm, 111, rfl⟩
abbrev main_v57 : Ref sig .tc := ⟨.hbm, 112, rfl⟩
abbrev main_v58 : Ref sig .tc := ⟨.hbm, 113, rfl⟩
abbrev main_v59 : Ref sig .tc := ⟨.hbm, 114, rfl⟩
abbrev main_cst_7 : Ref sig .tc := ⟨.hbm, 115, rfl⟩
abbrev main_v60 : Ref sig .tc := ⟨.hbm, 116, rfl⟩
abbrev main_v61 : Ref sig .tc := ⟨.hbm, 117, rfl⟩
abbrev main_v62 : Ref sig .tc := ⟨.hbm, 118, rfl⟩
abbrev main_v63 : Ref sig .tc := ⟨.hbm, 119, rfl⟩
abbrev main_v64 : Ref sig .tc := ⟨.hbm, 120, rfl⟩
abbrev main_v65 : Ref sig .tc := ⟨.hbm, 121, rfl⟩
abbrev main_v66 : Ref sig .tc := ⟨.hbm, 122, rfl⟩
abbrev main_v67 : Ref sig .tc := ⟨.hbm, 123, rfl⟩
abbrev main_v68 : Ref sig .tc := ⟨.hbm, 124, rfl⟩
abbrev main_v69 : Ref sig .tc := ⟨.hbm, 125, rfl⟩
abbrev main_cst_8 : Ref sig .tc := ⟨.hbm, 126, rfl⟩
abbrev main_v70 : Ref sig .tc := ⟨.hbm, 127, rfl⟩
abbrev main_cst_9 : Ref sig .tc := ⟨.hbm, 128, rfl⟩
abbrev main_v71 : Ref sig .tc := ⟨.hbm, 129, rfl⟩
abbrev main_v72 : Ref sig .tc := ⟨.hbm, 130, rfl⟩
abbrev main_v73 : Ref sig .tc := ⟨.hbm, 131, rfl⟩
abbrev main_v74 : Ref sig .tc := ⟨.hbm, 132, rfl⟩
abbrev main_v75 : Ref sig .tc := ⟨.hbm, 133, rfl⟩
abbrev main_v76 : Ref sig .tc := ⟨.hbm, 134, rfl⟩
abbrev main_cst_10 : Ref sig .tc := ⟨.hbm, 135, rfl⟩
abbrev main_v77 : Ref sig .tc := ⟨.hbm, 136, rfl⟩
abbrev main_cst_11 : Ref sig .tc := ⟨.hbm, 137, rfl⟩
abbrev main_v78 : Ref sig .tc := ⟨.hbm, 138, rfl⟩
abbrev main_v79 : Ref sig .tc := ⟨.hbm, 139, rfl⟩
abbrev main_v80 : Ref sig .tc := ⟨.hbm, 140, rfl⟩
abbrev main_v81 : Ref sig .tc := ⟨.hbm, 141, rfl⟩
abbrev main_v82 : Ref sig .tc := ⟨.hbm, 142, rfl⟩
abbrev main_v83 : Ref sig .tc := ⟨.hbm, 143, rfl⟩
abbrev main_v84 : Ref sig .tc := ⟨.hbm, 144, rfl⟩
abbrev main_v85 : Ref sig .tc := ⟨.hbm, 145, rfl⟩
abbrev main_cst_12 : Ref sig .tc := ⟨.hbm, 146, rfl⟩
abbrev main_v86 : Ref sig .tc := ⟨.hbm, 147, rfl⟩
abbrev main_v87 : Ref sig .tc := ⟨.hbm, 148, rfl⟩
abbrev main_v88 : Ref sig .tc := ⟨.hbm, 149, rfl⟩
abbrev main_v89 : Ref sig .tc := ⟨.hbm, 150, rfl⟩
abbrev main_v90 : Ref sig .tc := ⟨.hbm, 151, rfl⟩
abbrev main_v91 : Ref sig .tc := ⟨.hbm, 152, rfl⟩
abbrev main_v92 : Ref sig .tc := ⟨.hbm, 153, rfl⟩
abbrev main_v93 : Ref sig .tc := ⟨.hbm, 154, rfl⟩
abbrev main_v94 : Ref sig .tc := ⟨.hbm, 155, rfl⟩
abbrev main_call2_cst : Ref sig .tc := ⟨.hbm, 156, rfl⟩
abbrev main_call2_v0 : Ref sig .tc := ⟨.hbm, 157, rfl⟩
abbrev main_v95 : Ref sig .tc := ⟨.hbm, 158, rfl⟩
abbrev main_v96 : Ref sig .tc := ⟨.hbm, 159, rfl⟩
abbrev main_v97 : Ref sig .tc := ⟨.hbm, 160, rfl⟩
abbrev main_v98 : Ref sig .tc := ⟨.hbm, 161, rfl⟩
abbrev main_v99 : Ref sig .tc := ⟨.hbm, 162, rfl⟩
abbrev main_cst_13 : Ref sig .tc := ⟨.hbm, 163, rfl⟩
abbrev main_v100 : Ref sig .tc := ⟨.hbm, 164, rfl⟩
abbrev main_cst_14 : Ref sig .tc := ⟨.hbm, 165, rfl⟩
abbrev main_v101 : Ref sig .tc := ⟨.hbm, 166, rfl⟩
abbrev main_v102 : Ref sig .tc := ⟨.hbm, 167, rfl⟩
abbrev main_v103 : Ref sig .tc := ⟨.hbm, 168, rfl⟩
abbrev main_v104 : Ref sig .tc := ⟨.hbm, 169, rfl⟩
abbrev main_v105 : Ref sig .tc := ⟨.hbm, 170, rfl⟩
abbrev main_v106 : Ref sig .tc := ⟨.hbm, 171, rfl⟩
abbrev main_cst_15 : Ref sig .tc := ⟨.hbm, 172, rfl⟩
abbrev main_v107 : Ref sig .tc := ⟨.hbm, 173, rfl⟩
abbrev main_cst_16 : Ref sig .tc := ⟨.hbm, 174, rfl⟩
abbrev main_v108 : Ref sig .tc := ⟨.hbm, 175, rfl⟩
abbrev main_v109 : Ref sig .tc := ⟨.hbm, 176, rfl⟩
abbrev main_v110 : Ref sig .tc := ⟨.hbm, 177, rfl⟩
abbrev main_v111 : Ref sig .tc := ⟨.hbm, 178, rfl⟩
abbrev main_v112 : Ref sig .tc := ⟨.hbm, 179, rfl⟩
abbrev main_v113 : Ref sig .tc := ⟨.hbm, 180, rfl⟩
abbrev main_v114 : Ref sig .tc := ⟨.hbm, 181, rfl⟩
abbrev main_v115 : Ref sig .tc := ⟨.hbm, 182, rfl⟩
abbrev main_cst_17 : Ref sig .tc := ⟨.hbm, 183, rfl⟩
abbrev main_v116 : Ref sig .tc := ⟨.hbm, 184, rfl⟩
abbrev main_v117 : Ref sig .tc := ⟨.hbm, 185, rfl⟩
abbrev main_v118 : Ref sig .tc := ⟨.hbm, 186, rfl⟩
abbrev main_v119 : Ref sig .tc := ⟨.hbm, 187, rfl⟩
abbrev main_v120 : Ref sig .tc := ⟨.hbm, 188, rfl⟩
abbrev main_v121 : Ref sig .tc := ⟨.hbm, 189, rfl⟩
abbrev main_v122 : Ref sig .tc := ⟨.hbm, 190, rfl⟩
abbrev main_v123 : Ref sig .tc := ⟨.hbm, 191, rfl⟩
abbrev main_v124 : Ref sig .tc := ⟨.hbm, 192, rfl⟩
abbrev main_call3_cst : Ref sig .tc := ⟨.hbm, 193, rfl⟩
abbrev main_call3_v0 : Ref sig .tc := ⟨.hbm, 194, rfl⟩
abbrev main_v125 : Ref sig .tc := ⟨.hbm, 195, rfl⟩
abbrev main_cst_18 : Ref sig .tc := ⟨.hbm, 196, rfl⟩
abbrev main_v126 : Ref sig .tc := ⟨.hbm, 197, rfl⟩
abbrev main_v127 : Ref sig .tc := ⟨.hbm, 198, rfl⟩
abbrev main_v128 : Ref sig .tc := ⟨.hbm, 199, rfl⟩
abbrev main_v129 : Ref sig .tc := ⟨.hbm, 200, rfl⟩
abbrev main_v130 : Ref sig .tc := ⟨.hbm, 201, rfl⟩
abbrev main_v131 : Ref sig .tc := ⟨.hbm, 202, rfl⟩
abbrev main_v132 : Ref sig .tc := ⟨.hbm, 203, rfl⟩
abbrev main_v133 : Ref sig .tc := ⟨.hbm, 204, rfl⟩
abbrev main_v134 : Ref sig .tc := ⟨.hbm, 205, rfl⟩
abbrev main_v135 : Ref sig .tc := ⟨.hbm, 206, rfl⟩
abbrev main_cst_19 : Ref sig .tc := ⟨.hbm, 207, rfl⟩
abbrev main_v136 : Ref sig .tc := ⟨.hbm, 208, rfl⟩
abbrev main_cst_20 : Ref sig .tc := ⟨.hbm, 209, rfl⟩
abbrev main_v137 : Ref sig .tc := ⟨.hbm, 210, rfl⟩
abbrev main_v138 : Ref sig .tc := ⟨.hbm, 211, rfl⟩
abbrev main_v139 : Ref sig .tc := ⟨.hbm, 212, rfl⟩
abbrev main_v140 : Ref sig .tc := ⟨.hbm, 213, rfl⟩
abbrev main_v141 : Ref sig .tc := ⟨.hbm, 214, rfl⟩
abbrev main_v142 : Ref sig .tc := ⟨.hbm, 215, rfl⟩
abbrev main_cst_21 : Ref sig .tc := ⟨.hbm, 216, rfl⟩
abbrev main_v143 : Ref sig .tc := ⟨.hbm, 217, rfl⟩
abbrev main_cst_22 : Ref sig .tc := ⟨.hbm, 218, rfl⟩
abbrev main_v144 : Ref sig .tc := ⟨.hbm, 219, rfl⟩
abbrev main_v145 : Ref sig .tc := ⟨.hbm, 220, rfl⟩
abbrev main_v146 : Ref sig .tc := ⟨.hbm, 221, rfl⟩
abbrev main_v147 : Ref sig .tc := ⟨.hbm, 222, rfl⟩
abbrev main_v148 : Ref sig .tc := ⟨.hbm, 223, rfl⟩
abbrev main_v149 : Ref sig .tc := ⟨.hbm, 224, rfl⟩
abbrev main_v150 : Ref sig .tc := ⟨.hbm, 225, rfl⟩
abbrev main_v151 : Ref sig .tc := ⟨.hbm, 226, rfl⟩
abbrev main_cst_23 : Ref sig .tc := ⟨.hbm, 227, rfl⟩
abbrev main_v152 : Ref sig .tc := ⟨.hbm, 228, rfl⟩
abbrev main_v153 : Ref sig .tc := ⟨.hbm, 229, rfl⟩
abbrev main_v154 : Ref sig .tc := ⟨.hbm, 230, rfl⟩
abbrev main_v155 : Ref sig .tc := ⟨.hbm, 231, rfl⟩
abbrev main_v156 : Ref sig .tc := ⟨.hbm, 232, rfl⟩
abbrev main_v157 : Ref sig .tc := ⟨.hbm, 233, rfl⟩
abbrev main_v158 : Ref sig .tc := ⟨.hbm, 234, rfl⟩
abbrev main_v159 : Ref sig .tc := ⟨.hbm, 235, rfl⟩
abbrev main_v160 : Ref sig .tc := ⟨.hbm, 236, rfl⟩
abbrev main_call4_cst : Ref sig .tc := ⟨.hbm, 237, rfl⟩
abbrev main_call4_v0 : Ref sig .tc := ⟨.hbm, 238, rfl⟩
abbrev main_v161 : Ref sig .tc := ⟨.hbm, 239, rfl⟩
abbrev main_v162 : Ref sig .tc := ⟨.hbm, 240, rfl⟩
abbrev main_v163 : Ref sig .tc := ⟨.hbm, 241, rfl⟩
abbrev main_v164 : Ref sig .tc := ⟨.hbm, 242, rfl⟩
abbrev main_v165 : Ref sig .tc := ⟨.hbm, 243, rfl⟩
abbrev main_cst_24 : Ref sig .tc := ⟨.hbm, 244, rfl⟩
abbrev main_v166 : Ref sig .tc := ⟨.hbm, 245, rfl⟩
abbrev main_cst_25 : Ref sig .tc := ⟨.hbm, 246, rfl⟩
abbrev main_v167 : Ref sig .tc := ⟨.hbm, 247, rfl⟩
abbrev main_v168 : Ref sig .tc := ⟨.hbm, 248, rfl⟩
abbrev main_v169 : Ref sig .tc := ⟨.hbm, 249, rfl⟩
abbrev main_v170 : Ref sig .tc := ⟨.hbm, 250, rfl⟩
abbrev main_v171 : Ref sig .tc := ⟨.hbm, 251, rfl⟩
abbrev main_v172 : Ref sig .tc := ⟨.hbm, 252, rfl⟩
abbrev main_cst_26 : Ref sig .tc := ⟨.hbm, 253, rfl⟩
abbrev main_v173 : Ref sig .tc := ⟨.hbm, 254, rfl⟩
abbrev main_cst_27 : Ref sig .tc := ⟨.hbm, 255, rfl⟩
abbrev main_v174 : Ref sig .tc := ⟨.hbm, 256, rfl⟩
abbrev main_v175 : Ref sig .tc := ⟨.hbm, 257, rfl⟩
abbrev main_v176 : Ref sig .tc := ⟨.hbm, 258, rfl⟩
abbrev main_v177 : Ref sig .tc := ⟨.hbm, 259, rfl⟩
abbrev main_v178 : Ref sig .tc := ⟨.hbm, 260, rfl⟩
abbrev main_v179 : Ref sig .tc := ⟨.hbm, 261, rfl⟩
abbrev main_v180 : Ref sig .tc := ⟨.hbm, 262, rfl⟩
abbrev main_v181 : Ref sig .tc := ⟨.hbm, 263, rfl⟩
abbrev main_cst_28 : Ref sig .tc := ⟨.hbm, 264, rfl⟩
abbrev main_v182 : Ref sig .tc := ⟨.hbm, 265, rfl⟩
abbrev main_v183 : Ref sig .tc := ⟨.hbm, 266, rfl⟩
abbrev main_v184 : Ref sig .tc := ⟨.hbm, 267, rfl⟩
abbrev main_v185 : Ref sig .tc := ⟨.hbm, 268, rfl⟩
abbrev main_v186 : Ref sig .tc := ⟨.hbm, 269, rfl⟩
abbrev main_v187 : Ref sig .tc := ⟨.hbm, 270, rfl⟩
abbrev main_v188 : Ref sig .tc := ⟨.hbm, 271, rfl⟩
abbrev main_v189 : Ref sig .tc := ⟨.hbm, 272, rfl⟩
abbrev main_v190 : Ref sig .tc := ⟨.hbm, 273, rfl⟩
abbrev main_call5_cst : Ref sig .tc := ⟨.hbm, 274, rfl⟩
abbrev main_call5_v0 : Ref sig .tc := ⟨.hbm, 275, rfl⟩
abbrev main_v191 : Ref sig .tc := ⟨.hbm, 276, rfl⟩
abbrev main_cst_29 : Ref sig .tc := ⟨.hbm, 277, rfl⟩
abbrev main_v192 : Ref sig .tc := ⟨.hbm, 278, rfl⟩
abbrev main_v193 : Ref sig .tc := ⟨.hbm, 279, rfl⟩
abbrev main_v194 : Ref sig .tc := ⟨.hbm, 280, rfl⟩
abbrev main_v195 : Ref sig .tc := ⟨.hbm, 281, rfl⟩
abbrev main_v196 : Ref sig .tc := ⟨.hbm, 282, rfl⟩
abbrev main_v197 : Ref sig .tc := ⟨.hbm, 283, rfl⟩
abbrev main_v198 : Ref sig .tc := ⟨.hbm, 284, rfl⟩
abbrev main_v199 : Ref sig .tc := ⟨.hbm, 285, rfl⟩
abbrev main_v200 : Ref sig .tc := ⟨.hbm, 286, rfl⟩
abbrev main_v201 : Ref sig .tc := ⟨.hbm, 287, rfl⟩
abbrev main_cst_30 : Ref sig .tc := ⟨.hbm, 288, rfl⟩
abbrev main_v202 : Ref sig .tc := ⟨.hbm, 289, rfl⟩
abbrev main_cst_31 : Ref sig .tc := ⟨.hbm, 290, rfl⟩
abbrev main_v203 : Ref sig .tc := ⟨.hbm, 291, rfl⟩
abbrev main_v204 : Ref sig .tc := ⟨.hbm, 292, rfl⟩
abbrev main_v205 : Ref sig .tc := ⟨.hbm, 293, rfl⟩
abbrev main_v206 : Ref sig .tc := ⟨.hbm, 294, rfl⟩
abbrev main_v207 : Ref sig .tc := ⟨.hbm, 295, rfl⟩
abbrev main_v208 : Ref sig .tc := ⟨.hbm, 296, rfl⟩
abbrev main_cst_32 : Ref sig .tc := ⟨.hbm, 297, rfl⟩
abbrev main_v209 : Ref sig .tc := ⟨.hbm, 298, rfl⟩
abbrev main_cst_33 : Ref sig .tc := ⟨.hbm, 299, rfl⟩
abbrev main_v210 : Ref sig .tc := ⟨.hbm, 300, rfl⟩
abbrev main_v211 : Ref sig .tc := ⟨.hbm, 301, rfl⟩
abbrev main_v212 : Ref sig .tc := ⟨.hbm, 302, rfl⟩
abbrev main_v213 : Ref sig .tc := ⟨.hbm, 303, rfl⟩
abbrev main_v214 : Ref sig .tc := ⟨.hbm, 304, rfl⟩
abbrev main_v215 : Ref sig .tc := ⟨.hbm, 305, rfl⟩
abbrev main_v216 : Ref sig .tc := ⟨.hbm, 306, rfl⟩
abbrev main_v217 : Ref sig .tc := ⟨.hbm, 307, rfl⟩
abbrev main_cst_34 : Ref sig .tc := ⟨.hbm, 308, rfl⟩
abbrev main_v218 : Ref sig .tc := ⟨.hbm, 309, rfl⟩
abbrev main_v219 : Ref sig .tc := ⟨.hbm, 310, rfl⟩
abbrev main_v220 : Ref sig .tc := ⟨.hbm, 311, rfl⟩
abbrev main_v221 : Ref sig .tc := ⟨.hbm, 312, rfl⟩
abbrev main_v222 : Ref sig .tc := ⟨.hbm, 313, rfl⟩
abbrev main_v223 : Ref sig .tc := ⟨.hbm, 314, rfl⟩
abbrev main_v224 : Ref sig .tc := ⟨.hbm, 315, rfl⟩
abbrev main_v225 : Ref sig .tc := ⟨.hbm, 316, rfl⟩
abbrev main_v226 : Ref sig .tc := ⟨.hbm, 317, rfl⟩
abbrev main_call6_cst : Ref sig .tc := ⟨.hbm, 318, rfl⟩
abbrev main_call6_v0 : Ref sig .tc := ⟨.hbm, 319, rfl⟩
abbrev main_v227 : Ref sig .tc := ⟨.hbm, 320, rfl⟩
abbrev main_v228 : Ref sig .tc := ⟨.hbm, 321, rfl⟩
abbrev main_v229 : Ref sig .tc := ⟨.hbm, 322, rfl⟩
abbrev main_v230 : Ref sig .tc := ⟨.hbm, 323, rfl⟩
abbrev main_v231 : Ref sig .tc := ⟨.hbm, 324, rfl⟩
abbrev main_cst_35 : Ref sig .tc := ⟨.hbm, 325, rfl⟩
abbrev main_v232 : Ref sig .tc := ⟨.hbm, 326, rfl⟩
abbrev main_cst_36 : Ref sig .tc := ⟨.hbm, 327, rfl⟩
abbrev main_v233 : Ref sig .tc := ⟨.hbm, 328, rfl⟩
abbrev main_v234 : Ref sig .tc := ⟨.hbm, 329, rfl⟩
abbrev main_v235 : Ref sig .tc := ⟨.hbm, 330, rfl⟩
abbrev main_v236 : Ref sig .tc := ⟨.hbm, 331, rfl⟩
abbrev main_v237 : Ref sig .tc := ⟨.hbm, 332, rfl⟩
abbrev main_v238 : Ref sig .tc := ⟨.hbm, 333, rfl⟩
abbrev main_cst_37 : Ref sig .tc := ⟨.hbm, 334, rfl⟩
abbrev main_v239 : Ref sig .tc := ⟨.hbm, 335, rfl⟩
abbrev main_cst_38 : Ref sig .tc := ⟨.hbm, 336, rfl⟩
abbrev main_v240 : Ref sig .tc := ⟨.hbm, 337, rfl⟩
abbrev main_v241 : Ref sig .tc := ⟨.hbm, 338, rfl⟩
abbrev main_v242 : Ref sig .tc := ⟨.hbm, 339, rfl⟩
abbrev main_v243 : Ref sig .tc := ⟨.hbm, 340, rfl⟩
abbrev main_v244 : Ref sig .tc := ⟨.hbm, 341, rfl⟩
abbrev main_v245 : Ref sig .tc := ⟨.hbm, 342, rfl⟩
abbrev main_v246 : Ref sig .tc := ⟨.hbm, 343, rfl⟩
abbrev main_v247 : Ref sig .tc := ⟨.hbm, 344, rfl⟩
abbrev main_cst_39 : Ref sig .tc := ⟨.hbm, 345, rfl⟩
abbrev main_v248 : Ref sig .tc := ⟨.hbm, 346, rfl⟩
abbrev main_v249 : Ref sig .tc := ⟨.hbm, 347, rfl⟩
abbrev main_v250 : Ref sig .tc := ⟨.hbm, 348, rfl⟩
abbrev main_v251 : Ref sig .tc := ⟨.hbm, 349, rfl⟩
abbrev main_v252 : Ref sig .tc := ⟨.hbm, 350, rfl⟩
abbrev main_v253 : Ref sig .tc := ⟨.hbm, 351, rfl⟩
abbrev main_v254 : Ref sig .tc := ⟨.hbm, 352, rfl⟩
abbrev main_v255 : Ref sig .tc := ⟨.hbm, 353, rfl⟩
abbrev main_v256 : Ref sig .tc := ⟨.hbm, 354, rfl⟩
abbrev main_call7_cst : Ref sig .tc := ⟨.hbm, 355, rfl⟩
abbrev main_call7_v0 : Ref sig .tc := ⟨.hbm, 356, rfl⟩
abbrev main_v257 : Ref sig .tc := ⟨.hbm, 357, rfl⟩
abbrev main_v258 : Ref sig .tc := ⟨.hbm, 358, rfl⟩
abbrev main_v259 : Ref sig .tc := ⟨.hbm, 359, rfl⟩
abbrev main_v260 : Ref sig .tc := ⟨.hbm, 360, rfl⟩
abbrev main_v261 : Ref sig .tc := ⟨.hbm, 361, rfl⟩
abbrev main_v262 : Ref sig .tc := ⟨.hbm, 362, rfl⟩
abbrev main_cst_40 : Ref sig .tc := ⟨.hbm, 363, rfl⟩
abbrev main_v263 : Ref sig .tc := ⟨.hbm, 364, rfl⟩
abbrev main_cst_41 : Ref sig .tc := ⟨.hbm, 365, rfl⟩
abbrev main_v264 : Ref sig .tc := ⟨.hbm, 366, rfl⟩
abbrev main_v265 : Ref sig .tc := ⟨.hbm, 367, rfl⟩
abbrev main_v266 : Ref sig .tc := ⟨.hbm, 368, rfl⟩
abbrev main_v267 : Ref sig .tc := ⟨.hbm, 369, rfl⟩
abbrev main_v268 : Ref sig .tc := ⟨.hbm, 370, rfl⟩
abbrev main_v269 : Ref sig .tc := ⟨.hbm, 371, rfl⟩
abbrev main_cst_42 : Ref sig .tc := ⟨.hbm, 372, rfl⟩
abbrev main_v270 : Ref sig .tc := ⟨.hbm, 373, rfl⟩
abbrev main_cst_43 : Ref sig .tc := ⟨.hbm, 374, rfl⟩
abbrev main_v271 : Ref sig .tc := ⟨.hbm, 375, rfl⟩
abbrev main_v272 : Ref sig .tc := ⟨.hbm, 376, rfl⟩
abbrev main_v273 : Ref sig .tc := ⟨.hbm, 377, rfl⟩
abbrev main_v274 : Ref sig .tc := ⟨.hbm, 378, rfl⟩
abbrev main_v275 : Ref sig .tc := ⟨.hbm, 379, rfl⟩
abbrev main_v276 : Ref sig .tc := ⟨.hbm, 380, rfl⟩
abbrev main_v277 : Ref sig .tc := ⟨.hbm, 381, rfl⟩
abbrev main_v278 : Ref sig .tc := ⟨.hbm, 382, rfl⟩
abbrev main_cst_44 : Ref sig .tc := ⟨.hbm, 383, rfl⟩
abbrev main_v279 : Ref sig .tc := ⟨.hbm, 384, rfl⟩
abbrev main_v280 : Ref sig .tc := ⟨.hbm, 385, rfl⟩
abbrev main_v281 : Ref sig .tc := ⟨.hbm, 386, rfl⟩
abbrev main_v282 : Ref sig .tc := ⟨.hbm, 387, rfl⟩
abbrev main_v283 : Ref sig .tc := ⟨.hbm, 388, rfl⟩
abbrev main_v284 : Ref sig .tc := ⟨.hbm, 389, rfl⟩
abbrev main_v285 : Ref sig .tc := ⟨.hbm, 390, rfl⟩
abbrev main_v286 : Ref sig .tc := ⟨.hbm, 391, rfl⟩
abbrev main_v287 : Ref sig .tc := ⟨.hbm, 392, rfl⟩
abbrev main_call8_cst : Ref sig .tc := ⟨.hbm, 393, rfl⟩
abbrev main_call8_v0 : Ref sig .tc := ⟨.hbm, 394, rfl⟩
abbrev main_v288 : Ref sig .tc := ⟨.hbm, 395, rfl⟩

abbrev nD : Nat := 1
abbrev τ : Topo := Topo.v7x

variable {F : FTy → Type} [FloatOps F]

class Facts₀ : Prop where
  slices_S2x200000_S1x200000_0_0 : S2x200000.Slices ![0, 0] S1x200000
  shapeCasts_S1x200000_S200000 : S1x200000.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  slices_S512x256_S256x256_0_0 : S512x256.Slices ![0, 0] S256x256
  slices_S512x256_S256x256_256_0 : S512x256.Slices ![256, 0] S256x256
  bcast_S256_S1x256_1 : S256.BroadcastsInDim S1x256 (![1] : Fin 1 → Fin S1x256.rank)
  bcast_S1x256_S200000x256_0_1 : S1x256.BroadcastsInDim S200000x256 (![0, 1] : Fin 2 → Fin S200000x256.rank)
  bcast_S_S200000x256 : S_.BroadcastsInDim S200000x256 (![] : Fin 0 → Fin S200000x256.rank)
  slices_S2x200000_S1x200000_1_0 : S2x200000.Slices ![1, 0] S1x200000
  bcast_S_S40000x256 : S_.BroadcastsInDim S40000x256 (![] : Fin 0 → Fin S40000x256.rank)
  slices_S2x120000_S1x120000_0_0 : S2x120000.Slices ![0, 0] S1x120000
  shapeCasts_S1x120000_S120000 : S1x120000.ShapeCasts S120000
  bcast_S_S120000 : S_.BroadcastsInDim S120000 (![] : Fin 0 → Fin S120000.rank)
  bcast_S120000_S120000x1_0 : S120000.BroadcastsInDim S120000x1 (![0] : Fin 1 → Fin S120000x1.rank)
  slices_S2x120000_S1x120000_1_0 : S2x120000.Slices ![1, 0] S1x120000
  bcast_S_S1 : S_.BroadcastsInDim S1 (![] : Fin 0 → Fin S1.rank)
  bcast_S1_S1x1_1 : S1.BroadcastsInDim S1x1 (![1] : Fin 1 → Fin S1x1.rank)
  bcast_S1x1_S40000x256_0_1 : S1x1.BroadcastsInDim S40000x256 (![0, 1] : Fin 2 → Fin S40000x256.rank)
  bcast_S1x256_S40000x256_0_1 : S1x256.BroadcastsInDim S40000x256 (![0, 1] : Fin 2 → Fin S40000x256.rank)
  reducesTo_S40000x256_S256_d0 : S40000x256.ReducesTo [0] S256
  h_S_ : 0 < S_.numel
  bcast_S_S256 : S_.BroadcastsInDim S256 (![] : Fin 0 → Fin S256.rank)
  concatenates_S40000x256_S40000x256_S40000x256_S40000x768_d1 : Shape.Concatenates [S40000x256, S40000x256, S40000x256] S40000x768 1
  gather_S40000x256_S200000x1_S200000x256_1_0_n_n_0_1_1256_wf : GatherDims.WF S40000x256 S200000x1 S200000x256 [1] [0] [] [0] [] 1 ![1, 256]
  dot_S200000x256_S256x256_S200000x256_1_0_0_1_n_n_wf : DotDims.WF S200000x256 S256x256 S200000x256 [1] [0] [0] [1] [] []
  scatter_S40000x256_S200000x1_S200000x256_1_0_0_1_wf : ScatterDims.WF S40000x256 S200000x1 S200000x256 [1] [0] [0] 1
  gather_S60000x256_S120000x1_S120000x256_1_0_n_n_0_1_1256_wf : GatherDims.WF S60000x256 S120000x1 S120000x256 [1] [0] [] [0] [] 1 ![1, 256]
  scatter_S40000x256_S120000x1_S120000x256_1_0_0_1_wf : ScatterDims.WF S40000x256 S120000x1 S120000x256 [1] [0] [0] 1
  dot_S40000x256_S256x256_S40000x256_1_0_0_1_n_n_wf : DotDims.WF S40000x256 S256x256 S40000x256 [1] [0] [0] [1] [] []
  dot_S40000x768_S768x256_S40000x256_1_0_0_1_n_n_wf : DotDims.WF S40000x768 S768x256 S40000x256 [1] [0] [0] [1] [] []

variable [Facts₀]

def gather_S40000x256_S200000x1_S200000x256_1_0_n_n_0_1_1256 : GatherDims S40000x256 S200000x1 S200000x256 where
  offsetDims := [1]
  collapsedSliceDims := [0]
  operandBatchingDims := []
  startIndicesBatchingDims := []
  startIndexMap := [0]
  indexVectorDim := 1
  sliceSizes := ![1, 256]
  wf := gather_S40000x256_S200000x1_S200000x256_1_0_n_n_0_1_1256_wf
def dot_S200000x256_S256x256_S200000x256_1_0_0_1_n_n : DotDims S200000x256 S256x256 S200000x256 where
  lhsContracting := [1]
  rhsContracting := [0]
  lhsNonContracting := [0]
  rhsNonContracting := [1]
  lhsBatch := []
  rhsBatch := []
  wf := dot_S200000x256_S256x256_S200000x256_1_0_0_1_n_n_wf
def scatter_S40000x256_S200000x1_S200000x256_1_0_0_1 : ScatterDims S40000x256 S200000x1 S200000x256 where
  updateWindowDims := [1]
  insertedWindowDims := [0]
  scatterDimsToOperandDims := [0]
  indexVectorDim := 1
  wf := scatter_S40000x256_S200000x1_S200000x256_1_0_0_1_wf
def gather_S60000x256_S120000x1_S120000x256_1_0_n_n_0_1_1256 : GatherDims S60000x256 S120000x1 S120000x256 where
  offsetDims := [1]
  collapsedSliceDims := [0]
  operandBatchingDims := []
  startIndicesBatchingDims := []
  startIndexMap := [0]
  indexVectorDim := 1
  sliceSizes := ![1, 256]
  wf := gather_S60000x256_S120000x1_S120000x256_1_0_n_n_0_1_1256_wf
def scatter_S40000x256_S120000x1_S120000x256_1_0_0_1 : ScatterDims S40000x256 S120000x1 S120000x256 where
  updateWindowDims := [1]
  insertedWindowDims := [0]
  scatterDimsToOperandDims := [0]
  indexVectorDim := 1
  wf := scatter_S40000x256_S120000x1_S120000x256_1_0_0_1_wf
def dot_S40000x256_S256x256_S40000x256_1_0_0_1_n_n : DotDims S40000x256 S256x256 S40000x256 where
  lhsContracting := [1]
  rhsContracting := [0]
  lhsNonContracting := [0]
  rhsNonContracting := [1]
  lhsBatch := []
  rhsBatch := []
  wf := dot_S40000x256_S256x256_S40000x256_1_0_0_1_n_n_wf
def dot_S40000x768_S768x256_S40000x256_1_0_0_1_n_n : DotDims S40000x768 S768x256 S40000x256 where
  lhsContracting := [1]
  rhsContracting := [0]
  lhsNonContracting := [0]
  rhsNonContracting := [1]
  lhsBatch := []
  rhsBatch := []
  wf := dot_S40000x768_S768x256_S40000x256_1_0_0_1_n_n_wf

class Facts : Prop extends Facts₀ where

variable [Facts]
-- ==== Proof.Spec.lean ====
import Idealize.ShloMosaic.PureOps.Ideal.Laws
import Idealize.ShloMosaic.Lib.ValueIdx

noncomputable section

namespace Cert.Spec

open Idealize.ShloMosaic Idealize.ShloMosaic.ValueIdx

abbrev Mat (R C : ℕ) : Type := FVec Ideal ⟨2, ![R, C]⟩ .f32
abbrev Row (C : ℕ) : Type := FVec Ideal ⟨1, ![C]⟩ .f32

/-- The ε of every normalisation. -/
def epsBN : EReal := Ideal.ofBits .f32 0x3727C5AC#32

/-- A [1, C] array read as the vector of its one row. -/
def rowOf {C : ℕ} (v : Mat 1 C) : Row C := fun i => v (ix2 (0 : Fin 1) (i 0))

theorem rowOf_apply {C : ℕ} (v : Mat 1 C) (c : Fin C) : rowOf v (ix1 c) = v (ix2 (0 : Fin 1) c) := rfl

/-- Entry (r, c) of the product  X · W . -/
def dot {R K C : ℕ} (X : Mat R K) (W : Mat K C) (r : Fin R) (c : Fin C) : EReal :=
  ∑ k : Fin K, X (ix2 r k) * W (ix2 k c)

/-- Entry (r, c) of a dense stage:  (X · W)(r, c) + b(c) . -/
def linAt {R K C : ℕ} (X : Mat R K) (W : Mat K C) (b : Row C) (r : Fin R) (c : Fin C) : EReal :=
  dot X W r c + b (ix1 c)

def linArr {R K C : ℕ} (X : Mat R K) (W : Mat K C) (b : Row C) : Mat R C :=
  fun i => linAt X W b (i 0) (i 1)

/-- Entry (r, c) of a message:  max((X · Wx)(r, c) + (A · Wa)(r, c) + b(c), 0) . -/
def msgAt {R K C : ℕ} (X A : Mat R K) (Wx Wa : Mat K C) (b : Row C) (r : Fin R) (c : Fin C) : EReal :=
  max ((dot X Wx r c + dot A Wa r c) + b (ix1 c)) 0

def msgArr {R K C : ℕ} (X A : Mat R K) (Wx Wa : Mat K C) (b : Row C) : Mat R C :=
  fun i => msgAt X A Wx Wa b (i 0) (i 1)

/-- Entry (r, k) after normalisation and the rectifier:
    max(g(k) · (P(r, k) − μ(k)) · rsqrt(σ²(k) + ε) + β(k), 0) . -/
def bnAt {R C : ℕ} (P : Mat R C) (mean var g beta : Row C) (r : Fin R) (k : Fin C) : EReal :=
  max (((g (ix1 k) * (P (ix2 r k) - mean (ix1 k))) * Ideal.rsqrt (var (ix1 k) + epsBN)) + beta (ix1 k)) 0

def bnArr {R C : ℕ} (P : Mat R C) (mean var g beta : Row C) : Mat R C :=
  fun i => bnAt P mean var g beta (i 0) (i 1)

/-- The dense stage after a normalisation. -/
def bnLinArr {R K C : ℕ} (P : Mat R K) (mean var g beta : Row K) (W : Mat K C) (b : Row C) : Mat R C :=
  linArr (bnArr P mean var g beta) W b

end Cert.Spec

end
-- ==== Proof.Model.lean ====
import Idealize.ShloMosaic.PureOps
import Idealize.ShloMosaic.PureOps.Ideal.Laws
import Idealize.ShloMosaic.Lib.ValueIdx
import proofs.«102128_j53085795779156_1_alg».proof.Proof.Spec

noncomputable section

namespace Cert.Model

open Idealize.ShloMosaic Idealize.ShloMosaic.ValueIdx Cert.Spec

abbrev S_ : Shape := ⟨0, ![]⟩
abbrev S1 : Shape := ⟨1, ![1]⟩
abbrev S1x1 : Shape := ⟨2, ![1, 1]⟩
abbrev S256 : Shape := ⟨1, ![256]⟩
abbrev S1x256 : Shape := ⟨2, ![1, 256]⟩
abbrev S256x256 : Shape := ⟨2, ![256, 256]⟩
abbrev S512x256 : Shape := ⟨2, ![512, 256]⟩
abbrev S768x256 : Shape := ⟨2, ![768, 256]⟩
abbrev SN : Shape := ⟨2, ![40000, 256]⟩
abbrev SE : Shape := ⟨2, ![200000, 256]⟩
abbrev SEi : Shape := ⟨1, ![200000]⟩
abbrev SEc : Shape := ⟨2, ![200000, 1]⟩
abbrev S2xE : Shape := ⟨2, ![2, 200000]⟩
abbrev S1xE : Shape := ⟨2, ![1, 200000]⟩
abbrev SB : Shape := ⟨2, ![120000, 256]⟩
abbrev SBi : Shape := ⟨1, ![120000]⟩
abbrev SBc : Shape := ⟨2, ![120000, 1]⟩
abbrev S2xB : Shape := ⟨2, ![2, 120000]⟩
abbrev S1xB : Shape := ⟨2, ![1, 120000]⟩
abbrev ST : Shape := ⟨2, ![60000, 256]⟩

theorem slE0 : S2xE.Slices ![0, 0] S1xE := by decide
theorem slE1 : S2xE.Slices ![1, 0] S1xE := by decide
theorem scE : S1xE.ShapeCasts SEi := by decide
theorem b0Ei : S_.BroadcastsInDim SEi (![] : Fin 0 → Fin SEi.rank) := by decide
theorem bEiEc : SEi.BroadcastsInDim SEc (![0] : Fin 1 → Fin SEc.rank) := by decide
theorem slB0 : S2xB.Slices ![0, 0] S1xB := by decide
theorem slB1 : S2xB.Slices ![1, 0] S1xB := by decide
theorem scB : S1xB.ShapeCasts SBi := by decide
theorem b0Bi : S_.BroadcastsInDim SBi (![] : Fin 0 → Fin SBi.rank) := by decide
theorem bBiBc : SBi.BroadcastsInDim SBc (![0] : Fin 1 → Fin SBc.rank) := by decide
theorem gwfE : GatherDims.WF SN SEc SE [1] [0] [] [0] [] 1 ![1, 256] := by decide
theorem gwfB : GatherDims.WF ST SBc SB [1] [0] [] [0] [] 1 ![1, 256] := by decide
theorem swfE : ScatterDims.WF SN SEc SE [1] [0] [0] 1 := by decide
theorem swfB : ScatterDims.WF SN SBc SB [1] [0] [0] 1 := by decide
theorem sl512a : S512x256.Slices ![0, 0] S256x256 := by decide
theorem sl512b : S512x256.Slices ![256, 0] S256x256 := by decide
theorem sl768a : S768x256.Slices ![0, 0] S256x256 := by decide
theorem sl768b : S768x256.Slices ![256, 0] S256x256 := by decide
theorem sl768c : S768x256.Slices ![512, 0] S256x256 := by decide
theorem b0N : S_.BroadcastsInDim SN (![] : Fin 0 → Fin SN.rank) := by decide
theorem b0R : S_.BroadcastsInDim S256 (![] : Fin 0 → Fin S256.rank) := by decide
theorem bR1 : S256.BroadcastsInDim S1x256 (![1] : Fin 1 → Fin S1x256.rank) := by decide
theorem b1N : S1x256.BroadcastsInDim SN (![0, 1] : Fin 2 → Fin SN.rank) := by decide
theorem redN : SN.ReducesTo [0] S256 := by decide
theorem hS : 0 < S_.numel := by decide
theorem b01 : S_.BroadcastsInDim S1 (![] : Fin 0 → Fin S1.rank) := by decide
theorem b111 : S1.BroadcastsInDim S1x1 (![1] : Fin 1 → Fin S1x1.rank) := by decide
theorem b11N : S1x1.BroadcastsInDim SN (![0, 1] : Fin 2 → Fin SN.rank) := by decide

def gdE : GatherDims SN SEc SE where
  offsetDims := [1]
  collapsedSliceDims := [0]
  operandBatchingDims := []
  startIndicesBatchingDims := []
  startIndexMap := [0]
  indexVectorDim := 1
  sliceSizes := ![1, 256]
  wf := gwfE
def gdB : GatherDims ST SBc SB where
  offsetDims := [1]
  collapsedSliceDims := [0]
  operandBatchingDims := []
  startIndicesBatchingDims := []
  startIndexMap := [0]
  indexVectorDim := 1
  sliceSizes := ![1, 256]
  wf := gwfB
def sdE : ScatterDims SN SEc SE where
  updateWindowDims := [1]
  insertedWindowDims := [0]
  scatterDimsToOperandDims := [0]
  indexVectorDim := 1
  wf := swfE
def sdB : ScatterDims SN SBc SB where
  updateWindowDims := [1]
  insertedWindowDims := [0]
  scatterDimsToOperandDims := [0]
  indexVectorDim := 1
  wf := swfB

/-- Row 0 or row 1 of a two-row index array, as a vector. -/
def rowE0 (I : IVec S2xE 32) : IVec SEi 32 := shapeCast SEi ((extractStridedSlice S1xE ![0, 0] · slE0) I) scE
def rowE1 (I : IVec S2xE 32) : IVec SEi 32 := shapeCast SEi ((extractStridedSlice S1xE ![1, 0] · slE1) I) scE
def rowB0 (I : IVec S2xB 32) : IVec SBi 32 := shapeCast SBi ((extractStridedSlice S1xB ![0, 0] · slB0) I) scB
def rowB1 (I : IVec S2xB 32) : IVec SBi 32 := shapeCast SBi ((extractStridedSlice S1xB ![1, 0] · slB1) I) scB

/-- Row numbers with every negative one raised by the table's height n, as a column. -/
def wrapE (n : BitVec 32) (idx : IVec SEi 32) : IVec SEc 32 :=
  broadcastInDim SEc ![0] bEiEc
    (select (cmpi .slt idx (broadcastInDim SEi ![] b0Ei (constantI S_ 32 0#32)))
      (addi idx (broadcastInDim SEi ![] b0Ei (constantI S_ 32 n))) idx)
def wrapB (n : BitVec 32) (idx : IVec SBi 32) : IVec SBc 32 :=
  broadcastInDim SBc ![0] bBiBc
    (select (cmpi .slt idx (broadcastInDim SBi ![] b0Bi (constantI S_ 32 0#32)))
      (addi idx (broadcastInDim SBi ![] b0Bi (constantI S_ 32 n))) idx)

/-- The rows of a table at a column of row numbers. -/
def gatherE (X : FVec Ideal SN .f32) (i : IVec SEc 32) : FVec Ideal SE .f32 := Host.gather gdE X i
def gatherB (X : FVec Ideal ST .f32) (i : IVec SBc 32) : FVec Ideal SB .f32 := Host.gather gdB X i

/-- The rows of U summed into the rows a vector of targets names, starting from zeros. -/
def segE (idx : IVec SEi 32) (U : FVec Ideal SE .f32) : FVec Ideal SN .f32 :=
  Host.scatterAdd sdE (broadcastInDim SN ![] b0N (constant (F := Ideal) S_ .f32 0x00000000#32)) (broadcastInDim SEc ![0] bEiEc idx) U
def segB (idx : IVec SBi 32) (U : FVec Ideal SB .f32) : FVec Ideal SN .f32 :=
  Host.scatterAdd sdB (broadcastInDim SN ![] b0N (constant (F := Ideal) S_ .f32 0x00000000#32)) (broadcastInDim SBc ![0] bBiBc idx) U

/-- A [256] vector repeated over the 40000 rows. -/
def over (v : FVec Ideal S256 .f32) : FVec Ideal SN .f32 :=
  broadcastInDim SN ![0, 1] b1N (broadcastInDim S1x256 ![1] bR1 v)

/-- The column means: column sums divided by 40000. -/
def meanH (P : FVec Ideal SN .f32) : FVec Ideal S256 .f32 :=
  Host.divf (Host.reduceAdd P (constant (F := Ideal) S_ .f32 0x00000000#32) redN hS)
    (broadcastInDim S256 ![] b0R (constant (F := Ideal) S_ .f32 0x471C4000#32))

/-- The biased column variances: column means of the squared deviations. -/
def varH (P : FVec Ideal SN .f32) : FVec Ideal S256 .f32 :=
  Host.divf (Host.reduceAdd (mulf (subf P (over (meanH P))) (subf P (over (meanH P)))) (constant (F := Ideal) S_ .f32 0x00000000#32) redN hS)
    (broadcastInDim S256 ![] b0R (constant (F := Ideal) S_ .f32 0x471C4000#32))

/-- agg + (1 + ε) · x . -/
def scaleAdd (agg : FVec Ideal SN .f32) (eps : FVec Ideal S1 .f32) (x : FVec Ideal SN .f32) : FVec Ideal SN .f32 :=
  addf agg (mulf (broadcastInDim SN ![0, 1] b11N (broadcastInDim S1x1 ![1] b111
    (addf (broadcastInDim S1 ![] b01 (constant (F := Ideal) S_ .f32 0x3F800000#32)) eps))) x)

/-- The halves of a [512, 256] array and the thirds of a [768, 256] one, by rows. -/
def top (W : FVec Ideal S512x256 .f32) : FVec Ideal S256x256 .f32 := (extractStridedSlice S256x256 ![0, 0] · sl512a) W
def bot (W : FVec Ideal S512x256 .f32) : FVec Ideal S256x256 .f32 := (extractStridedSlice S256x256 ![256, 0] · sl512b) W
def third0 (W : FVec Ideal S768x256 .f32) : FVec Ideal S256x256 .f32 := (extractStridedSlice S256x256 ![0, 0] · sl768a) W
def third1 (W : FVec Ideal S768x256 .f32) : FVec Ideal S256x256 .f32 := (extractStridedSlice S256x256 ![256, 0] · sl768b) W
def third2 (W : FVec Ideal S768x256 .f32) : FVec Ideal S256x256 .f32 := (extractStridedSlice S256x256 ![512, 0] · sl768c) W

structure Args where
  x : FVec Ideal SN .f32
  upA : FVec Ideal SE .f32
  dnA : FVec Ideal SE .f32
  bA : FVec Ideal ST .f32
  Wmu : FVec Ideal S512x256 .f32
  bmu : FVec Ideal S256 .f32
  Wmd : FVec Ideal S512x256 .f32
  bmd : FVec Ideal S256 .f32
  W1u : FVec Ideal S256x256 .f32
  b1u : FVec Ideal S256 .f32
  g1u : FVec Ideal S256 .f32
  c1u : FVec Ideal S256 .f32
  W2u : FVec Ideal S256x256 .f32
  b2u : FVec Ideal S256 .f32
  g2u : FVec Ideal S256 .f32
  c2u : FVec Ideal S256 .f32
  W1d : FVec Ideal S256x256 .f32
  b1d : FVec Ideal S256 .f32
  g1d : FVec Ideal S256 .f32
  c1d : FVec Ideal S256 .f32
  W2d : FVec Ideal S256x256 .f32
  b2d : FVec Ideal S256 .f32
  g2d : FVec Ideal S256 .f32
  c2d : FVec Ideal S256 .f32
  W1b : FVec Ideal S256x256 .f32
  b1b : FVec Ideal S256 .f32
  g1b : FVec Ideal S256 .f32
  c1b : FVec Ideal S256 .f32
  W2b : FVec Ideal S256x256 .f32
  b2b : FVec Ideal S256 .f32
  g2b : FVec Ideal S256 .f32
  c2b : FVec Ideal S256 .f32
  Wc : FVec Ideal S768x256 .f32
  bc : FVec Ideal S256 .f32
  gc : FVec Ideal S256 .f32
  cc : FVec Ideal S256 .f32
  eps1 : FVec Ideal S1 .f32
  eps2 : FVec Ideal S1 .f32
  eps3 : FVec Ideal S1 .f32
  upI : IVec S2xE 32
  dnI : IVec S2xE 32
  bI : IVec S2xB 32

/-- A branch's second dense layer, after the first one's normalisation over the rows. -/
def layer2 (l1 : FVec Ideal SN .f32) (g1 c1 : FVec Ideal S256 .f32) (W2 : FVec Ideal S256x256 .f32) (b2 : FVec Ideal S256 .f32) :
    FVec Ideal SN .f32 := bnLinArr l1 (meanH l1) (varH l1) g1 c1 W2 b2
/-- A branch's output: its second layer normalised over the rows and rectified. -/
def hidden (l2 : FVec Ideal SN .f32) (g2 c2 : FVec Ideal S256 .f32) : FVec Ideal SN .f32 := bnArr l2 (meanH l2) (varH l2) g2 c2

variable (a : Args)

def xU : FVec Ideal SE .f32 := gatherE a.x (wrapE 40000#32 (rowE0 a.upI))
def xD : FVec Ideal SE .f32 := gatherE a.x (wrapE 40000#32 (rowE0 a.dnI))
def xB : FVec Ideal SB .f32 := gatherB a.bA (wrapB 60000#32 (rowB0 a.bI))
def msgU : FVec Ideal SE .f32 := msgArr (xU a) a.upA (top a.Wmu) (bot a.Wmu) a.bmu
def msgD : FVec Ideal SE .f32 := msgArr (xD a) a.dnA (top a.Wmd) (bot a.Wmd) a.bmd
def h0U : FVec Ideal SN .f32 := scaleAdd (segE (rowE1 a.upI) (msgU a)) a.eps1 a.x
def h0D : FVec Ideal SN .f32 := scaleAdd (segE (rowE1 a.dnI) (msgD a)) a.eps2 a.x
def h0B : FVec Ideal SN .f32 := scaleAdd (segB (rowB1 a.bI) (xB a)) a.eps3 a.x
def l1U : FVec Ideal SN .f32 := linArr (h0U a) a.W1u a.b1u
def l1D : FVec Ideal SN .f32 := linArr (h0D a) a.W1d a.b1d
def l1B : FVec Ideal SN .f32 := linArr (h0B a) a.W1b a.b1b
def l2U : FVec Ideal SN .f32 := layer2 (l1U a) a.g1u a.c1u a.W2u a.b2u
def l2D : FVec Ideal SN .f32 := layer2 (l1D a) a.g1d a.c1d a.W2d a.b2d
def l2B : FVec Ideal SN .f32 := layer2 (l1B a) a.g1b a.c1b a.W2b a.b2b
def hU : FVec Ideal SN .f32 := hidden (l2U a) a.g2u a.c2u
def hD : FVec Ideal SN .f32 := hidden (l2D a) a.g2d a.c2d
def hB : FVec Ideal SN .f32 := hidden (l2B a) a.g2b a.c2b

/-- The last dense layer over the 768 joined columns, block by block, plus its bias. -/
def pre : FVec Ideal SN .f32 := fun i =>
  ((dot (hU a) (third0 a.Wc) (i 0) (i 1) + dot (hD a) (third1 a.Wc) (i 0) (i 1)) + dot (hB a) (third2 a.Wc) (i 0) (i 1))
    + a.bc (ix1 (i 1))

/-- The network's result. -/
def out : FVec Ideal SN .f32 := bnArr (pre a) (meanH (pre a)) (varH (pre a)) a.gc a.cc

end Cert.Model

end
-- ==== Proof.KArgs.lean ====
import proofs.«102128_j53085795779156_1_alg».proof.Proof.Gen.KernelIdeal.Frame
import proofs.«102128_j53085795779156_1_alg».proof.Proof.Model
import Idealize.ShloMosaic.Lib.ValueLayout
import Idealize.ShloMosaic.Lib.Pipeline.Value

noncomputable section

namespace Cert.KV

open Idealize.ShloMosaic Idealize.ShloMosaic.ValueIdx Idealize.ShloMosaic.TcCoe Idealize.SL.Sem Cert.KernelIdeal Cert.KernelIdeal.Gen

/-- The program's 42 argument arrays on core `c`, as the network's argument record. -/
def argsK (m : (ℓ : Loc nD τ sig) → Buf (Elt Ideal) ℓ) (c : Dev nD) : Cert.Model.Args where
  x := m ((c : Thread nD τ).loc main_arg0)
  upA := m ((c : Thread nD τ).loc main_arg1)
  dnA := m ((c : Thread nD τ).loc main_arg2)
  bA := m ((c : Thread nD τ).loc main_arg3)
  Wmu := m ((c : Thread nD τ).loc main_arg4)
  bmu := m ((c : Thread nD τ).loc main_arg5)
  Wmd := m ((c : Thread nD τ).loc main_arg6)
  bmd := m ((c : Thread nD τ).loc main_arg7)
  W1u := m ((c : Thread nD τ).loc main_arg8)
  b1u := m ((c : Thread nD τ).loc main_arg9)
  g1u := m ((c : Thread nD τ).loc main_arg10)
  c1u := m ((c : Thread nD τ).loc main_arg11)
  W2u := m ((c : Thread nD τ).loc main_arg12)
  b2u := m ((c : Thread nD τ).loc main_arg13)
  g2u := m ((c : Thread nD τ).loc main_arg14)
  c2u := m ((c : Thread nD τ).loc main_arg15)
  W1d := m ((c : Thread nD τ).loc main_arg16)
  b1d := m ((c : Thread nD τ).loc main_arg17)
  g1d := m ((c : Thread nD τ).loc main_arg18)
  c1d := m ((c : Thread nD τ).loc main_arg19)
  W2d := m ((c : Thread nD τ).loc main_arg20)
  b2d := m ((c : Thread nD τ).loc main_arg21)
  g2d := m ((c : Thread nD τ).loc main_arg22)
  c2d := m ((c : Thread nD τ).loc main_arg23)
  W1b := m ((c : Thread nD τ).loc main_arg24)
  b1b := m ((c : Thread nD τ).loc main_arg25)
  g1b := m ((c : Thread nD τ).loc main_arg26)
  c1b := m ((c : Thread nD τ).loc main_arg27)
  W2b := m ((c : Thread nD τ).loc main_arg28)
  b2b := m ((c : Thread nD τ).loc main_arg29)
  g2b := m ((c : Thread nD τ).loc main_arg30)
  c2b := m ((c : Thread nD τ).loc main_arg31)
  Wc := m ((c : Thread nD τ).loc main_arg32)
  bc := m ((c : Thread nD τ).loc main_arg33)
  gc := m ((c : Thread nD τ).loc main_arg34)
  cc := m ((c : Thread nD τ).loc main_arg35)
  eps1 := m ((c : Thread nD τ).loc main_arg36)
  eps2 := m ((c : Thread nD τ).loc main_arg37)
  eps3 := m ((c : Thread nD τ).loc main_arg38)
  upI := m ((c : Thread nD τ).loc main_arg39)
  dnI := m ((c : Thread nD τ).loc main_arg40)
  bI := m ((c : Thread nD τ).loc main_arg41)

/-- Giving a vector a leading unit axis and reading row 0 back changes nothing. -/
theorem rowOf_reshape {C : ℕ} (hsc : (⟨1, ![C]⟩ : Shape).ShapeCasts ⟨2, ![1, C]⟩) (v : Cert.Spec.Row C) :
    Cert.Spec.rowOf (shapeCast ⟨2, ![1, C]⟩ v hsc) = v := by
  funext i
  have hi : i = ix1 (i 0) := funext fun a => match a with | ⟨0, _⟩ => rfl
  rw [hi]
  show shapeCast ⟨2, ![1, C]⟩ v hsc (ix2 (0 : Fin 1) (i 0)) = v (ix1 (i 0))
  exact (shapeCast_addUnit_apply ![C] v hsc (ix2 (0 : Fin 1) (i 0))).trans
    (congrArg v (funext fun a => match a with | ⟨0, _⟩ => rfl))

/-- A one-row array of 256 zeros. -/
def zrowK : Cert.Spec.Mat 1 256 :=
  shapeCast S1x256 (broadcastInDim S256 ![] bcast_S_S256 (constant (F := Ideal) S_ .f32 0x00000000#32)) shapeCasts_S256_S1x256

theorem zrowK_zero (q : Fin 256) : zrowK (ix2 (0 : Fin 1) q) = 0 := by
  have e : Cert.Spec.rowOf zrowK
      = broadcastInDim S256 ![] bcast_S_S256 (constant (F := Ideal) S_ .f32 0x00000000#32) := by
    unfold zrowK
    exact rowOf_reshape _ _
  have e2 := congrFun e (ix1 q)
  rw [Cert.Spec.rowOf_apply] at e2
  rw [e2, broadcastInDim_apply ![] bcast_S_S256 _ (ix1 q) ix0 (fun a => a.elim0), constant_apply, Ideal.ofBits_zero_f32]

end Cert.KV

end
-- ==== Proof.Carry.lean ====
import proofs.«102128_j53085795779156_1_alg».proof.Proof.Gen.KernelIdeal.Frame

set_option maxRecDepth 16384

noncomputable section

namespace Cert.KV

open Idealize.ShloMosaic Idealize.ShloMosaic.TcCoe Idealize.SL.Sem Cert.KernelIdeal Cert.KernelIdeal.Gen

-- References with different numbers are different buffers.
theorem ne_of_idx {b y : Ref sig .tc} {n : ℕ} (hb : b.idx.val < n) (hy : n ≤ y.idx.val) :
    Proc.devRef (τ := τ) .tc b ≠ Proc.devRef .tc y :=
  StableHlo.devRef_ne_of_ne fun e => Nat.not_lt.mpr hy (e ▸ hb)

macro "skip_host" ops:ident h:ident : tactic => `(tactic|
  (have $h := of_decide_eq_true $h
   exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact ne_of_idx $h (by decide)))))

variable {F : FTy → Type} [FloatOps F]
variable (m : (ℓ : Loc nD τ sig) → Buf (Elt F) ℓ) (ρ : Dev nD → PrngReg) (c : Dev nD)

-- The contents at boundary k.
def Bd : ℕ → Valuation τ sig (Elt F)
  | 0 => W0 m ρ c | 1 => W1 m ρ c | 2 => W2 m ρ c | 3 => W3 m ρ c | 4 => W4 m ρ c | 5 => W5 m ρ c
  | 6 => W6 m ρ c | 7 => W7 m ρ c | 8 => W8 m ρ c | 9 => W9 m ρ c | 10 => W10 m ρ c | 11 => W11 m ρ c
  | 12 => W12 m ρ c | 13 => W13 m ρ c | 14 => W14 m ρ c | 15 => W15 m ρ c | 16 => W16 m ρ c | 17 => W17 m ρ c
  | 18 => W18 m ρ c | 19 => W19 m ρ c | 20 => W20 m ρ c | 21 => W21 m ρ c | 22 => W22 m ρ c | 23 => W23 m ρ c
  | 24 => W24 m ρ c | 25 => W25 m ρ c | 26 => W26 m ρ c | 27 => W27 m ρ c | _ => W28 m ρ c

-- Segment k, from boundary k to boundary k + 1, does not write b.
def keeps (b : Ref sig .tc) : ℕ → Bool
  | 0 => b.idx.val < 42
  | 1 => b.idx.val < 44
  | 2 => b.idx.val < 67
  | 3 => b.idx.val < 69
  | 4 => b.idx.val < 92
  | 5 => b.idx.val < 94
  | 6 => b.idx.val < 117
  | 7 => decide (∀ w, Pipeline.arrRef spec0 w ≠ b)
  | 8 => b.idx.val < 121
  | 9 => decide (∀ w, Pipeline.arrRef spec1 w ≠ b)
  | 10 => b.idx.val < 125
  | 11 => decide (∀ w, Pipeline.arrRef spec2 w ≠ b)
  | 12 => b.idx.val < 166
  | 13 => decide (∀ w, Pipeline.arrRef spec3 w ≠ b)
  | 14 => b.idx.val < 186
  | 15 => decide (∀ w, Pipeline.arrRef spec4 w ≠ b)
  | 16 => b.idx.val < 208
  | 17 => decide (∀ w, Pipeline.arrRef spec5 w ≠ b)
  | 18 => b.idx.val < 210
  | 19 => decide (∀ w, Pipeline.arrRef spec6 w ≠ b)
  | 20 => b.idx.val < 230
  | 21 => decide (∀ w, Pipeline.arrRef spec7 w ≠ b)
  | 22 => b.idx.val < 252
  | 23 => decide (∀ w, Pipeline.arrRef spec8 w ≠ b)
  | 24 => b.idx.val < 254
  | 25 => decide (∀ w, Pipeline.arrRef spec9 w ≠ b)
  | 26 => b.idx.val < 274
  | 27 => decide (∀ w, Pipeline.arrRef spec10 w ≠ b)
  | _ => false

-- A buffer segment k does not write holds after it what it held before.
def Stays (b : Ref sig .tc) (k : ℕ) : Prop :=
  keeps b k = true → Bd m ρ c (k + 1) (Proc.devRef .tc b) = Bd m ρ c k (Proc.devRef .tc b)

theorem s0 (b : Ref sig .tc) : Stays m ρ c b 0 := fun h => by skip_host hostOps0 h
theorem s1 (b : Ref sig .tc) : Stays m ρ c b 1 := fun h => by skip_host hostOps0_1 h
theorem s2 (b : Ref sig .tc) : Stays m ρ c b 2 := fun h => by skip_host hostOps0_2 h
theorem s3 (b : Ref sig .tc) : Stays m ρ c b 3 := fun h => by skip_host hostOps0_3 h
theorem s4 (b : Ref sig .tc) : Stays m ρ c b 4 := fun h => by skip_host hostOps0_4 h
theorem s5 (b : Ref sig .tc) : Stays m ρ c b 5 := fun h => by skip_host hostOps0_5 h
theorem s6 (b : Ref sig .tc) : Stays m ρ c b 6 := fun h => by skip_host hostOps0_6 h
theorem s7 (b : Ref sig .tc) : Stays m ρ c b 7 := fun h => W8_of_ne m ρ c b (of_decide_eq_true h)
theorem s8 (b : Ref sig .tc) : Stays m ρ c b 8 := fun h => by skip_host hostOps1 h
theorem s9 (b : Ref sig .tc) : Stays m ρ c b 9 := fun h => W10_of_ne m ρ c b (of_decide_eq_true h)
theorem s10 (b : Ref sig .tc) : Stays m ρ c b 10 := fun h => by skip_host hostOps2 h
theorem s11 (b : Ref sig .tc) : Stays m ρ c b 11 := fun h => W12_of_ne m ρ c b (of_decide_eq_true h)
theorem s12 (b : Ref sig .tc) : Stays m ρ c b 12 := fun h => by skip_host hostOps3 h
theorem s13 (b : Ref sig .tc) : Stays m ρ c b 13 := fun h => W14_of_ne m ρ c b (of_decide_eq_true h)
theorem s14 (b : Ref sig .tc) : Stays m ρ c b 14 := fun h => by skip_host hostOps4 h
theorem s15 (b : Ref sig .tc) : Stays m ρ c b 15 := fun h => W16_of_ne m ρ c b (of_decide_eq_true h)
theorem s16 (b : Ref sig .tc) : Stays m ρ c b 16 := fun h => by skip_host hostOps5 h
theorem s17 (b : Ref sig .tc) : Stays m ρ c b 17 := fun h => W18_of_ne m ρ c b (of_decide_eq_true h)
theorem s18 (b : Ref sig .tc) : Stays m ρ c b 18 := fun h => by skip_host hostOps6 h
theorem s19 (b : Ref sig .tc) : Stays m ρ c b 19 := fun h => W20_of_ne m ρ c b (of_decide_eq_true h)
theorem s20 (b : Ref sig .tc) : Stays m ρ c b 20 := fun h => by skip_host hostOps7 h
theorem s21 (b : Ref sig .tc) : Stays m ρ c b 21 := fun h => W22_of_ne m ρ c b (of_decide_eq_true h)
theorem s22 (b : Ref sig .tc) : Stays m ρ c b 22 := fun h => by skip_host hostOps8 h
theorem s23 (b : Ref sig .tc) : Stays m ρ c b 23 := fun h => W24_of_ne m ρ c b (of_decide_eq_true h)
theorem s24 (b : Ref sig .tc) : Stays m ρ c b 24 := fun h => by skip_host hostOps9 h
theorem s25 (b : Ref sig .tc) : Stays m ρ c b 25 := fun h => W26_of_ne m ρ c b (of_decide_eq_true h)
theorem s26 (b : Ref sig .tc) : Stays m ρ c b 26 := fun h => by skip_host hostOps10 h
theorem s27 (b : Ref sig .tc) : Stays m ρ c b 27 := fun h => W28_of_ne m ρ c b (of_decide_eq_true h)

theorem step (b : Ref sig .tc) : ∀ k, Stays m ρ c b k
  | 0 => s0 m ρ c b | 1 => s1 m ρ c b | 2 => s2 m ρ c b | 3 => s3 m ρ c b | 4 => s4 m ρ c b
  | 5 => s5 m ρ c b | 6 => s6 m ρ c b | 7 => s7 m ρ c b | 8 => s8 m ρ c b | 9 => s9 m ρ c b
  | 10 => s10 m ρ c b | 11 => s11 m ρ c b | 12 => s12 m ρ c b | 13 => s13 m ρ c b | 14 => s14 m ρ c b
  | 15 => s15 m ρ c b | 16 => s16 m ρ c b | 17 => s17 m ρ c b | 18 => s18 m ρ c b | 19 => s19 m ρ c b
  | 20 => s20 m ρ c b | 21 => s21 m ρ c b | 22 => s22 m ρ c b | 23 => s23 m ρ c b | 24 => s24 m ρ c b
  | 25 => s25 m ρ c b | 26 => s26 m ρ c b | 27 => s27 m ρ c b
  | _ + 28 => fun h => Bool.noConfusion h

-- A buffer no segment from boundary j to boundary i writes holds at i what it held at j.
theorem carry (i j : ℕ) (b : Ref sig .tc) (h : j ≤ i ∧ ∀ k, k < i → j ≤ k → keeps b k = true) :
    Bd m ρ c i (Proc.devRef .tc b) = Bd m ρ c j (Proc.devRef .tc b) := by
  obtain ⟨hji, h⟩ := h
  induction i, hji using Nat.le_induction with
  | base => rfl
  | succ n hn ih => exact (step m ρ c b n (h n n.lt_succ_self hn)).trans (ih fun k hk => h k (Nat.lt_succ_of_lt hk))

theorem carry_main_arg0_1 : W1 m ρ c (Proc.devRef .tc main_arg0) = m ((c : Thread nD τ).loc main_arg0) :=
  carry m ρ c 1 0 main_arg0 (by decide)
theorem carry_main_arg0_3 : W3 m ρ c (Proc.devRef .tc main_arg0) = m ((c : Thread nD τ).loc main_arg0) :=
  carry m ρ c 3 0 main_arg0 (by decide)
theorem carry_main_arg0_10 : W10 m ρ c (Proc.devRef .tc main_arg0) = m ((c : Thread nD τ).loc main_arg0) :=
  carry m ρ c 10 0 main_arg0 (by decide)
theorem carry_main_arg1_7 : W7 m ρ c (Proc.devRef .tc main_arg1) = m ((c : Thread nD τ).loc main_arg1) :=
  carry m ρ c 7 0 main_arg1 (by decide)
theorem carry_main_arg2_9 : W9 m ρ c (Proc.devRef .tc main_arg2) = m ((c : Thread nD τ).loc main_arg2) :=
  carry m ρ c 9 0 main_arg2 (by decide)
theorem carry_main_arg3_5 : W5 m ρ c (Proc.devRef .tc main_arg3) = m ((c : Thread nD τ).loc main_arg3) :=
  carry m ρ c 5 0 main_arg3 (by decide)
theorem carry_main_arg6_8 : W8 m ρ c (Proc.devRef .tc main_arg6) = m ((c : Thread nD τ).loc main_arg6) :=
  carry m ρ c 8 0 main_arg6 (by decide)
theorem carry_main_arg7_8 : W8 m ρ c (Proc.devRef .tc main_arg7) = m ((c : Thread nD τ).loc main_arg7) :=
  carry m ρ c 8 0 main_arg7 (by decide)
theorem carry_main_arg9_10 : W10 m ρ c (Proc.devRef .tc main_arg9) = m ((c : Thread nD τ).loc main_arg9) :=
  carry m ρ c 10 0 main_arg9 (by decide)
theorem carry_main_arg32_10 : W10 m ρ c (Proc.devRef .tc main_arg32) = m ((c : Thread nD τ).loc main_arg32) :=
  carry m ρ c 10 0 main_arg32 (by decide)
theorem carry_main_arg33_28 : W28 m ρ c (Proc.devRef .tc main_arg33) = m ((c : Thread nD τ).loc main_arg33) :=
  carry m ρ c 28 0 main_arg33 (by decide)
theorem carry_main_arg34_28 : W28 m ρ c (Proc.devRef .tc main_arg34) = m ((c : Thread nD τ).loc main_arg34) :=
  carry m ρ c 28 0 main_arg34 (by decide)
theorem carry_main_arg35_28 : W28 m ρ c (Proc.devRef .tc main_arg35) = m ((c : Thread nD τ).loc main_arg35) :=
  carry m ρ c 28 0 main_arg35 (by decide)
theorem carry_main_arg36_10 : W10 m ρ c (Proc.devRef .tc main_arg36) = m ((c : Thread nD τ).loc main_arg36) :=
  carry m ρ c 10 0 main_arg36 (by decide)
theorem carry_main_arg37_10 : W10 m ρ c (Proc.devRef .tc main_arg37) = m ((c : Thread nD τ).loc main_arg37) :=
  carry m ρ c 10 0 main_arg37 (by decide)
theorem carry_main_arg38_10 : W10 m ρ c (Proc.devRef .tc main_arg38) = m ((c : Thread nD τ).loc main_arg38) :=
  carry m ρ c 10 0 main_arg38 (by decide)
theorem carry_main_arg39_10 : W10 m ρ c (Proc.devRef .tc main_arg39) = m ((c : Thread nD τ).loc main_arg39) :=
  carry m ρ c 10 0 main_arg39 (by decide)
theorem carry_main_arg40_10 : W10 m ρ c (Proc.devRef .tc main_arg40) = m ((c : Thread nD τ).loc main_arg40) :=
  carry m ρ c 10 0 main_arg40 (by decide)
theorem carry_main_arg41_10 : W10 m ρ c (Proc.devRef .tc main_arg41) = m ((c : Thread nD τ).loc main_arg41) :=
  carry m ρ c 10 0 main_arg41 (by decide)
theorem carry_main_v2_7_2 : W7 m ρ c (Proc.devRef .tc main_v2) = W2 m ρ c (Proc.devRef .tc main_v2) :=
  carry m ρ c 7 2 main_v2 (by decide)
theorem carry_main_v5_9_4 : W9 m ρ c (Proc.devRef .tc main_v5) = W4 m ρ c (Proc.devRef .tc main_v5) :=
  carry m ρ c 9 4 main_v5 (by decide)
theorem carry_main_v12_10_8 : W10 m ρ c (Proc.devRef .tc main_v12) = W8 m ρ c (Proc.devRef .tc main_v12) :=
  carry m ρ c 10 8 main_v12 (by decide)
theorem carry_main_v8_10_6 : W10 m ρ c (Proc.devRef .tc main_v8) = W6 m ρ c (Proc.devRef .tc main_v8) :=
  carry m ρ c 10 6 main_v8 (by decide)
theorem carry_main_v84_28_16 : W28 m ρ c (Proc.devRef .tc main_v84) = W16 m ρ c (Proc.devRef .tc main_v84) :=
  carry m ρ c 28 16 main_v84 (by decide)
theorem carry_main_v119_28_22 : W28 m ρ c (Proc.devRef .tc main_v119) = W22 m ρ c (Proc.devRef .tc main_v119) :=
  carry m ρ c 28 22 main_v119 (by decide)

end Cert.KV

end
-- ==== Proof.TakeRows.lean ====
import Idealize.ShloMosaic.Lib.ReduceAll
import Idealize.ShloMosaic.Lib.StableHlo.Predicate

namespace Cert.Take

open Idealize.ShloMosaic

/-- `s + n` where the index word `s` is negative, else `s`. -/
def wrapWord (n s : BitVec 32) : BitVec 32 := Scalar.select (IntOp.cmpi .slt s 0#32) (IntOp.addi s n) s

/-- For `s` in `[-n, n)` the sum `s + n` of a negative `s` does not overflow, so the wrapped word is in `[0, n)`. -/
theorem wrap_inRange (n : Nat) (hn : n < 2 ^ 30) (s : BitVec 32) (h1 : -(n : Int) ≤ s.toInt) (h2 : s.toInt < n) :
    0 ≤ (wrapWord (BitVec.ofNat 32 n) s).toInt ∧ (wrapWord (BitVec.ofNat 32 n) s).toInt < n := by
  have hnI : (BitVec.ofNat 32 n).toInt = n := StableHlo.Predicate.toInt_ofNat_small n (by omega)
  have hc := IntOp.cmpi_slt (x := s) (y := 0#32)
  rw [BitVec.toInt_zero] at hc
  unfold wrapWord Scalar.select
  by_cases hs : IntOp.cmpi .slt s 0#32 = 1
  · have := hc.1 hs
    rw [if_pos hs, IntOp.addi, BitVec.toInt_add, hnI, Int.bmod_eq_of_le (by omega) (by omega)]
    omega
  · have := mt hc.2 hs
    rw [if_neg hs]
    omega

/-- Hence both signed compares of the wrapped word, against 0 and against the word of `n - 1`, hold. -/
theorem rangeTest_wrap (n : Nat) (hn : n < 2 ^ 30) (hi : BitVec 32) (hhi : hi.toInt = (n : Int) - 1) (s : BitVec 32)
    (h1 : -(n : Int) ≤ s.toInt) (h2 : s.toInt < n) :
    IntOp.andi (IntOp.cmpi .sge (wrapWord (BitVec.ofNat 32 n) s) 0#32) (IntOp.cmpi .sle (wrapWord (BitVec.ofNat 32 n) s) hi) = 1#1 := by
  obtain ⟨h0, hlt⟩ := wrap_inRange n hn s h1 h2
  exact IntOp.andi_eq_one.2 ⟨IntOp.cmpi_sge.2 (by rw [BitVec.toInt_zero]; exact h0), IntOp.cmpi_sle.2 (by rw [hhi]; omega)⟩

/-- An `and`-reduce that starts at 1 and meets only 1s stays 1 (the converse of `Host.reduce_andi_eq_one`). -/
theorem reduce_andi_of_all {s t u : Shape} {axes : List (Fin s.rank)} (x : s.Idx → BitVec 1) (init : u.Idx → BitVec 1)
    (h : s.ReducesTo axes t) (hu : 0 < u.numel) (hinit : ∀ k, init k = 1#1) (hx : ∀ i, x i = 1#1) (j : t.Idx) :
    Host.reduce IntOp.andi x init h hu j = 1#1 := by
  have hl : ∀ (l : List s.Idx) (b : BitVec 1), b = 1#1 → l.foldl (fun r n => IntOp.andi r (x n)) b = 1#1 := fun l => by
    induction l with
    | nil => exact fun _ hb => hb
    | cons a l ih => exact fun _ hb => ih _ (IntOp.andi_eq_one.2 ⟨hb, hx a⟩)
  rw [Host.reduce_eq_foldl]
  exact hl _ _ (hinit _)

variable {N T C : Nat}

/-- With every row number in `[-T, T)` the take's range mask is 1 at every element, so the select under it is its first branch. -/
theorem select_take_mask {α : Type} (hT : T < 2 ^ 30) (hi : BitVec 32) (hhi : hi.toInt = (T : Int) - 1)
    (hb0 : (⟨0, ![]⟩ : Shape).BroadcastsInDim ⟨1, ![N]⟩ ![])
    (hb1 : (⟨1, ![N]⟩ : Shape).BroadcastsInDim ⟨2, ![N, 1]⟩ ![0])
    (hb2 : (⟨0, ![]⟩ : Shape).BroadcastsInDim ⟨2, ![N, 1]⟩ ![])
    (hb3 : (⟨1, ![1]⟩ : Shape).BroadcastsInDim ⟨2, ![1, 1]⟩ ![1])
    (hb4 : (⟨2, ![1, 1]⟩ : Shape).BroadcastsInDim ⟨2, ![N, 1]⟩ ![0, 1])
    (hr : (⟨2, ![N, 1]⟩ : Shape).ReducesTo [1] ⟨1, ![N]⟩) (hu : 0 < (⟨0, ![]⟩ : Shape).numel)
    (hb5 : (⟨1, ![N]⟩ : Shape).BroadcastsInDim ⟨2, ![N, C]⟩ ![0])
    (idx : IVec ⟨1, ![N]⟩ 32) (hidx : ∀ j, -(T : Int) ≤ (idx j).toInt ∧ (idx j).toInt < T)
    (a b : (⟨2, ![N, C]⟩ : Shape).Idx → α) :
    select
      (broadcastInDim ⟨2, ![N, C]⟩ ![0] hb5
        (Host.reduce IntOp.andi
          (andi
            (cmpi .sge
              (broadcastInDim ⟨2, ![N, 1]⟩ ![0] hb1
                (select (cmpi .slt idx (broadcastInDim ⟨1, ![N]⟩ ![] hb0 (constantI ⟨0, ![]⟩ 32 0#32)))
                  (addi idx (broadcastInDim ⟨1, ![N]⟩ ![] hb0 (constantI ⟨0, ![]⟩ 32 (BitVec.ofNat 32 T)))) idx))
              (broadcastInDim ⟨2, ![N, 1]⟩ ![] hb2 (constantI ⟨0, ![]⟩ 32 0#32)))
            (cmpi .sle
              (broadcastInDim ⟨2, ![N, 1]⟩ ![0] hb1
                (select (cmpi .slt idx (broadcastInDim ⟨1, ![N]⟩ ![] hb0 (constantI ⟨0, ![]⟩ 32 0#32)))
                  (addi idx (broadcastInDim ⟨1, ![N]⟩ ![] hb0 (constantI ⟨0, ![]⟩ 32 (BitVec.ofNat 32 T)))) idx))
              (broadcastInDim ⟨2, ![N, 1]⟩ ![0, 1] hb4
                (broadcastInDim ⟨2, ![1, 1]⟩ ![1] hb3 (constantI ⟨1, ![1]⟩ 32 hi)))))
          (constantI ⟨0, ![]⟩ 1 1#1) hr hu))
      a b = a := by
  funext i
  refine (congrArg (Scalar.select · (a i) (b i)) ?_).trans (if_pos rfl)
  show Host.reduce IntOp.andi _ _ hr hu _ = 1#1
  exact reduce_andi_of_all _ _ hr hu (fun _ => rfl) (fun _ => rangeTest_wrap T hT hi hhi _ (hidx _).1 (hidx _).2) _

end Cert.Take
-- ==== Proof.LibDense.lean ====
import Idealize.ShloMosaic.Lib.StackMember

noncomputable section

open scoped BigOperators

namespace Cert.Dense

open Idealize.ShloMosaic Idealize.ShloMosaic.ValueIdx

/-- A dot record with these six axis lists is the plain one, whose entry (r, c) is Σ_k lhs(r, k) · rhs(k, c). -/
theorem dotGeneral_plain_apply {R K C : ℕ} {φ₁ φ₂ : FTy} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (lhs : FVec Ideal ⟨2, ![R, K]⟩ φ₁) (rhs : FVec Ideal ⟨2, ![K, C]⟩ φ₂)
    (r : Fin R) (c : Fin C) :
    Host.dotGeneral d prec lhs rhs (ix2 r c) = ∑ k : Fin K, lhs (ix2 r k) * rhs (ix2 k c) := by
  obtain ⟨_, _, _, _, _, _, _⟩ := d
  subst h1 h2 h3 h4 h5 h6
  exact StackMember.dotGeneral_plain_apply prec lhs rhs r c

/-- The product into a zero accumulator is the same sum over the contraction index as the general product. -/
theorem matmul_zero_plain_apply {R K C : ℕ} {φ₁ φ₂ : FTy} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (lhs : FVec Ideal ⟨2, ![R, K]⟩ φ₁) (rhs : FVec Ideal ⟨2, ![K, C]⟩ φ₂)
    (r : Fin R) (c : Fin C) :
    matmul d prec lhs rhs (constant ⟨2, ![R, C]⟩ .f32 0x00000000#32) (ix2 r c)
      = ∑ k : Fin K, lhs (ix2 r k) * rhs (ix2 k c) :=
  (Ideal.matmul_constant_zero_apply d prec lhs rhs _).trans
    ((Ideal.dotGeneral_apply d prec _ lhs rhs _).symm.trans (dotGeneral_plain_apply d h1 h2 h3 h4 h5 h6 prec lhs rhs r c))

theorem kernel_relu_apply {s : Shape} (v : FVec Ideal s .f32) (i : s.Idx) :
    maximumf v (broadcast s (Scalar.ofBits (F := Ideal) .f32 0x00000000#32)) i = max (v i) 0 := by
  rw [maximumf_apply, broadcast_apply]
  show max (v i) (Ideal.ofBits .f32 0x00000000#32) = _
  rw [Ideal.ofBits_zero_f32]

theorem host_relu_apply {s : Shape} (hb0 : (⟨0, ![]⟩ : Shape).BroadcastsInDim s (![] : Fin 0 → Fin s.rank))
    (v : FVec Ideal s .f32) (i : s.Idx) :
    maximumf v (broadcastInDim s ![] hb0 (constant (F := Ideal) ⟨0, ![]⟩ .f32 0x00000000#32)) i = max (v i) 0 := by
  rw [maximumf_apply, broadcastInDim_apply ![] hb0 _ i ix0 fun a => a.elim0, constant_apply, Ideal.ofBits_zero_f32]

end Cert.Dense

end
-- ==== Proof.LibRowBlock.lean ====
import Idealize.ShloMosaic.Lib.ValueLayout

namespace Cert.RowBlock

open Idealize.ShloMosaic Idealize.ShloMosaic.ValueIdx

theorem off2_zero : (![0, 0] : Fin 2 → Nat) = fun _ => 0 := funext fun a => by fin_cases a <;> rfl

variable {n : ℕ} (idx : Fin 2 → ℕ)
  (inb : ∀ a, idx a * (![5000, 256] : Fin 2 → ℕ) a + (![5000, 256] : Fin 2 → ℕ) a ≤ (![n, 256] : Fin 2 → ℕ) a)

/-- Entry (p, k) of the block of 5000 rows of an [n, 256] array with block index (t, 0) is the array's entry (5000·t + p, k). -/
theorem emb_rowBlock (t : ℕ) (h0 : idx 0 = t) (h1 : idx 1 = 0) (p : Fin 5000) (k : Fin 256) (r : Fin n)
    (hr : r.val = t * 5000 + p.val) :
    (Rect.unit (s := ⟨2, ![n, 256]⟩) (fun a => idx a * (![5000, 256] : Fin 2 → ℕ) a) ![5000, 256] inb).emb (ix2 p k)
      = ix2 r k := by
  funext a
  apply Fin.ext
  match a with
  | ⟨0, _⟩ => show idx 0 * 5000 + 1 * p.val = r.val; omega
  | ⟨1, _⟩ => show idx 1 * 256 + 1 * k.val = k.val; omega

/-- Row r of the array lies in the block with block index (r / 5000, 0). -/
theorem mem_rowBlock (i : (⟨2, ![n, 256]⟩ : Shape).Idx) (h0 : idx 0 = (i 0).val / 5000) (h1 : idx 1 = 0) :
    i ∈ (Rect.unit (s := ⟨2, ![n, 256]⟩) (fun a => idx a * (![5000, 256] : Fin 2 → ℕ) a) ![5000, 256] inb).set := by
  have hi1 : (i 1).val < 256 := (i 1).isLt
  rw [Rect.mem_set_unit]
  intro a
  match a with
  | ⟨0, _⟩ => show idx 0 * 5000 ≤ (i 0).val ∧ (i 0).val < idx 0 * 5000 + 5000; omega
  | ⟨1, _⟩ => show idx 1 * 256 ≤ (i 1).val ∧ (i 1).val < idx 1 * 256 + 256; omega

end Cert.RowBlock
-- ==== Proof.RegMsg0.lean ====
import proofs.«102128_j53085795779156_1_alg».proof.Proof.Gen.KernelIdeal.Frame
import proofs.«102128_j53085795779156_1_alg».proof.Proof.Spec
import proofs.«102128_j53085795779156_1_alg».proof.Proof.LibDense
import proofs.«102128_j53085795779156_1_alg».proof.Proof.LibRowBlock

noncomputable section

open Idealize.ShloMosaic Idealize.ShloMosaic.TcCoe Idealize.ShloMosaic.ValueIdx Cert.KernelIdeal Cert.KernelIdeal.Gen

namespace Cert.KV

variable (V : (c : Dev nD) → (b : Ref sig .tc) → Buf (Elt Ideal) ((c : Thread nD τ).loc b))

/-- The payload at (p, q) reads only row p of its first two blocks: on rows of X and A and all of Wx, Wa, B it is the message at (r, q). -/
theorem msg_pay_of_blocks (X A : Cert.Spec.Mat 200000 256) (Wx Wa : Cert.Spec.Mat 256 256) (B : Cert.Spec.Mat 1 256)
    (x0 x1 : Vec Ideal S5000x256 .f32) (w0 w1 : Vec Ideal S256x256 .f32) (b0 : Vec Ideal S1x256 .f32)
    (p : Fin 5000) (q : Fin 256) (r : Fin 200000)
    (h0 : ∀ k : Fin 256, x0 (ix2 p k) = X (ix2 r k)) (h1 : ∀ k : Fin 256, x1 (ix2 p k) = A (ix2 r k))
    (h2 : w0 = Wx) (h3 : w1 = Wa) (h4 : b0 = B) :
    k0_pay1 (F := Ideal) x0 x1 w0 w1 b0 (ix2 p q)
      = Cert.Spec.msgArr X A Wx Wa (Cert.Spec.rowOf B) (ix2 r q) := by
  subst h2 h3 h4
  unfold k0_pay1
  rw [Cert.Dense.kernel_relu_apply, addf_apply, addf_apply,
    Cert.Dense.matmul_zero_plain_apply _ rfl rfl rfl rfl rfl rfl, Cert.Dense.matmul_zero_plain_apply _ rfl rfl rfl rfl rfl rfl,
    broadcastTo_1b_ab_apply]
  simp only [truncf_apply, shapeCast_self, h0, h1]
  rfl

theorem msg0_idx : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_5.index t (0 : Fin 2) = t.val ∧ win0_5.index t (1 : Fin 2) = 0)
    ∧ (∀ a : Fin 2, win0_2.index t a = 0) ∧ (∀ a : Fin 2, win0_3.index t a = 0) ∧ (∀ a : Fin 2, win0_4.index t a = 0) :=
  (by decide +kernel : ∀ t : Fin grid0.N, _)

/-- Row p of the first two blocks of point t is row r = 5000·t + p of their arrays. -/
theorem msg0_rows (c : Dev nD) (t : Fin cfg0.N) (p : Fin 5000) (r : Fin 200000) (hr : r.val = t.val * 5000 + p.val) :
    (∀ k : Fin 256, (iblk0 V c 0 t : Vec Ideal S5000x256 .f32) (ix2 p k) = V c (Pipeline.arrRef spec0 0) (ix2 r k))
    ∧ ∀ k : Fin 256, (iblk0 V c 1 t : Vec Ideal S5000x256 .f32) (ix2 p k) = V c (Pipeline.arrRef spec0 1) (ix2 r k) := by
  obtain ⟨⟨e0, e1⟩, ⟨f0, f1⟩, -⟩ := msg0_idx t
  exact ⟨fun k => congrArg (V c (Pipeline.arrRef spec0 0)) (Cert.RowBlock.emb_rowBlock _ _ _ e0 e1 p k r hr),
    fun k => congrArg (V c (Pipeline.arrRef spec0 1)) (Cert.RowBlock.emb_rowBlock _ _ _ f0 f1 p k r hr)⟩

/-- The other three blocks of point t are their whole arrays. -/
theorem msg0_wholes (c : Dev nD) (t : Fin cfg0.N) :
    (iblk0 V c 2 t : Vec Ideal S256x256 .f32) = V c (Pipeline.arrRef spec0 2)
    ∧ (iblk0 V c 3 t : Vec Ideal S256x256 .f32) = V c (Pipeline.arrRef spec0 3)
    ∧ (iblk0 V c 4 t : Vec Ideal S1x256 .f32) = V c (Pipeline.arrRef spec0 4) := by
  obtain ⟨-, -, -, z2, z3, z4⟩ := msg0_idx t
  exact ⟨(funext fun j => congrArg (V c (Pipeline.arrRef spec0 2))
      (funext fun a => Fin.ext (win0_2.rect_emb_val_of_index_zero t a (z2 a) j))),
    (funext fun j => congrArg (V c (Pipeline.arrRef spec0 3))
      (funext fun a => Fin.ext (win0_3.rect_emb_val_of_index_zero t a (z3 a) j))),
    (funext fun j => congrArg (V c (Pipeline.arrRef spec0 4))
      (funext fun a => Fin.ext (win0_4.rect_emb_val_of_index_zero t a (z4 a) j)))⟩

abbrev msgs0 (c : Dev nD) : Cert.Spec.Mat 200000 256 :=
  Cert.Spec.msgArr (V c (Pipeline.arrRef spec0 0)) (V c (Pipeline.arrRef spec0 1)) (V c (Pipeline.arrRef spec0 2))
    (V c (Pipeline.arrRef spec0 3)) (Cert.Spec.rowOf (V c (Pipeline.arrRef spec0 4)))

/-- The block of point t is block t of the messages of the entry arrays. -/
theorem msg0_flushed_eq (c : Dev nD) (t : Fin cfg0.N) :
    (dat0 (F := Ideal) V c).flushed 5 t = ((cfg0.win 5).blk t).view.read (Elt Ideal) (msgs0 V c) := by
  show (cfg0.win 5).cut (grid0.coords t) ((dat0 (F := Ideal) V c).after 5 t) = _
  rw [after0_5]
  unfold out0_5
  rw [View.canon_unit_zero Cert.RowBlock.off2_zero]
  simp only [View.ld_unit_zero (S := S5000x256) Cert.RowBlock.off2_zero, View.ld_unit_zero (S := S256x256) Cert.RowBlock.off2_zero,
    View.ld_unit_zero (S := S1x256) Cert.RowBlock.off2_zero]
  obtain ⟨-, -, ⟨o0, o1⟩, -⟩ := msg0_idx t
  funext j
  obtain ⟨p, q, rfl⟩ : ∃ (p : Fin 5000) (q : Fin 256), j = ix2 p q := ⟨j 0, j 1, eq_ix2 j⟩
  have ht : t.val < 40 := N_0 ▸ t.isLt
  have hr : t.val * 5000 + p.val < 200000 := by have := p.isLt; omega
  obtain ⟨h0, h1⟩ := msg0_rows V c t p ⟨t.val * 5000 + p.val, hr⟩ rfl
  obtain ⟨h2, h3, h4⟩ := msg0_wholes V c t
  exact (msg_pay_of_blocks _ _ _ _ _ (iblk0 V c 0 t) (iblk0 V c 1 t) (iblk0 V c 2 t) (iblk0 V c 3 t)
    (iblk0 V c 4 t) p q _ h0 h1 h2 h3 h4).trans
    (congrArg (msgs0 V c) (Cert.RowBlock.emb_rowBlock _ _ _ o0 o1 p q _ rfl).symm)

/-- Row r of the output array lies in the block of the point r / 5000. -/
theorem msg0_cover (i : S200000x256.Idx) :
    ∃ t : Fin cfg0.N, (cfg0.win 5).flush t = true ∧ i ∈ ((cfg0.win 5).blk t).view.set := by
  have hi0 : (i 0).val < 200000 := (i 0).isLt
  obtain ⟨t, ht⟩ : ∃ t : Fin cfg0.N, t.val = (i 0).val / 5000 :=
    ⟨⟨(i 0).val / 5000, by show _ < grid0.N; rw [N_0]; omega⟩, rfl⟩
  obtain ⟨-, -, ⟨o0, o1⟩, -⟩ := msg0_idx t
  refine ⟨t, flush0_5 t, ?_⟩
  show i ∈ ((View.whole (Pipeline.arrRef spec0 5)).slice (win0_5.rect t)).set
  rw [View.set_slice_whole]
  exact Cert.RowBlock.mem_rowBlock _ _ i (o0.trans ht) o1

theorem final0 (c : Dev nD) :
    (dat0 (F := Ideal) V c).arrAt 5 cfg0.N
      = Cert.Spec.msgArr (V c (Pipeline.arrRef spec0 0)) (V c (Pipeline.arrRef spec0 1)) (V c (Pipeline.arrRef spec0 2))
          (V c (Pipeline.arrRef spec0 3)) (Cert.Spec.rowOf (V c (Pipeline.arrRef spec0 4))) :=
  (dat0 (F := Ideal) V c).arrAt_eq_of_cover 5 (msgs0 V c) (fun t _ => msg0_flushed_eq V c t) msg0_cover

end Cert.KV

end
-- ==== Proof.RegMsg1.lean ====
import proofs.«102128_j53085795779156_1_alg».proof.Proof.RegMsg0

noncomputable section

open Idealize.ShloMosaic Idealize.ShloMosaic.TcCoe Idealize.ShloMosaic.ValueIdx Cert.KernelIdeal Cert.KernelIdeal.Gen

namespace Cert.KV

variable (V : (c : Dev nD) → (b : Ref sig .tc) → Buf (Elt Ideal) ((c : Thread nD τ).loc b))

theorem msg1_idx : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_5.index t (0 : Fin 2) = t.val ∧ win1_5.index t (1 : Fin 2) = 0)
    ∧ (∀ a : Fin 2, win1_2.index t a = 0) ∧ (∀ a : Fin 2, win1_3.index t a = 0) ∧ (∀ a : Fin 2, win1_4.index t a = 0) :=
  (by decide +kernel : ∀ t : Fin grid1.N, _)

/-- Row p of the first two blocks of point t is row r = 5000·t + p of their arrays. -/
theorem msg1_rows (c : Dev nD) (t : Fin cfg1.N) (p : Fin 5000) (r : Fin 200000) (hr : r.val = t.val * 5000 + p.val) :
    (∀ k : Fin 256, (iblk1 V c 0 t : Vec Ideal S5000x256 .f32) (ix2 p k) = V c (Pipeline.arrRef spec1 0) (ix2 r k))
    ∧ ∀ k : Fin 256, (iblk1 V c 1 t : Vec Ideal S5000x256 .f32) (ix2 p k) = V c (Pipeline.arrRef spec1 1) (ix2 r k) := by
  obtain ⟨⟨e0, e1⟩, ⟨f0, f1⟩, -⟩ := msg1_idx t
  exact ⟨fun k => congrArg (V c (Pipeline.arrRef spec1 0)) (Cert.RowBlock.emb_rowBlock _ _ _ e0 e1 p k r hr),
    fun k => congrArg (V c (Pipeline.arrRef spec1 1)) (Cert.RowBlock.emb_rowBlock _ _ _ f0 f1 p k r hr)⟩

/-- The other three blocks of point t are their whole arrays. -/
theorem msg1_wholes (c : Dev nD) (t : Fin cfg1.N) :
    (iblk1 V c 2 t : Vec Ideal S256x256 .f32) = V c (Pipeline.arrRef spec1 2)
    ∧ (iblk1 V c 3 t : Vec Ideal S256x256 .f32) = V c (Pipeline.arrRef spec1 3)
    ∧ (iblk1 V c 4 t : Vec Ideal S1x256 .f32) = V c (Pipeline.arrRef spec1 4) := by
  obtain ⟨-, -, -, z2, z3, z4⟩ := msg1_idx t
  exact ⟨(funext fun j => congrArg (V c (Pipeline.arrRef spec1 2))
      (funext fun a => Fin.ext (win1_2.rect_emb_val_of_index_zero t a (z2 a) j))),
    (funext fun j => congrArg (V c (Pipeline.arrRef spec1 3))
      (funext fun a => Fin.ext (win1_3.rect_emb_val_of_index_zero t a (z3 a) j))),
    (funext fun j => congrArg (V c (Pipeline.arrRef spec1 4))
      (funext fun a => Fin.ext (win1_4.rect_emb_val_of_index_zero t a (z4 a) j)))⟩

abbrev msgs1 (c : Dev nD) : Cert.Spec.Mat 200000 256 :=
  Cert.Spec.msgArr (V c (Pipeline.arrRef spec1 0)) (V c (Pipeline.arrRef spec1 1)) (V c (Pipeline.arrRef spec1 2))
    (V c (Pipeline.arrRef spec1 3)) (Cert.Spec.rowOf (V c (Pipeline.arrRef spec1 4)))

/-- The block of point t is block t of the messages of the entry arrays. -/
theorem msg1_flushed_eq (c : Dev nD) (t : Fin cfg1.N) :
    (dat1 (F := Ideal) V c).flushed 5 t = ((cfg1.win 5).blk t).view.read (Elt Ideal) (msgs1 V c) := by
  show (cfg1.win 5).cut (grid1.coords t) ((dat1 (F := Ideal) V c).after 5 t) = _
  rw [after1_5]
  unfold out1_5
  rw [View.canon_unit_zero Cert.RowBlock.off2_zero]
  simp only [View.ld_unit_zero (S := S5000x256) Cert.RowBlock.off2_zero, View.ld_unit_zero (S := S256x256) Cert.RowBlock.off2_zero,
    View.ld_unit_zero (S := S1x256) Cert.RowBlock.off2_zero]
  obtain ⟨-, -, ⟨o0, o1⟩, -⟩ := msg1_idx t
  funext j
  obtain ⟨p, q, rfl⟩ : ∃ (p : Fin 5000) (q : Fin 256), j = ix2 p q := ⟨j 0, j 1, eq_ix2 j⟩
  have ht : t.val < 40 := N_1 ▸ t.isLt
  have hr : t.val * 5000 + p.val < 200000 := by have := p.isLt; omega
  obtain ⟨h0, h1⟩ := msg1_rows V c t p ⟨t.val * 5000 + p.val, hr⟩ rfl
  obtain ⟨h2, h3, h4⟩ := msg1_wholes V c t
  exact (msg_pay_of_blocks _ _ _ _ _ (iblk1 V c 0 t) (iblk1 V c 1 t) (iblk1 V c 2 t) (iblk1 V c 3 t)
    (iblk1 V c 4 t) p q _ h0 h1 h2 h3 h4).trans
    (congrArg (msgs1 V c) (Cert.RowBlock.emb_rowBlock _ _ _ o0 o1 p q _ rfl).symm)

/-- Row r of the output array lies in the block of the point r / 5000. -/
theorem msg1_cover (i : S200000x256.Idx) :
    ∃ t : Fin cfg1.N, (cfg1.win 5).flush t = true ∧ i ∈ ((cfg1.win 5).blk t).view.set := by
  have hi0 : (i 0).val < 200000 := (i 0).isLt
  obtain ⟨t, ht⟩ : ∃ t : Fin cfg1.N, t.val = (i 0).val / 5000 :=
    ⟨⟨(i 0).val / 5000, by show _ < grid1.N; rw [N_1]; omega⟩, rfl⟩
  obtain ⟨-, -, ⟨o0, o1⟩, -⟩ := msg1_idx t
  refine ⟨t, flush1_5 t, ?_⟩
  show i ∈ ((View.whole (Pipeline.arrRef spec1 5)).slice (win1_5.rect t)).set
  rw [View.set_slice_whole]
  exact Cert.RowBlock.mem_rowBlock _ _ i (o0.trans ht) o1

theorem final1 (c : Dev nD) :
    (dat1 (F := Ideal) V c).arrAt 5 cfg1.N
      = Cert.Spec.msgArr (V c (Pipeline.arrRef spec1 0)) (V c (Pipeline.arrRef spec1 1)) (V c (Pipeline.arrRef spec1 2))
          (V c (Pipeline.arrRef spec1 3)) (Cert.Spec.rowOf (V c (Pipeline.arrRef spec1 4))) :=
  (dat1 (F := Ideal) V c).arrAt_eq_of_cover 5 (msgs1 V c) (fun t _ => msg1_flushed_eq V c t) msg1_cover

end Cert.KV

end
-- ==== Proof.KPre.lean ====
import proofs.«102128_j53085795779156_1_alg».proof.Proof.Gen.KernelIdeal.Frame
import proofs.«102128_j53085795779156_1_alg».proof.Proof.Model
import proofs.«102128_j53085795779156_1_alg».proof.Proof.KArgs
import proofs.«102128_j53085795779156_1_alg».proof.Proof.Carry
import proofs.«102128_j53085795779156_1_alg».proof.Proof.TakeRows
import proofs.«102128_j53085795779156_1_alg».proof.Proof.RegMsg0
import proofs.«102128_j53085795779156_1_alg».proof.Proof.RegMsg1

noncomputable section

namespace Cert.KV

open Idealize.ShloMosaic Idealize.ShloMosaic.ValueIdx Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

theorem k_v1 : W1 m ρ c (Proc.devRef .tc main_v1) = Cert.Model.rowE0 (argsK m c).upI := by
  dsimp only [W1, hostOps0]
  after_results_simp
  rfl

theorem k_v4 : W3 m ρ c (Proc.devRef .tc main_v4) = Cert.Model.rowE0 (argsK m c).dnI := by
  dsimp only [W3, hostOps0_2]
  after_results_simp
  rfl

theorem k_v7 : W5 m ρ c (Proc.devRef .tc main_v7) = Cert.Model.rowB0 (argsK m c).bI := by
  dsimp only [W5, hostOps0_4]
  after_results_simp
  rfl

/-- With every source row number in range the filled take of the rows of `x` is the plain gather. -/
theorem k_xU (hr : ∀ j, -((40000 : Nat) : Int) ≤ (Cert.Model.rowE0 (argsK m c).upI j).toInt ∧ (Cert.Model.rowE0 (argsK m c).upI j).toInt < (40000 : Nat)) :
    W2 m ρ c (Proc.devRef .tc main_v2) = Cert.Model.xU (argsK m c) := by
  show StableHlo.after hostOps0_1 (W1 m ρ c) (Proc.devRef .tc main_v2) = _
  generalize hW : W1 m ρ c = V1
  dsimp only [hostOps0_1]
  after_results_simp
  simp only [TRef.toBuf, TRef.ofBuf, cast_eq]
  rw [← hW, k_v1 m ρ c, carry_main_arg0_1 m ρ c]
  exact Cert.Take.select_take_mask (T := 40000) (by decide) 39999#32 (by decide) _ _ _ _ _ _ _ _ _ hr _ _

theorem k_xD (hr : ∀ j, -((40000 : Nat) : Int) ≤ (Cert.Model.rowE0 (argsK m c).dnI j).toInt ∧ (Cert.Model.rowE0 (argsK m c).dnI j).toInt < (40000 : Nat)) :
    W4 m ρ c (Proc.devRef .tc main_v5) = Cert.Model.xD (argsK m c) := by
  show StableHlo.after hostOps0_3 (W3 m ρ c) (Proc.devRef .tc main_v5) = _
  generalize hW : W3 m ρ c = V1
  dsimp only [hostOps0_3]
  after_results_simp
  simp only [TRef.toBuf, TRef.ofBuf, cast_eq]
  rw [← hW, k_v4 m ρ c, carry_main_arg0_3 m ρ c]
  exact Cert.Take.select_take_mask (T := 40000) (by decide) 39999#32 (by decide) _ _ _ _ _ _ _ _ _ hr _ _

theorem k_xB (hr : ∀ j, -((60000 : Nat) : Int) ≤ (Cert.Model.rowB0 (argsK m c).bI j).toInt ∧ (Cert.Model.rowB0 (argsK m c).bI j).toInt < (60000 : Nat)) :
    W6 m ρ c (Proc.devRef .tc main_v8) = Cert.Model.xB (argsK m c) := by
  show StableHlo.after hostOps0_5 (W5 m ρ c) (Proc.devRef .tc main_v8) = _
  generalize hW : W5 m ρ c = V1
  dsimp only [hostOps0_5]
  after_results_simp
  simp only [TRef.toBuf, TRef.ofBuf, cast_eq]
  rw [← hW, k_v7 m ρ c, carry_main_arg3_5 m ρ c]
  exact Cert.Take.select_take_mask (T := 60000) (by decide) 59999#32 (by decide) _ _ _ _ _ _ _ _ _ hr _ _

/-- The up-message layer's weight rows in two halves and its bias as a row. -/
theorem k_wU : W7 m ρ c (Proc.devRef .tc main_v9) = Cert.Model.top (argsK m c).Wmu ∧
    W7 m ρ c (Proc.devRef .tc main_v10) = Cert.Model.bot (argsK m c).Wmu ∧
    W7 m ρ c (Proc.devRef .tc main_v11) = shapeCast S1x256 (argsK m c).bmu shapeCasts_S256_S1x256 := by
  refine ⟨?_, ?_, ?_⟩ <;>
    (dsimp only [W7, hostOps0_6]; after_results_simp; rfl)

/-- The same for the down-message layer. -/
theorem k_wD : W9 m ρ c (Proc.devRef .tc main_v13) = Cert.Model.top (argsK m c).Wmd ∧
    W9 m ρ c (Proc.devRef .tc main_v14) = Cert.Model.bot (argsK m c).Wmd ∧
    W9 m ρ c (Proc.devRef .tc main_v15) = shapeCast S1x256 (argsK m c).bmd shapeCasts_S256_S1x256 := by
  refine ⟨?_, ?_, ?_⟩ <;>
    (dsimp only [W9, hostOps1]; after_results_simp)
  · rw [carry_main_arg6_8]; rfl
  · rw [carry_main_arg6_8]; rfl
  · rw [carry_main_arg7_8]; rfl

set_option maxHeartbeats 4000000 in
/-- The first message region, its five operand arrays read off the stretches before it. -/
theorem k_msgU (XU : FVec Ideal Cert.Model.SE .f32) (h : W2 m ρ c (Proc.devRef .tc main_v2) = XU) :
    W8 m ρ c (Proc.devRef .tc main_v12)
      = Cert.Spec.msgArr XU (argsK m c).upA (Cert.Model.top (argsK m c).Wmu) (Cert.Model.bot (argsK m c).Wmu) (argsK m c).bmu := by
  have e := (W8_arr m ρ c 5).trans (final0 (V7 m ρ) c)
  have a0 : V7 m ρ c (Pipeline.arrRef spec0 0) = XU := (carry_main_v2_7_2 m ρ c).trans h
  have a1 : V7 m ρ c (Pipeline.arrRef spec0 1) = (argsK m c).upA := carry_main_arg1_7 m ρ c
  have a2 : V7 m ρ c (Pipeline.arrRef spec0 2) = Cert.Model.top (argsK m c).Wmu := (k_wU m ρ c).1
  have a3 : V7 m ρ c (Pipeline.arrRef spec0 3) = Cert.Model.bot (argsK m c).Wmu := (k_wU m ρ c).2.1
  have a4 : V7 m ρ c (Pipeline.arrRef spec0 4) = shapeCast S1x256 (argsK m c).bmu shapeCasts_S256_S1x256 := (k_wU m ρ c).2.2
  rw [a0, a1, a2, a3, a4, rowOf_reshape] at e
  exact e

set_option maxHeartbeats 4000000 in
theorem k_msgD (XD : FVec Ideal Cert.Model.SE .f32) (h : W4 m ρ c (Proc.devRef .tc main_v5) = XD) :
    W10 m ρ c (Proc.devRef .tc main_v16)
      = Cert.Spec.msgArr XD (argsK m c).dnA (Cert.Model.top (argsK m c).Wmd) (Cert.Model.bot (argsK m c).Wmd) (argsK m c).bmd := by
  have e := (W10_arr m ρ c 5).trans (final1 (V9 m ρ) c)
  have a0 : V9 m ρ c (Pipeline.arrRef spec1 0) = XD := (carry_main_v5_9_4 m ρ c).trans h
  have a1 : V9 m ρ c (Pipeline.arrRef spec1 1) = (argsK m c).dnA := carry_main_arg2_9 m ρ c
  have a2 : V9 m ρ c (Pipeline.arrRef spec1 2) = Cert.Model.top (argsK m c).Wmd := (k_wD m ρ c).1
  have a3 : V9 m ρ c (Pipeline.arrRef spec1 3) = Cert.Model.bot (argsK m c).Wmd := (k_wD m ρ c).2.1
  have a4 : V9 m ρ c (Pipeline.arrRef spec1 4) = shapeCast S1x256 (argsK m c).bmd shapeCasts_S256_S1x256 := (k_wD m ρ c).2.2
  rw [a0, a1, a2, a3, a4, rowOf_reshape] at e
  exact e

end Cert.KV

end
-- ==== Proof.HostForms.lean ====
import proofs.«102128_j53085795779156_1_alg».proof.Proof.Spec
import proofs.«102128_j53085795779156_1_alg».proof.Proof.LibDense
import Idealize.ShloMosaic.Lib.IdealHost
import Idealize.ShloMosaic.Lib.KernelVsHost

noncomputable section

namespace Cert.HostForms

open Idealize.ShloMosaic Idealize.ShloMosaic.ValueIdx

/-- A [C] row laid out as [1, C] and then over R rows reads b(c) at (r, c): a unit axis reads its entry 0, and
    if C = 1 then c = 0. -/
theorem bc2_apply {R C : ℕ} {α : Type}
    (hb1 : (⟨1, ![C]⟩ : Shape).BroadcastsInDim ⟨2, ![1, C]⟩ (![1] : Fin 1 → Fin 2))
    (hb2 : (⟨2, ![1, C]⟩ : Shape).BroadcastsInDim ⟨2, ![R, C]⟩ (![0, 1] : Fin 2 → Fin 2))
    (b : (⟨1, ![C]⟩ : Shape).Idx → α) (r : Fin R) (c : Fin C) :
    broadcastInDim ⟨2, ![R, C]⟩ ![0, 1] hb2 (broadcastInDim ⟨2, ![1, C]⟩ ![1] hb1 b) (ix2 r c) = b (ix1 c) := by
  refine (broadcastInDim_oneRow_apply hb2 _ r c).trans
    (broadcastInDim_apply ![1] hb1 b _ (ix1 c) (Fin.forall_fin_one.2 ?_))
  have := c.isLt
  show c.val = if C = 1 then 0 else c.val
  split <;> omega

variable {R : ℕ} (d : DotDims ⟨2, ![R, 256]⟩ ⟨2, ![256, 256]⟩ ⟨2, ![R, 256]⟩)
  (h1 : d.lhsContracting = [1]) (h2 : d.rhsContracting = [0]) (h3 : d.lhsNonContracting = [0])
  (h4 : d.rhsNonContracting = [1]) (h5 : d.lhsBatch = []) (h6 : d.rhsBatch = [])
  (hb1 : (⟨1, ![256]⟩ : Shape).BroadcastsInDim ⟨2, ![1, 256]⟩ (![1] : Fin 1 → Fin 2))
  (hb2 : (⟨2, ![1, 256]⟩ : Shape).BroadcastsInDim ⟨2, ![R, 256]⟩ (![0, 1] : Fin 2 → Fin 2))
  (hb0 : (⟨0, ![]⟩ : Shape).BroadcastsInDim ⟨2, ![R, 256]⟩ (![] : Fin 0 → Fin 2))
include h1 h2 h3 h4 h5 h6

/-- The general product plus the bias laid out over the rows is the dense stage (X · W)(r, c) + b(c). -/
theorem host_lin_eq
    (X : FVec Ideal ⟨2, ![R, 256]⟩ .f32) (W : FVec Ideal ⟨2, ![256, 256]⟩ .f32) (b : FVec Ideal ⟨1, ![256]⟩ .f32) :
    addf (Host.dotGeneral d none X W)
        (broadcastInDim ⟨2, ![R, 256]⟩ ![0, 1] hb2 (broadcastInDim ⟨2, ![1, 256]⟩ ![1] hb1 b))
      = Cert.Spec.linArr X W b := by
  funext i
  obtain ⟨r, c, rfl⟩ : ∃ (r : Fin R) (c : Fin 256), i = ix2 r c := ⟨i 0, i 1, eq_ix2 i⟩
  rw [addf_apply, Cert.Dense.dotGeneral_plain_apply d h1 h2 h3 h4 h5 h6, bc2_apply hb1 hb2 b]
  rfl

/-- Two products and the laid-out bias, under the maximum with a laid-out zero, are the message
    max((X · Wx)(r, c) + (A · Wa)(r, c) + b(c), 0). -/
theorem host_msg_eq
    (X A : FVec Ideal ⟨2, ![R, 256]⟩ .f32) (Wx Wa : FVec Ideal ⟨2, ![256, 256]⟩ .f32)
    (b : FVec Ideal ⟨1, ![256]⟩ .f32) :
    maximumf
        (addf (addf (Host.dotGeneral d none X Wx) (Host.dotGeneral d none A Wa))
          (broadcastInDim ⟨2, ![R, 256]⟩ ![0, 1] hb2 (broadcastInDim ⟨2, ![1, 256]⟩ ![1] hb1 b)))
        (broadcastInDim ⟨2, ![R, 256]⟩ ![] hb0 (constant (F := Ideal) ⟨0, ![]⟩ .f32 0x00000000#32))
      = Cert.Spec.msgArr X A Wx Wa b := by
  funext i
  obtain ⟨r, c, rfl⟩ : ∃ (r : Fin R) (c : Fin 256), i = ix2 r c := ⟨i 0, i 1, eq_ix2 i⟩
  rw [Cert.Dense.host_relu_apply hb0, addf_apply, addf_apply,
    Cert.Dense.dotGeneral_plain_apply d h1 h2 h3 h4 h5 h6, Cert.Dense.dotGeneral_plain_apply d h1 h2 h3 h4 h5 h6,
    bc2_apply hb1 hb2 b]
  rfl

omit h1 h2 h3 h4 h5 h6 in
/-- With every row laid out over the R rows and ε one scalar laid out over the columns, the array is
    max(g(k) · (P(r, k) − μ(k)) · rsqrt(σ²(k) + ε) + β(k), 0). -/
theorem host_bn_eq
    (hbe : (⟨0, ![]⟩ : Shape).BroadcastsInDim ⟨1, ![256]⟩ (![] : Fin 0 → Fin 1))
    (P : FVec Ideal ⟨2, ![R, 256]⟩ .f32) (mean var g beta : FVec Ideal ⟨1, ![256]⟩ .f32) :
    maximumf
        (addf
          (mulf
            (mulf (broadcastInDim ⟨2, ![R, 256]⟩ ![0, 1] hb2 (broadcastInDim ⟨2, ![1, 256]⟩ ![1] hb1 g))
              (subf P (broadcastInDim ⟨2, ![R, 256]⟩ ![0, 1] hb2 (broadcastInDim ⟨2, ![1, 256]⟩ ![1] hb1 mean))))
            (broadcastInDim ⟨2, ![R, 256]⟩ ![0, 1] hb2 (broadcastInDim ⟨2, ![1, 256]⟩ ![1] hb1
              (Host.rsqrt (addf var
                (broadcastInDim ⟨1, ![256]⟩ ![] hbe (constant (F := Ideal) ⟨0, ![]⟩ .f32 0x3727C5AC#32)))))))
          (broadcastInDim ⟨2, ![R, 256]⟩ ![0, 1] hb2 (broadcastInDim ⟨2, ![1, 256]⟩ ![1] hb1 beta)))
        (broadcastInDim ⟨2, ![R, 256]⟩ ![] hb0 (constant (F := Ideal) ⟨0, ![]⟩ .f32 0x00000000#32))
      = Cert.Spec.bnArr P mean var g beta := by
  funext i
  obtain ⟨r, k, rfl⟩ : ∃ (r : Fin R) (k : Fin 256), i = ix2 r k := ⟨i 0, i 1, eq_ix2 i⟩
  rw [Cert.Dense.host_relu_apply hb0, addf_apply, mulf_apply, mulf_apply, subf_apply,
    bc2_apply hb1 hb2 g, bc2_apply hb1 hb2 mean, bc2_apply hb1 hb2 _ r, bc2_apply hb1 hb2 beta]
  exact congrArg (fun e => max (_ * Ideal.rsqrt (var (ix1 k) + e) + _) 0) (broadcastInDim_scalar_apply hbe _ _)

end Cert.HostForms

end
-- ==== Proof.Combine.lean ====
import Mathlib.Algebra.BigOperators.Fin
import Idealize.ShloMosaic.Lib.ValueLayout
import Idealize.ShloMosaic.Lib.IdealHost
import proofs.«102128_j53085795779156_1_alg».proof.Proof.HostForms

noncomputable section

namespace Cert.Combine

open Idealize.ShloMosaic Idealize.ShloMosaic.ValueIdx Cert.Spec Cert.HostForms

section Dense
variable {R : ℕ}
  (hs0 : (⟨2, ![768, 256]⟩ : Shape).Slices ![0, 0] ⟨2, ![256, 256]⟩)
  (hs1 : (⟨2, ![768, 256]⟩ : Shape).Slices ![256, 0] ⟨2, ![256, 256]⟩)
  (hs2 : (⟨2, ![768, 256]⟩ : Shape).Slices ![512, 0] ⟨2, ![256, 256]⟩)
  (hb1 : (⟨1, ![256]⟩ : Shape).BroadcastsInDim ⟨2, ![1, 256]⟩ (![1] : Fin 1 → Fin 2))
  (hb2 : (⟨2, ![1, 256]⟩ : Shape).BroadcastsInDim ⟨2, ![R, 256]⟩ (![0, 1] : Fin 2 → Fin 2))

/-- Block n of the 768 joined columns, the columns e(j) = 256·n + j, reads piece n against the weight's rows
    from 256·n. -/
theorem dot_block (x : Fin 3 → Mat R 256)
    (hcat : Shape.Concatenates [(⟨2, ![R, 256]⟩ : Shape), ⟨2, ![R, 256]⟩, ⟨2, ![R, 256]⟩] ⟨2, ![R, 768]⟩ 1)
    (Wc : Mat 768 256) (r : Fin R) (c : Fin 256) (n : Fin 3) (o : ℕ)
    (hs : (⟨2, ![768, 256]⟩ : Shape).Slices ![o, 0] ⟨2, ![256, 256]⟩)
    (e : Fin 256 → Fin 768) (he : ∀ j, (e j).val = o + j.val) (ho : o = 256 * n.val) :
    ∑ j, concatenate ⟨2, ![R, 768]⟩ 1 [⟨⟨2, ![R, 256]⟩, x 0⟩, ⟨⟨2, ![R, 256]⟩, x 1⟩, ⟨⟨2, ![R, 256]⟩, x 2⟩] hcat
          (ix2 r (e j)) * Wc (ix2 (e j) c)
      = dot (x n) (extractStridedSlice ⟨2, ![256, 256]⟩ ![o, 0] Wc hs) r c :=
  Finset.sum_congr rfl fun j _ => by
    have := j.isLt
    have := he j
    refine congrArg₂ (· * ·) (concatenate_ofFn_apply (t := ⟨2, ![R, 768]⟩) 1 x hcat rfl 256 rfl _ n ?_
      (ix2 r j) ?_ fun a ha => ?_) (slice2_axis0_apply o Wc hs j c _ (he j)).symm
    · show (e j).val / 256 = n.val
      omega
    · show j.val = (e j).val % 256
      omega
    · match a with
      | ⟨0, _⟩ => rfl
      | ⟨1, _⟩ => exact absurd rfl ha

/-- The join of three arrays times the whole weight, plus the bias: a sum over 768 = 256 + 256 + 256 columns
    taken block by block. -/
theorem ref_combine_apply
    (d768 : DotDims ⟨2, ![R, 768]⟩ ⟨2, ![768, 256]⟩ ⟨2, ![R, 256]⟩)
    (h1 : d768.lhsContracting = [1]) (h2 : d768.rhsContracting = [0]) (h3 : d768.lhsNonContracting = [0])
    (h4 : d768.rhsNonContracting = [1]) (h5 : d768.lhsBatch = []) (h6 : d768.rhsBatch = [])
    (hcat : Shape.Concatenates [(⟨2, ![R, 256]⟩ : Shape), ⟨2, ![R, 256]⟩, ⟨2, ![R, 256]⟩] ⟨2, ![R, 768]⟩ 1)
    (hu hd hb : Mat R 256) (Wc : Mat 768 256) (bc : Row 256) (r : Fin R) (c : Fin 256) :
    addf (Host.dotGeneral d768 none
          (concatenate ⟨2, ![R, 768]⟩ 1 [⟨⟨2, ![R, 256]⟩, hu⟩, ⟨⟨2, ![R, 256]⟩, hd⟩, ⟨⟨2, ![R, 256]⟩, hb⟩] hcat) Wc)
        (broadcastInDim ⟨2, ![R, 256]⟩ ![0, 1] hb2 (broadcastInDim ⟨2, ![1, 256]⟩ ![1] hb1 bc)) (ix2 r c)
      = ((dot hu (extractStridedSlice ⟨2, ![256, 256]⟩ ![0, 0] Wc hs0) r c
            + dot hd (extractStridedSlice ⟨2, ![256, 256]⟩ ![256, 0] Wc hs1) r c)
          + dot hb (extractStridedSlice ⟨2, ![256, 256]⟩ ![512, 0] Wc hs2) r c)
        + bc (ix1 c) := by
  rw [addf_apply, Cert.Dense.dotGeneral_plain_apply d768 h1 h2 h3 h4 h5 h6, bc2_apply hb1 hb2 bc r c]
  exact congrArg (· + _) ((Fin.sum_univ_add (a := 256 + 256) (b := 256) _).trans (congrArg₂ (· + ·)
    ((Fin.sum_univ_add _).trans (congrArg₂ (· + ·)
      (dot_block ![hu, hd, hb] hcat Wc r c 0 0 hs0 _ (fun _ => (Nat.zero_add _).symm) rfl)
      (dot_block ![hu, hd, hb] hcat Wc r c 1 256 hs1 _ (fun _ => rfl) rfl)))
    (dot_block ![hu, hd, hb] hcat Wc r c 2 512 hs2 _ (fun _ => rfl) rfl)))

/-- Three dense stages after a normalisation, each under a zero bias row, added up, plus the bias:  x + 0 = x . -/
theorem ker_combine_apply
    (Pu Pd Pb : Mat R 256) (mu vu gu bu md vd gd bd mb vb gb bb : Row 256) (Wc : Mat 768 256)
    (zrow : Mat 1 256) (hz : ∀ c : Fin 256, zrow (ix2 (0 : Fin 1) c) = 0)
    (bc : Row 256) (r : Fin R) (c : Fin 256) :
    addf (addf (addf
            (bnLinArr Pu mu vu gu bu (extractStridedSlice ⟨2, ![256, 256]⟩ ![0, 0] Wc hs0) (rowOf zrow))
            (bnLinArr Pd md vd gd bd (extractStridedSlice ⟨2, ![256, 256]⟩ ![256, 0] Wc hs1) (rowOf zrow)))
            (bnLinArr Pb mb vb gb bb (extractStridedSlice ⟨2, ![256, 256]⟩ ![512, 0] Wc hs2) (rowOf zrow)))
        (broadcastInDim ⟨2, ![R, 256]⟩ ![0, 1] hb2 (broadcastInDim ⟨2, ![1, 256]⟩ ![1] hb1 bc)) (ix2 r c)
      = ((dot (bnArr Pu mu vu gu bu) (extractStridedSlice ⟨2, ![256, 256]⟩ ![0, 0] Wc hs0) r c
            + dot (bnArr Pd md vd gd bd) (extractStridedSlice ⟨2, ![256, 256]⟩ ![256, 0] Wc hs1) r c)
          + dot (bnArr Pb mb vb gb bb) (extractStridedSlice ⟨2, ![256, 256]⟩ ![512, 0] Wc hs2) r c)
        + bc (ix1 c) := by
  have e (P : Mat R 256) (m v g b : Row 256) (W : Mat 256 256) :
      bnLinArr P m v g b W (rowOf zrow) (ix2 r c) = dot (bnArr P m v g b) W r c :=
    (congrArg (dot _ W r c + ·) (hz c)).trans (add_zero _)
  rw [addf_apply, addf_apply, addf_apply, bc2_apply hb1 hb2 bc r c, e, e, e]

end Dense

/-- Both forms of  agg + (1 + ε) · x  lay the one number 1 + ε(0) out over the array. -/
theorem scale_eq {R : ℕ}
    (hsc : (⟨1, ![1]⟩ : Shape).ShapeCasts ⟨0, ![]⟩)
    (hb0 : (⟨0, ![]⟩ : Shape).BroadcastsInDim ⟨2, ![R, 256]⟩ (![] : Fin 0 → Fin 2))
    (hbs : (⟨0, ![]⟩ : Shape).BroadcastsInDim ⟨1, ![1]⟩ (![] : Fin 0 → Fin 1))
    (hb1 : (⟨1, ![1]⟩ : Shape).BroadcastsInDim ⟨2, ![1, 1]⟩ (![1] : Fin 1 → Fin 2))
    (hb11 : (⟨2, ![1, 1]⟩ : Shape).BroadcastsInDim ⟨2, ![R, 256]⟩ (![0, 1] : Fin 2 → Fin 2))
    (eps : Row 1) (agg x : Mat R 256) :
    addf agg (mulf (broadcastInDim ⟨2, ![R, 256]⟩ ![] hb0
        (addf (constant (F := Ideal) ⟨0, ![]⟩ .f32 0x3F800000#32) (shapeCast ⟨0, ![]⟩ eps hsc))) x)
      = addf agg (mulf (broadcastInDim ⟨2, ![R, 256]⟩ ![0, 1] hb11 (broadcastInDim ⟨2, ![1, 1]⟩ ![1] hb1
          (addf (broadcastInDim ⟨1, ![1]⟩ ![] hbs (constant (F := Ideal) ⟨0, ![]⟩ .f32 0x3F800000#32)) eps))) x) := by
  funext i
  refine congrArg (agg i + · * x i) ?_
  rw [broadcastInDim_scalar_apply hb0,
    broadcastInDim_apply ![0, 1] hb11 _ i (ix2 (0 : Fin 1) (0 : Fin 1))
      (Fin.forall_fin_two.2 ⟨(if_pos rfl).symm, (if_pos rfl).symm⟩),
    broadcastInDim_apply ![1] hb1 _ _ (ix1 (0 : Fin 1)) (Fin.forall_fin_one.2 (if_pos rfl).symm),
    addf_apply, addf_apply, broadcastInDim_scalar_apply hbs, shapeCast_dropUnit_apply ![] eps hsc ix0]
  exact congrArg (_ + eps ·) (funext (Fin.forall_fin_one.2 rfl))

end Cert.Combine

end
-- ==== Proof.KMid.lean ====
import proofs.«102128_j53085795779156_1_alg».proof.Proof.Gen.KernelIdeal.Frame
import proofs.«102128_j53085795779156_1_alg».proof.Proof.Model
import proofs.«102128_j53085795779156_1_alg».proof.Proof.KArgs
import proofs.«102128_j53085795779156_1_alg».proof.Proof.Carry
import proofs.«102128_j53085795779156_1_alg».proof.Proof.Combine

noncomputable section

namespace Cert.KV

open Idealize.ShloMosaic Idealize.ShloMosaic.ValueIdx Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

set_option maxHeartbeats 4000000 in
/-- The stretch before the branches: three sums into target rows plus (1 + ε)·x, three weight blocks, one bias row. -/
theorem k_mid (MU MD : FVec Ideal Cert.Model.SE .f32) (XB : FVec Ideal Cert.Model.SB .f32)
    (hU : W10 m ρ c (Proc.devRef .tc main_v12) = MU) (hD : W10 m ρ c (Proc.devRef .tc main_v16) = MD)
    (hB : W10 m ρ c (Proc.devRef .tc main_v8) = XB) :
    W11 m ρ c (Proc.devRef .tc main_v38)
        = Cert.Model.scaleAdd (Cert.Model.segE (Cert.Model.rowE1 (argsK m c).upI) MU) (argsK m c).eps1 (argsK m c).x ∧
    W11 m ρ c (Proc.devRef .tc main_v42)
        = Cert.Model.scaleAdd (Cert.Model.segE (Cert.Model.rowE1 (argsK m c).dnI) MD) (argsK m c).eps2 (argsK m c).x ∧
    W11 m ρ c (Proc.devRef .tc main_v46)
        = Cert.Model.scaleAdd (Cert.Model.segB (Cert.Model.rowB1 (argsK m c).bI) XB) (argsK m c).eps3 (argsK m c).x ∧
    W11 m ρ c (Proc.devRef .tc main_v47) = Cert.Model.third0 (argsK m c).Wc ∧
    W11 m ρ c (Proc.devRef .tc main_v48) = Cert.Model.third1 (argsK m c).Wc ∧
    W11 m ρ c (Proc.devRef .tc main_v49) = Cert.Model.third2 (argsK m c).Wc ∧
    W11 m ρ c (Proc.devRef .tc main_v50) = shapeCast S1x256 (argsK m c).b1u shapeCasts_S256_S1x256 := by
  refine ⟨?_, ?_, ?_, ?_, ?_, ?_, ?_⟩ <;>
    (dsimp only [W11, hostOps2]; after_results_simp)
  · rw [hU, carry_main_arg39_10, carry_main_arg36_10, carry_main_arg0_10]; exact Cert.Combine.scale_eq _ _ _ _ _ _ _ _
  · rw [hD, carry_main_arg40_10, carry_main_arg37_10, carry_main_arg0_10]; exact Cert.Combine.scale_eq _ _ _ _ _ _ _ _
  · rw [hB, carry_main_arg41_10, carry_main_arg38_10, carry_main_arg0_10]; exact Cert.Combine.scale_eq _ _ _ _ _ _ _ _
  · rw [carry_main_arg32_10]; rfl
  · rw [carry_main_arg32_10]; rfl
  · rw [carry_main_arg32_10]; rfl
  · rw [carry_main_arg9_10]; rfl

end Cert.KV

end
-- ==== Proof.KBranch.lean ====
import proofs.«102128_j53085795779156_1_alg».proof.Proof.Spec
import proofs.«102128_j53085795779156_1_alg».proof.Proof.Model
import proofs.«102128_j53085795779156_1_alg».proof.Proof.KArgs

noncomputable section

namespace Cert.KV

open Idealize.ShloMosaic Idealize.ShloMosaic.ValueIdx Idealize.ShloMosaic.TcCoe Idealize.SL.Sem Cert.KernelIdeal Cert.KernelIdeal.Gen

theorem br_meanK_eq (P : FVec Ideal S40000x256 .f32) :
    Host.divf (Host.reduceAdd P (constant (F := Ideal) S_ .f32 0x00000000#32) reducesTo_S40000x256_S256_d0 h_S_)
        (broadcastInDim S256 ![] bcast_S_S256 (constant (F := Ideal) S_ .f32 0x471C4000#32))
      = Cert.Model.meanH P := rfl

theorem br_varK_eq (P : FVec Ideal S40000x256 .f32) :
    Host.divf (Host.reduceAdd
          (mulf
            (subf P (broadcastInDim S40000x256 ![0, 1] bcast_S1x256_S40000x256_0_1
              (broadcastInDim S1x256 ![1] bcast_S256_S1x256_1 (Cert.Model.meanH P))))
            (subf P (broadcastInDim S40000x256 ![0, 1] bcast_S1x256_S40000x256_0_1
              (broadcastInDim S1x256 ![1] bcast_S256_S1x256_1 (Cert.Model.meanH P)))))
          (constant (F := Ideal) S_ .f32 0x00000000#32) reducesTo_S40000x256_S256_d0 h_S_)
        (broadcastInDim S256 ![] bcast_S_S256 (constant (F := Ideal) S_ .f32 0x471C4000#32))
      = Cert.Model.varH P := rfl

-- Three stages chained: each output is its stage's function of the arrays the stage finds, and each array found is known.
theorem branch {Y1 Y2 Y3 X P2 P3 H0 : Cert.Spec.Mat 40000 256} {W1 W2 W3 w1 w2 Wt : Cert.Spec.Mat 256 256}
    {B1 M2 V2 G2 C2 B2 M3 V3 G3 C3 Z3 : Cert.Spec.Mat 1 256} {b1 g1 c1 b2 g2 c2 : Cert.Spec.Row 256}
    (f1 : Y1 = Cert.Spec.linArr X W1 (Cert.Spec.rowOf B1)) (x : X = H0) (hw1 : W1 = w1) (hb1 : B1 = shapeCast S1x256 b1 shapeCasts_S256_S1x256)
    (f2 : Y2 = Cert.Spec.bnLinArr P2 (Cert.Spec.rowOf M2) (Cert.Spec.rowOf V2) (Cert.Spec.rowOf G2) (Cert.Spec.rowOf C2) W2
      (Cert.Spec.rowOf B2)) (p2 : P2 = Y1)
    (m2 : ∀ L, Y1 = L → M2 = shapeCast S1x256 (Cert.Model.meanH L) shapeCasts_S256_S1x256)
    (v2 : ∀ L, Y1 = L → V2 = shapeCast S1x256 (Cert.Model.varH L) shapeCasts_S256_S1x256)
    (hg2 : G2 = shapeCast S1x256 g1 shapeCasts_S256_S1x256) (hc2 : C2 = shapeCast S1x256 c1 shapeCasts_S256_S1x256) (hw2 : W2 = w2) (hb2 : B2 = shapeCast S1x256 b2 shapeCasts_S256_S1x256)
    (f3 : Y3 = Cert.Spec.bnLinArr P3 (Cert.Spec.rowOf M3) (Cert.Spec.rowOf V3) (Cert.Spec.rowOf G3) (Cert.Spec.rowOf C3) W3
      (Cert.Spec.rowOf Z3)) (p3 : P3 = Y2)
    (m3 : ∀ L, Y2 = L → M3 = shapeCast S1x256 (Cert.Model.meanH L) shapeCasts_S256_S1x256)
    (v3 : ∀ L, Y2 = L → V3 = shapeCast S1x256 (Cert.Model.varH L) shapeCasts_S256_S1x256)
    (hg3 : G3 = shapeCast S1x256 g2 shapeCasts_S256_S1x256) (hc3 : C3 = shapeCast S1x256 c2 shapeCasts_S256_S1x256) (hw3 : W3 = Wt) (hz : Z3 = zrowK) :
    Y3 = Cert.Spec.bnLinArr (Cert.Model.layer2 (Cert.Spec.linArr H0 w1 b1) g1 c1 w2 b2)
      (Cert.Model.meanH (Cert.Model.layer2 (Cert.Spec.linArr H0 w1 b1) g1 c1 w2 b2))
      (Cert.Model.varH (Cert.Model.layer2 (Cert.Spec.linArr H0 w1 b1) g1 c1 w2 b2)) g2 c2 Wt (Cert.Spec.rowOf zrowK) := by
  subst x hw1 hb1 p2 hg2 hc2 hw2 hb2 p3 hg3 hc3 hw3 hz
  rw [rowOf_reshape] at f1
  rw [m2 _ f1, v2 _ f1, f1] at f2
  simp only [rowOf_reshape] at f2
  rw [m3 _ f2, v3 _ f2, f2] at f3
  simp only [rowOf_reshape] at f3
  exact f3

end Cert.KV

end
-- ==== Proof.RegLin2.lean ====
import proofs.«102128_j53085795779156_1_alg».proof.Proof.Gen.KernelIdeal.Frame
import proofs.«102128_j53085795779156_1_alg».proof.Proof.Spec
import proofs.«102128_j53085795779156_1_alg».proof.Proof.LibDense
import proofs.«102128_j53085795779156_1_alg».proof.Proof.LibRowBlock

noncomputable section

open Idealize.ShloMosaic Idealize.ShloMosaic.TcCoe Idealize.ShloMosaic.ValueIdx Cert.KernelIdeal Cert.KernelIdeal.Gen

namespace Cert.KV

variable (V : (c : Dev nD) → (b : Ref sig .tc) → Buf (Elt Ideal) ((c : Thread nD τ).loc b))

/-- The payload at (p, q) reads only row p of its first block: on rows of X, all of W and all of B it is the dense stage at (r, q). -/
theorem lin2_pay_of_blocks (X : Cert.Spec.Mat 40000 256) (W : Cert.Spec.Mat 256 256) (B : Cert.Spec.Mat 1 256)
    (x0 : Vec Ideal S5000x256 .f32) (x1 : Vec Ideal S256x256 .f32) (x2 : Vec Ideal S1x256 .f32)
    (p : Fin 5000) (q : Fin 256) (r : Fin 40000)
    (h0 : ∀ k : Fin 256, x0 (ix2 p k) = X (ix2 r k)) (h1 : x1 = W) (h2 : x2 = B) :
    k2_pay1 (F := Ideal) x0 x1 x2 (ix2 p q) = Cert.Spec.linArr X W (Cert.Spec.rowOf B) (ix2 r q) := by
  subst h1 h2
  unfold k2_pay1
  rw [addf_apply, Cert.Dense.matmul_zero_plain_apply _ rfl rfl rfl rfl rfl rfl, broadcastTo_1b_ab_apply]
  simp only [truncf_apply, shapeCast_self, h0]
  rfl

theorem lin2_idx : ∀ t : Fin cfg2.N,
    (win2_0.index t (0 : Fin 2) = t.val ∧ win2_0.index t (1 : Fin 2) = 0)
    ∧ (win2_3.index t (0 : Fin 2) = t.val ∧ win2_3.index t (1 : Fin 2) = 0)
    ∧ (∀ a : Fin 2, win2_1.index t a = 0) ∧ (∀ a : Fin 2, win2_2.index t a = 0) :=
  (by decide +kernel : ∀ t : Fin grid2.N, _)

/-- Row p of the first block of point t is row r = 5000·t + p of its array; the other two blocks are their whole arrays. -/
theorem lin2_blk (c : Dev nD) (t : Fin cfg2.N) (p : Fin 5000) (r : Fin 40000) (hr : r.val = t.val * 5000 + p.val) :
    (∀ k : Fin 256, (iblk2 V c 0 t : Vec Ideal S5000x256 .f32) (ix2 p k) = V c (Pipeline.arrRef spec2 0) (ix2 r k))
    ∧ (iblk2 V c 1 t : Vec Ideal S256x256 .f32) = V c (Pipeline.arrRef spec2 1)
    ∧ (iblk2 V c 2 t : Vec Ideal S1x256 .f32) = V c (Pipeline.arrRef spec2 2) := by
  obtain ⟨⟨e0, e1⟩, -, z1, z2⟩ := lin2_idx t
  exact ⟨fun k => congrArg (V c (Pipeline.arrRef spec2 0)) (Cert.RowBlock.emb_rowBlock _ _ _ e0 e1 p k r hr),
    (funext fun j => congrArg (V c (Pipeline.arrRef spec2 1))
      (funext fun a => Fin.ext (win2_1.rect_emb_val_of_index_zero t a (z1 a) j))),
    (funext fun j => congrArg (V c (Pipeline.arrRef spec2 2))
      (funext fun a => Fin.ext (win2_2.rect_emb_val_of_index_zero t a (z2 a) j)))⟩

abbrev lins2 (c : Dev nD) : Cert.Spec.Mat 40000 256 :=
  Cert.Spec.linArr (V c (Pipeline.arrRef spec2 0)) (V c (Pipeline.arrRef spec2 1))
    (Cert.Spec.rowOf (V c (Pipeline.arrRef spec2 2)))

/-- The block of point t is block t of the dense stage of the entry arrays. -/
theorem lin2_flushed_eq (c : Dev nD) (t : Fin cfg2.N) :
    (dat2 (F := Ideal) V c).flushed 3 t = ((cfg2.win 3).blk t).view.read (Elt Ideal) (lins2 V c) := by
  show (cfg2.win 3).cut (grid2.coords t) ((dat2 (F := Ideal) V c).after 3 t) = _
  rw [after2_3]
  unfold out2_3
  rw [View.canon_unit_zero Cert.RowBlock.off2_zero]
  simp only [View.ld_unit_zero (S := S5000x256) Cert.RowBlock.off2_zero, View.ld_unit_zero (S := S256x256) Cert.RowBlock.off2_zero,
    View.ld_unit_zero (S := S1x256) Cert.RowBlock.off2_zero]
  obtain ⟨-, ⟨o0, o1⟩, -⟩ := lin2_idx t
  funext j
  obtain ⟨p, q, rfl⟩ : ∃ (p : Fin 5000) (q : Fin 256), j = ix2 p q := ⟨j 0, j 1, eq_ix2 j⟩
  have ht : t.val < 8 := N_2 ▸ t.isLt
  have hr : t.val * 5000 + p.val < 40000 := by have := p.isLt; omega
  obtain ⟨h0, h1, h2⟩ := lin2_blk V c t p ⟨t.val * 5000 + p.val, hr⟩ rfl
  exact (lin2_pay_of_blocks _ _ _ (iblk2 V c 0 t) (iblk2 V c 1 t) (iblk2 V c 2 t) p q _ h0 h1 h2).trans
    (congrArg (lins2 V c) (Cert.RowBlock.emb_rowBlock _ _ _ o0 o1 p q _ rfl).symm)

/-- Row r of the output array lies in the block of the point r / 5000. -/
theorem lin2_cover (i : S40000x256.Idx) :
    ∃ t : Fin cfg2.N, (cfg2.win 3).flush t = true ∧ i ∈ ((cfg2.win 3).blk t).view.set := by
  have hi0 : (i 0).val < 40000 := (i 0).isLt
  obtain ⟨t, ht⟩ : ∃ t : Fin cfg2.N, t.val = (i 0).val / 5000 :=
    ⟨⟨(i 0).val / 5000, by show _ < grid2.N; rw [N_2]; omega⟩, rfl⟩
  obtain ⟨-, ⟨o0, o1⟩, -⟩ := lin2_idx t
  refine ⟨t, flush2_3 t, ?_⟩
  show i ∈ ((View.whole main_v51).slice (win2_3.rect t)).set
  rw [View.set_slice_whole]
  exact Cert.RowBlock.mem_rowBlock _ _ i (o0.trans ht) o1

theorem final2 (c : Dev nD) :
    (dat2 (F := Ideal) V c).arrAt 3 cfg2.N
      = Cert.Spec.linArr (V c (Pipeline.arrRef spec2 0)) (V c (Pipeline.arrRef spec2 1))
          (Cert.Spec.rowOf (V c (Pipeline.arrRef spec2 2))) :=
  (dat2 (F := Ideal) V c).arrAt_eq_of_cover 3 (lins2 V c) (fun t _ => lin2_flushed_eq V c t) lin2_cover

end Cert.KV

end
-- ==== Proof.RegBn.lean ====
import proofs.«102128_j53085795779156_1_alg».proof.Proof.Gen.KernelIdeal.Skeleton
import proofs.«102128_j53085795779156_1_alg».proof.Proof.Spec
import proofs.«102128_j53085795779156_1_alg».proof.Proof.LibDense
import Idealize.ShloMosaic.Lib.ValueIdx
import Idealize.ShloMosaic.Lib.ValueLayout
import Idealize.ShloMosaic.Lib.Pipeline.Value

noncomputable section

open scoped BigOperators

namespace Cert.KV

open Idealize.ShloMosaic Idealize.ShloMosaic.ValueIdx Idealize.ShloMosaic.TcCoe Cert.KernelIdeal Cert.KernelIdeal.Gen Cert.Spec

/-- A stretched row reads its one row, narrowing is the identity on the extended reals, a product into zeros is the sum over k. -/
theorem bn_pay_eq (x0 : Vec Ideal S5000x256 .f32) (x1 x2 x3 x4 : Vec Ideal S1x256 .f32) (x5 : Vec Ideal S256x256 .f32)
    (x6 : Vec Ideal S1x256 .f32) :
    k3_pay1 (F := Ideal) x0 x1 x2 x3 x4 x5 x6 = bnLinArr x0 (rowOf x1) (rowOf x2) (rowOf x3) (rowOf x4) x5 (rowOf x6) := by
  refine funext fun j => ?_
  obtain ⟨p, q, rfl⟩ : ∃ (p : Fin 5000) (q : Fin 256), j = ix2 p q := ⟨j 0, j 1, eq_ix2 j⟩
  unfold k3_pay1
  simp only [shapeCast_self]
  refine (addf_apply _ _ (ix2 p q)).trans (congrArg₂ (· + ·) ?_ (broadcastTo_1b_ab_apply x6 broadcasts_S1x256_S5000x256 p q))
  refine (Cert.Dense.matmul_zero_plain_apply dot_S5000x256_S256x256_S5000x256_1_0_0_1_n_n rfl rfl rfl rfl rfl rfl none _ _ p q).trans
    (Finset.sum_congr rfl fun k _ => congrArg (· * _) ?_)
  refine (truncf_apply (ψ := .bf16) _ bitsLt_bf16_f32 (ix2 p k)).trans ?_
  rw [maximumf_apply, broadcast_apply, addf_apply, mulf_apply, mulf_apply, subf_apply,
    broadcastTo_1b_ab_apply, broadcastTo_1b_ab_apply, broadcastTo_1b_ab_apply, broadcastTo_1b_ab_apply]
  show max _ (Ideal.ofBits .f32 0x00000000#32) = _
  rw [Ideal.ofBits_zero_f32]
  rfl

/-- The six regions' payloads are one function; three of them reshape the weights' block to its own shape first. -/
theorem k4_pay1_eq : @k4_pay1 Ideal _ = k3_pay1 := by unfold k4_pay1 k3_pay1; simp only [shapeCast_self]
theorem k7_pay1_eq : @k7_pay1 Ideal _ = k3_pay1 := by unfold k7_pay1 k3_pay1; simp only [shapeCast_self]
theorem k10_pay1_eq : @k10_pay1 Ideal _ = k3_pay1 := by unfold k10_pay1 k3_pay1; simp only [shapeCast_self]
theorem k6_pay1_eq : @k6_pay1 Ideal _ = k3_pay1 := rfl
theorem k9_pay1_eq : @k9_pay1 Ideal _ = k3_pay1 := rfl

/-- An index map that places a block at block index 0 on every axis is the identity. -/
theorem bn_emb_id {S : Shape} {e : S.Idx → S.Idx} {i : Fin S.rank → ℕ}
    (h : ∀ y a, (e y a : ℕ) = i a * S.size a + y a) (hi : ∀ a, i a = 0) : e = id :=
  funext fun y => funext fun a => Fin.ext (by rw [h, hi, Nat.zero_mul, Nat.zero_add]; rfl)

/-- At block index (n, 0), entry (p, k) of a [5000, 256] block sits at (r, k) of the array when r = 5000·n + p. -/
theorem bn_emb_row {e : S5000x256.Idx → S40000x256.Idx} {i : Fin 2 → ℕ} {n : ℕ}
    (h : ∀ y a, (e y a : ℕ) = i a * S5000x256.size a + y a) (hi : ∀ a, i a = ![n, 0] a) (p : Fin 5000) (k : Fin 256)
    (r : Fin 40000) (hr : (r : ℕ) = n * 5000 + p) : e (ix2 p k) = ix2 r k :=
  (eq_ix2 _).trans (congrArg₂ ix2 (Fin.ext (by rw [h, hi, hr]; rfl))
    (Fin.ext (by rw [h, hi]; exact (congrArg (· + k.val) (Nat.zero_mul 256)).trans (Nat.zero_add _))))

/-- The rectangle that is a whole block, for each of the three block shapes. -/
abbrev bnR0 : Rect S5000x256 := Rect.unit (s := S5000x256) ![0, 0] S5000x256.size inb_S5000x256_S5000x256_0_0
abbrev bnR1 : Rect S1x256 := Rect.unit (s := S1x256) ![0, 0] S1x256.size inb_S1x256_S1x256_0_0
abbrev bnR2 : Rect S256x256 := Rect.unit (s := S256x256) ![0, 0] S256x256.size inb_S256x256_S256x256_0_0

theorem bn_hz : (![0, 0] : Fin 2 → ℕ) = fun _ => 0 := funext fun a => by fin_cases a <;> rfl

/-- With input and output at block index (n, 0) and the other arrays whole, the stored block is that block of the whole-array function. -/
theorem bn_flushed {pay : Vec Ideal S5000x256 .f32 → Vec Ideal S1x256 .f32 → Vec Ideal S1x256 .f32 → Vec Ideal S1x256 .f32 →
      Vec Ideal S1x256 .f32 → Vec Ideal S256x256 .f32 → Vec Ideal S1x256 .f32 → FVec Ideal S5000x256 .f32}
    (hpay : pay = k3_pay1) (X : Mat 40000 256) (M Va Ga Be : Mat 1 256) (W : Mat 256 256) (B : Mat 1 256)
    {e0 e7 : S5000x256.Idx → S40000x256.Idx} {e1 e2 e3 e4 e6 : S1x256.Idx → S1x256.Idx}
    {e5 : S256x256.Idx → S256x256.Idx} {i0 i1 i2 i3 i4 i5 i6 i7 : Fin 2 → ℕ} {n : ℕ}
    (h0 : ∀ y a, (e0 y a : ℕ) = i0 a * S5000x256.size a + y a)
    (h1 : ∀ y a, (e1 y a : ℕ) = i1 a * S1x256.size a + y a)
    (h2 : ∀ y a, (e2 y a : ℕ) = i2 a * S1x256.size a + y a)
    (h3 : ∀ y a, (e3 y a : ℕ) = i3 a * S1x256.size a + y a)
    (h4 : ∀ y a, (e4 y a : ℕ) = i4 a * S1x256.size a + y a)
    (h5 : ∀ y a, (e5 y a : ℕ) = i5 a * S256x256.size a + y a)
    (h6 : ∀ y a, (e6 y a : ℕ) = i6 a * S1x256.size a + y a)
    (h7 : ∀ y a, (e7 y a : ℕ) = i7 a * S5000x256.size a + y a)
    (hi : ∀ a, (i0 a = ![n, 0] a ∧ i7 a = ![n, 0] a) ∧ i1 a = 0 ∧ i2 a = 0 ∧ i3 a = 0 ∧ i4 a = 0 ∧ i5 a = 0 ∧ i6 a = 0) :
    (View.canon [⟨bnR0, pay (View.ld (fun y => X (e0 y)) bnR0) (View.ld (fun y => M (e1 y)) bnR1) (View.ld (fun y => Va (e2 y)) bnR1)
        (View.ld (fun y => Ga (e3 y)) bnR1) (View.ld (fun y => Be (e4 y)) bnR1) (View.ld (fun y => W (e5 y)) bnR2)
        (View.ld (fun y => B (e6 y)) bnR1)⟩] : Vec Ideal S5000x256 .f32)
      = fun y => bnLinArr X (rowOf M) (rowOf Va) (rowOf Ga) (rowOf Be) W (rowOf B) (e7 y) := by
  cases bn_emb_id h1 fun a => (hi a).2.1
  cases bn_emb_id h2 fun a => (hi a).2.2.1
  cases bn_emb_id h3 fun a => (hi a).2.2.2.1
  cases bn_emb_id h4 fun a => (hi a).2.2.2.2.1
  cases bn_emb_id h5 fun a => (hi a).2.2.2.2.2.1
  cases bn_emb_id h6 fun a => (hi a).2.2.2.2.2.2
  rw [View.canon_unit_zero bn_hz, hpay]
  simp only [View.ld_unit_zero (S := S5000x256) bn_hz, View.ld_unit_zero (S := S1x256) bn_hz, View.ld_unit_zero (S := S256x256) bn_hz]
  rw [bn_pay_eq]
  refine funext fun y => ?_
  obtain ⟨p, q, rfl⟩ : ∃ (p : Fin 5000) (q : Fin 256), y = ix2 p q := ⟨y 0, y 1, eq_ix2 y⟩
  have hr : ((e7 (ix2 p q) 0 : Fin 40000) : ℕ) = n * 5000 + p := by rw [h7, (hi 0).1.2]; rfl
  rw [bn_emb_row h7 (fun a => (hi a).1.2) p q _ hr]
  show (∑ k : Fin 256, max _ 0 * W (ix2 k q)) + _ = (∑ k : Fin 256, max _ 0 * W (ix2 k q)) + _
  simp only [bn_emb_row h0 (fun a => (hi a).1.1) p _ _ hr]
  rfl

/-- Blocks of 5000 rows at block indices (t, 0), t < 8, cover the [40000, 256] array. -/
theorem bn_cover {N : ℕ} (hN : N = 8) {e : Fin N → S5000x256.Idx → S40000x256.Idx} {i : Fin N → Fin 2 → ℕ}
    (h : ∀ t y a, (e t y a : ℕ) = i t a * S5000x256.size a + y a) (hi : ∀ t a, i t a = ![t.val, 0] a)
    {s : Fin N → Finset S40000x256.Idx} (hs : ∀ t y, e t y ∈ s t) {P : Fin N → Prop} (hP : ∀ t, P t)
    (j : S40000x256.Idx) : ∃ t, P t ∧ j ∈ s t := by
  obtain ⟨r, c, rfl⟩ : ∃ (r : Fin 40000) (c : Fin 256), j = ix2 r c := ⟨j 0, j 1, eq_ix2 j⟩
  have ht : r.val / 5000 < N := by have := r.isLt; omega
  exact ⟨⟨r.val / 5000, ht⟩, hP _, bn_emb_row (h ⟨r.val / 5000, ht⟩) (hi _) ⟨r.val % 5000, Nat.mod_lt _ (by omega)⟩ c r
    (Nat.div_add_mod' r.val 5000).symm ▸ hs _ _⟩

end Cert.KV

end
-- ==== Proof.RegBn3.lean ====
import proofs.«102128_j53085795779156_1_alg».proof.Proof.Gen.KernelIdeal.Frame
import proofs.«102128_j53085795779156_1_alg».proof.Proof.RegBn

noncomputable section

namespace Cert.KV

open Idealize.ShloMosaic Idealize.ShloMosaic.TcCoe Cert.KernelIdeal Cert.KernelIdeal.Gen

variable (V : (c : Dev nD) → (b : Ref sig .tc) → Buf (Elt Ideal) ((c : Thread nD τ).loc b))

/-- The block indices over the grid: the input and the output move down one block of rows per point, the rest stay whole. -/
theorem idx3 : ∀ (t : Fin cfg3.N) (a : Fin 2), (win3_0.index t a = ![t.val, 0] a ∧ win3_7.index t a = ![t.val, 0] a)
    ∧ win3_1.index t a = 0 ∧ win3_2.index t a = 0 ∧ win3_3.index t a = 0 ∧ win3_4.index t a = 0
    ∧ win3_5.index t a = 0 ∧ win3_6.index t a = 0 :=
  (by decide +kernel : ∀ (t : Fin grid3.N) (a : Fin 2), _)

theorem final3 (c : Dev nD) :
    (dat3 (F := Ideal) V c).arrAt 7 cfg3.N
      = Cert.Spec.bnLinArr (V c (Pipeline.arrRef spec3 0)) (Cert.Spec.rowOf (V c (Pipeline.arrRef spec3 1))) (Cert.Spec.rowOf (V c (Pipeline.arrRef spec3 2))) (Cert.Spec.rowOf (V c (Pipeline.arrRef spec3 3))) (Cert.Spec.rowOf (V c (Pipeline.arrRef spec3 4))) (V c (Pipeline.arrRef spec3 5)) (Cert.Spec.rowOf (V c (Pipeline.arrRef spec3 6))) :=
  (dat3 (F := Ideal) V c).arrAt_eq_of_cover 7 _
    (fun t _ => (after3_7 V c t).trans <| bn_flushed rfl (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6))
        (win3_0.rect_emb_val t) (win3_1.rect_emb_val t) (win3_2.rect_emb_val t)
        (win3_3.rect_emb_val t) (win3_4.rect_emb_val t) (win3_5.rect_emb_val t) (win3_6.rect_emb_val t)
        (win3_7.rect_emb_val t) (idx3 t))
    (bn_cover N_3 (fun t => win3_7.rect_emb_val t) (fun t a => (idx3 t a).1.2)
      (fun t => ((cfg3.win 7).blk t).view.emb_mem_set) flush3_7)

end Cert.KV

end
-- ==== Proof.RegBn4.lean ====
import proofs.«102128_j53085795779156_1_alg».proof.Proof.Gen.KernelIdeal.Frame
import proofs.«102128_j53085795779156_1_alg».proof.Proof.RegBn

noncomputable section

namespace Cert.KV

open Idealize.ShloMosaic Idealize.ShloMosaic.TcCoe Cert.KernelIdeal Cert.KernelIdeal.Gen

variable (V : (c : Dev nD) → (b : Ref sig .tc) → Buf (Elt Ideal) ((c : Thread nD τ).loc b))

/-- The block indices over the grid: the input and the output move down one block of rows per point, the rest stay whole. -/
theorem idx4 : ∀ (t : Fin cfg4.N) (a : Fin 2), (win4_0.index t a = ![t.val, 0] a ∧ win4_7.index t a = ![t.val, 0] a)
    ∧ win4_1.index t a = 0 ∧ win4_2.index t a = 0 ∧ win4_3.index t a = 0 ∧ win4_4.index t a = 0
    ∧ win4_5.index t a = 0 ∧ win4_6.index t a = 0 :=
  (by decide +kernel : ∀ (t : Fin grid4.N) (a : Fin 2), _)

theorem final4 (c : Dev nD) :
    (dat4 (F := Ideal) V c).arrAt 7 cfg4.N
      = Cert.Spec.bnLinArr (V c (Pipeline.arrRef spec4 0)) (Cert.Spec.rowOf (V c (Pipeline.arrRef spec4 1))) (Cert.Spec.rowOf (V c (Pipeline.arrRef spec4 2))) (Cert.Spec.rowOf (V c (Pipeline.arrRef spec4 3))) (Cert.Spec.rowOf (V c (Pipeline.arrRef spec4 4))) (V c (Pipeline.arrRef spec4 5)) (Cert.Spec.rowOf (V c (Pipeline.arrRef spec4 6))) :=
  (dat4 (F := Ideal) V c).arrAt_eq_of_cover 7 _
    (fun t _ => (after4_7 V c t).trans <| bn_flushed k4_pay1_eq (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) (V c (Pipeline.arrRef spec4 6))
        (win4_0.rect_emb_val t) (win4_1.rect_emb_val t) (win4_2.rect_emb_val t)
        (win4_3.rect_emb_val t) (win4_4.rect_emb_val t) (win4_5.rect_emb_val t) (win4_6.rect_emb_val t)
        (win4_7.rect_emb_val t) (idx4 t))
    (bn_cover N_4 (fun t => win4_7.rect_emb_val t) (fun t a => (idx4 t a).1.2)
      (fun t => ((cfg4.win 7).blk t).view.emb_mem_set) flush4_7)

end Cert.KV

end
-- ==== Proof.KBranchU.lean ====
import proofs.«102128_j53085795779156_1_alg».proof.Proof.Gen.KernelIdeal.Frame
import proofs.«102128_j53085795779156_1_alg».proof.Proof.Spec
import proofs.«102128_j53085795779156_1_alg».proof.Proof.Model
import proofs.«102128_j53085795779156_1_alg».proof.Proof.Carry
import proofs.«102128_j53085795779156_1_alg».proof.Proof.KArgs
import proofs.«102128_j53085795779156_1_alg».proof.Proof.KBranch
import proofs.«102128_j53085795779156_1_alg».proof.Proof.RegLin2
import proofs.«102128_j53085795779156_1_alg».proof.Proof.RegBn3
import proofs.«102128_j53085795779156_1_alg».proof.Proof.RegBn4

noncomputable section

namespace Cert.KV

open Idealize.ShloMosaic Idealize.ShloMosaic.ValueIdx Idealize.ShloMosaic.TcCoe Idealize.SL.Sem Cert.KernelIdeal Cert.KernelIdeal.Gen

variable (m : (ℓ : Loc nD τ sig) → Buf (Elt Ideal) ℓ) (ρ : Dev nD → PrngReg) (c : Dev nD)

section Stage2
variable (L : FVec Ideal S40000x256 .f32) (hL : W12 m ρ c (Proc.devRef .tc main_v51) = L)
include hL

theorem brU_mean2 :
    W13 m ρ c (Proc.devRef .tc main_v62) = shapeCast S1x256 (Cert.Model.meanH L) shapeCasts_S256_S1x256 := by
  show StableHlo.after hostOps3 (W12 m ρ c) _ = _
  dsimp only [hostOps3]
  after_results_simp
  rw [hL, br_meanK_eq L]
  rfl

theorem brU_var2 :
    W13 m ρ c (Proc.devRef .tc main_v63) = shapeCast S1x256 (Cert.Model.varH L) shapeCasts_S256_S1x256 := by
  show StableHlo.after hostOps3 (W12 m ρ c) _ = _
  dsimp only [hostOps3]
  after_results_simp
  rw [hL, br_meanK_eq L, br_varK_eq L]
  rfl

omit hL in
theorem brU_scale2 :
    W13 m ρ c (Proc.devRef .tc main_v64) = shapeCast S1x256 (argsK m c).g1u shapeCasts_S256_S1x256 := by
  show StableHlo.after hostOps3 (W12 m ρ c) _ = _
  dsimp only [hostOps3]
  after_results_simp
  exact congrArg (shapeCast S1x256 · shapeCasts_S256_S1x256) (carry m ρ c 12 0 main_arg10 (by decide))

omit hL in
theorem brU_shift2 :
    W13 m ρ c (Proc.devRef .tc main_v65) = shapeCast S1x256 (argsK m c).c1u shapeCasts_S256_S1x256 := by
  show StableHlo.after hostOps3 (W12 m ρ c) _ = _
  dsimp only [hostOps3]
  after_results_simp
  exact congrArg (shapeCast S1x256 · shapeCasts_S256_S1x256) (carry m ρ c 12 0 main_arg11 (by decide))

omit hL in
theorem brU_bias2 :
    W13 m ρ c (Proc.devRef .tc main_v66) = shapeCast S1x256 (argsK m c).b2u shapeCasts_S256_S1x256 := by
  show StableHlo.after hostOps3 (W12 m ρ c) _ = _
  dsimp only [hostOps3]
  after_results_simp
  exact congrArg (shapeCast S1x256 · shapeCasts_S256_S1x256) (carry m ρ c 12 0 main_arg13 (by decide))

end Stage2

section Stage3
variable (L : FVec Ideal S40000x256 .f32) (hL : W14 m ρ c (Proc.devRef .tc main_v67) = L)
include hL

theorem brU_mean3 :
    W15 m ρ c (Proc.devRef .tc main_v79) = shapeCast S1x256 (Cert.Model.meanH L) shapeCasts_S256_S1x256 := by
  show StableHlo.after hostOps4 (W14 m ρ c) _ = _
  dsimp only [hostOps4]
  after_results_simp
  rw [hL, br_meanK_eq L]
  rfl

theorem brU_var3 :
    W15 m ρ c (Proc.devRef .tc main_v80) = shapeCast S1x256 (Cert.Model.varH L) shapeCasts_S256_S1x256 := by
  show StableHlo.after hostOps4 (W14 m ρ c) _ = _
  dsimp only [hostOps4]
  after_results_simp
  rw [hL, br_meanK_eq L, br_varK_eq L]
  rfl

omit hL in
theorem brU_scale3 :
    W15 m ρ c (Proc.devRef .tc main_v81) = shapeCast S1x256 (argsK m c).g2u shapeCasts_S256_S1x256 := by
  show StableHlo.after hostOps4 (W14 m ρ c) _ = _
  dsimp only [hostOps4]
  after_results_simp
  exact congrArg (shapeCast S1x256 · shapeCasts_S256_S1x256) (carry m ρ c 14 0 main_arg14 (by decide))

omit hL in
theorem brU_shift3 :
    W15 m ρ c (Proc.devRef .tc main_v82) = shapeCast S1x256 (argsK m c).c2u shapeCasts_S256_S1x256 := by
  show StableHlo.after hostOps4 (W14 m ρ c) _ = _
  dsimp only [hostOps4]
  after_results_simp
  exact congrArg (shapeCast S1x256 · shapeCasts_S256_S1x256) (carry m ρ c 14 0 main_arg15 (by decide))

omit hL in
theorem brU_zero3 : W15 m ρ c (Proc.devRef .tc main_v83) = zrowK := by
  show StableHlo.after hostOps4 (W14 m ρ c) _ = _
  dsimp only [hostOps4]
  after_results_simp
  rfl

end Stage3

set_option maxHeartbeats 2000000 in
theorem k_branchU (H0 : FVec Ideal Cert.Model.SN .f32) (h0 : W11 m ρ c (Proc.devRef .tc main_v38) = H0)
    (hw : W11 m ρ c (Proc.devRef .tc main_v47) = Cert.Model.third0 (argsK m c).Wc)
    (hb : W11 m ρ c (Proc.devRef .tc main_v50) = shapeCast S1x256 (argsK m c).b1u shapeCasts_S256_S1x256) :
    W16 m ρ c (Proc.devRef .tc main_v84)
      = Cert.Spec.bnLinArr
          (Cert.Model.layer2 (Cert.Spec.linArr H0 (argsK m c).W1u (argsK m c).b1u) (argsK m c).g1u (argsK m c).c1u
            (argsK m c).W2u (argsK m c).b2u)
          (Cert.Model.meanH (Cert.Model.layer2 (Cert.Spec.linArr H0 (argsK m c).W1u (argsK m c).b1u) (argsK m c).g1u
            (argsK m c).c1u (argsK m c).W2u (argsK m c).b2u))
          (Cert.Model.varH (Cert.Model.layer2 (Cert.Spec.linArr H0 (argsK m c).W1u (argsK m c).b1u) (argsK m c).g1u
            (argsK m c).c1u (argsK m c).W2u (argsK m c).b2u))
          (argsK m c).g2u (argsK m c).c2u (Cert.Model.third0 (argsK m c).Wc) (Cert.Spec.rowOf zrowK) :=
  branch
    ((W12_arr m ρ c 3).trans (final2 (V11 m ρ) c)) h0 (carry m ρ c 11 0 main_arg8 (by decide)) hb
    ((W14_arr m ρ c 7).trans (final3 (V13 m ρ) c)) (carry m ρ c 13 12 main_v51 (by decide)) (brU_mean2 m ρ c)
    (brU_var2 m ρ c) (brU_scale2 m ρ c) (brU_shift2 m ρ c) (carry m ρ c 13 0 main_arg12 (by decide)) (brU_bias2 m ρ c)
    ((W16_arr m ρ c 7).trans (final4 (V15 m ρ) c)) (carry m ρ c 15 14 main_v67 (by decide)) (brU_mean3 m ρ c)
    (brU_var3 m ρ c) (brU_scale3 m ρ c) (brU_shift3 m ρ c) ((carry m ρ c 15 11 main_v47 (by decide)).trans hw)
    (brU_zero3 m ρ c)

end Cert.KV

end
-- ==== Proof.RegLin5.lean ====
import proofs.«102128_j53085795779156_1_alg».proof.Proof.RegLin2

noncomputable section

open Idealize.ShloMosaic Idealize.ShloMosaic.TcCoe Idealize.ShloMosaic.ValueIdx Cert.KernelIdeal Cert.KernelIdeal.Gen

namespace Cert.KV

variable (V : (c : Dev nD) → (b : Ref sig .tc) → Buf (Elt Ideal) ((c : Thread nD τ).loc b))

theorem lin5_idx : ∀ t : Fin cfg5.N,
    (win5_0.index t (0 : Fin 2) = t.val ∧ win5_0.index t (1 : Fin 2) = 0)
    ∧ (win5_3.index t (0 : Fin 2) = t.val ∧ win5_3.index t (1 : Fin 2) = 0)
    ∧ (∀ a : Fin 2, win5_1.index t a = 0) ∧ (∀ a : Fin 2, win5_2.index t a = 0) :=
  (by decide +kernel : ∀ t : Fin grid5.N, _)

/-- Row p of the first block of point t is row r = 5000·t + p of its array; the other two blocks are their whole arrays. -/
theorem lin5_blk (c : Dev nD) (t : Fin cfg5.N) (p : Fin 5000) (r : Fin 40000) (hr : r.val = t.val * 5000 + p.val) :
    (∀ k : Fin 256, (iblk5 V c 0 t : Vec Ideal S5000x256 .f32) (ix2 p k) = V c (Pipeline.arrRef spec5 0) (ix2 r k))
    ∧ (iblk5 V c 1 t : Vec Ideal S256x256 .f32) = V c (Pipeline.arrRef spec5 1)
    ∧ (iblk5 V c 2 t : Vec Ideal S1x256 .f32) = V c (Pipeline.arrRef spec5 2) := by
  obtain ⟨⟨e0, e1⟩, -, z1, z2⟩ := lin5_idx t
  exact ⟨fun k => congrArg (V c (Pipeline.arrRef spec5 0)) (Cert.RowBlock.emb_rowBlock _ _ _ e0 e1 p k r hr),
    (funext fun j => congrArg (V c (Pipeline.arrRef spec5 1))
      (funext fun a => Fin.ext (win5_1.rect_emb_val_of_index_zero t a (z1 a) j))),
    (funext fun j => congrArg (V c (Pipeline.arrRef spec5 2))
      (funext fun a => Fin.ext (win5_2.rect_emb_val_of_index_zero t a (z2 a) j)))⟩

abbrev lins5 (c : Dev nD) : Cert.Spec.Mat 40000 256 :=
  Cert.Spec.linArr (V c (Pipeline.arrRef spec5 0)) (V c (Pipeline.arrRef spec5 1))
    (Cert.Spec.rowOf (V c (Pipeline.arrRef spec5 2)))

/-- The block of point t is block t of the dense stage of the entry arrays. -/
theorem lin5_flushed_eq (c : Dev nD) (t : Fin cfg5.N) :
    (dat5 (F := Ideal) V c).flushed 3 t = ((cfg5.win 3).blk t).view.read (Elt Ideal) (lins5 V c) := by
  show (cfg5.win 3).cut (grid5.coords t) ((dat5 (F := Ideal) V c).after 3 t) = _
  rw [after5_3]
  unfold out5_3
  rw [View.canon_unit_zero Cert.RowBlock.off2_zero]
  simp only [View.ld_unit_zero (S := S5000x256) Cert.RowBlock.off2_zero, View.ld_unit_zero (S := S256x256) Cert.RowBlock.off2_zero,
    View.ld_unit_zero (S := S1x256) Cert.RowBlock.off2_zero]
  obtain ⟨-, ⟨o0, o1⟩, -⟩ := lin5_idx t
  funext j
  obtain ⟨p, q, rfl⟩ : ∃ (p : Fin 5000) (q : Fin 256), j = ix2 p q := ⟨j 0, j 1, eq_ix2 j⟩
  have ht : t.val < 8 := N_5 ▸ t.isLt
  have hr : t.val * 5000 + p.val < 40000 := by have := p.isLt; omega
  obtain ⟨h0, h1, h2⟩ := lin5_blk V c t p ⟨t.val * 5000 + p.val, hr⟩ rfl
  exact (lin2_pay_of_blocks _ _ _ (iblk5 V c 0 t) (iblk5 V c 1 t) (iblk5 V c 2 t) p q _ h0 h1 h2).trans
    (congrArg (lins5 V c) (Cert.RowBlock.emb_rowBlock _ _ _ o0 o1 p q _ rfl).symm)

/-- Row r of the output array lies in the block of the point r / 5000. -/
theorem lin5_cover (i : S40000x256.Idx) :
    ∃ t : Fin cfg5.N, (cfg5.win 3).flush t = true ∧ i ∈ ((cfg5.win 3).blk t).view.set := by
  have hi0 : (i 0).val < 40000 := (i 0).isLt
  obtain ⟨t, ht⟩ : ∃ t : Fin cfg5.N, t.val = (i 0).val / 5000 :=
    ⟨⟨(i 0).val / 5000, by show _ < grid5.N; rw [N_5]; omega⟩, rfl⟩
  obtain ⟨-, ⟨o0, o1⟩, -⟩ := lin5_idx t
  refine ⟨t, flush5_3 t, ?_⟩
  show i ∈ ((View.whole main_v86).slice (win5_3.rect t)).set
  rw [View.set_slice_whole]
  exact Cert.RowBlock.mem_rowBlock _ _ i (o0.trans ht) o1

theorem final5 (c : Dev nD) :
    (dat5 (F := Ideal) V c).arrAt 3 cfg5.N
      = Cert.Spec.linArr (V c (Pipeline.arrRef spec5 0)) (V c (Pipeline.arrRef spec5 1))
          (Cert.Spec.rowOf (V c (Pipeline.arrRef spec5 2))) :=
  (dat5 (F := Ideal) V c).arrAt_eq_of_cover 3 (lins5 V c) (fun t _ => lin5_flushed_eq V c t) lin5_cover

end Cert.KV

end
-- ==== Proof.RegBn6.lean ====
import proofs.«102128_j53085795779156_1_alg».proof.Proof.Gen.KernelIdeal.Frame
import proofs.«102128_j53085795779156_1_alg».proof.Proof.RegBn

noncomputable section

namespace Cert.KV

open Idealize.ShloMosaic Idealize.ShloMosaic.TcCoe Cert.KernelIdeal Cert.KernelIdeal.Gen

variable (V : (c : Dev nD) → (b : Ref sig .tc) → Buf (Elt Ideal) ((c : Thread nD τ).loc b))

/-- The block indices over the grid: the input and the output move down one block of rows per point, the rest stay whole. -/
theorem idx6 : ∀ (t : Fin cfg6.N) (a : Fin 2), (win6_0.index t a = ![t.val, 0] a ∧ win6_7.index t a = ![t.val, 0] a)
    ∧ win6_1.index t a = 0 ∧ win6_2.index t a = 0 ∧ win6_3.index t a = 0 ∧ win6_4.index t a = 0
    ∧ win6_5.index t a = 0 ∧ win6_6.index t a = 0 :=
  (by decide +kernel : ∀ (t : Fin grid6.N) (a : Fin 2), _)

theorem final6 (c : Dev nD) :
    (dat6 (F := Ideal) V c).arrAt 7 cfg6.N
      = Cert.Spec.bnLinArr (V c (Pipeline.arrRef spec6 0)) (Cert.Spec.rowOf (V c (Pipeline.arrRef spec6 1))) (Cert.Spec.rowOf (V c (Pipeline.arrRef spec6 2))) (Cert.Spec.rowOf (V c (Pipeline.arrRef spec6 3))) (Cert.Spec.rowOf (V c (Pipeline.arrRef spec6 4))) (V c (Pipeline.arrRef spec6 5)) (Cert.Spec.rowOf (V c (Pipeline.arrRef spec6 6))) :=
  (dat6 (F := Ideal) V c).arrAt_eq_of_cover 7 _
    (fun t _ => (after6_7 V c t).trans <| bn_flushed k6_pay1_eq (V c (Pipeline.arrRef spec6 0)) (V c (Pipeline.arrRef spec6 1)) (V c (Pipeline.arrRef spec6 2)) (V c (Pipeline.arrRef spec6 3)) (V c (Pipeline.arrRef spec6 4)) (V c (Pipeline.arrRef spec6 5)) (V c (Pipeline.arrRef spec6 6))
        (win6_0.rect_emb_val t) (win6_1.rect_emb_val t) (win6_2.rect_emb_val t)
        (win6_3.rect_emb_val t) (win6_4.rect_emb_val t) (win6_5.rect_emb_val t) (win6_6.rect_emb_val t)
        (win6_7.rect_emb_val t) (idx6 t))
    (bn_cover N_6 (fun t => win6_7.rect_emb_val t) (fun t a => (idx6 t a).1.2)
      (fun t => ((cfg6.win 7).blk t).view.emb_mem_set) flush6_7)

end Cert.KV

end
-- ==== Proof.RegBn7.lean ====
import proofs.«102128_j53085795779156_1_alg».proof.Proof.Gen.KernelIdeal.Frame
import proofs.«102128_j53085795779156_1_alg».proof.Proof.RegBn

noncomputable section

namespace Cert.KV

open Idealize.ShloMosaic Idealize.ShloMosaic.TcCoe Cert.KernelIdeal Cert.KernelIdeal.Gen

variable (V : (c : Dev nD) → (b : Ref sig .tc) → Buf (Elt Ideal) ((c : Thread nD τ).loc b))

/-- The block indices over the grid: the input and the output move down one block of rows per point, the rest stay whole. -/
theorem idx7 : ∀ (t : Fin cfg7.N) (a : Fin 2), (win7_0.index t a = ![t.val, 0] a ∧ win7_7.index t a = ![t.val, 0] a)
    ∧ win7_1.index t a = 0 ∧ win7_2.index t a = 0 ∧ win7_3.index t a = 0 ∧ win7_4.index t a = 0
    ∧ win7_5.index t a = 0 ∧ win7_6.index t a = 0 :=
  (by decide +kernel : ∀ (t : Fin grid7.N) (a : Fin 2), _)

theorem final7 (c : Dev nD) :
    (dat7 (F := Ideal) V c).arrAt 7 cfg7.N
      = Cert.Spec.bnLinArr (V c (Pipeline.arrRef spec7 0)) (Cert.Spec.rowOf (V c (Pipeline.arrRef spec7 1))) (Cert.Spec.rowOf (V c (Pipeline.arrRef spec7 2))) (Cert.Spec.rowOf (V c (Pipeline.arrRef spec7 3))) (Cert.Spec.rowOf (V c (Pipeline.arrRef spec7 4))) (V c (Pipeline.arrRef spec7 5)) (Cert.Spec.rowOf (V c (Pipeline.arrRef spec7 6))) :=
  (dat7 (F := Ideal) V c).arrAt_eq_of_cover 7 _
    (fun t _ => (after7_7 V c t).trans <| bn_flushed k7_pay1_eq (V c (Pipeline.arrRef spec7 0)) (V c (Pipeline.arrRef spec7 1)) (V c (Pipeline.arrRef spec7 2)) (V c (Pipeline.arrRef spec7 3)) (V c (Pipeline.arrRef spec7 4)) (V c (Pipeline.arrRef spec7 5)) (V c (Pipeline.arrRef spec7 6))
        (win7_0.rect_emb_val t) (win7_1.rect_emb_val t) (win7_2.rect_emb_val t)
        (win7_3.rect_emb_val t) (win7_4.rect_emb_val t) (win7_5.rect_emb_val t) (win7_6.rect_emb_val t)
        (win7_7.rect_emb_val t) (idx7 t))
    (bn_cover N_7 (fun t => win7_7.rect_emb_val t) (fun t a => (idx7 t a).1.2)
      (fun t => ((cfg7.win 7).blk t).view.emb_mem_set) flush7_7)

end Cert.KV

end
-- ==== Proof.KBranchD.lean ====
import proofs.«102128_j53085795779156_1_alg».proof.Proof.Gen.KernelIdeal.Frame
import proofs.«102128_j53085795779156_1_alg».proof.Proof.Spec
import proofs.«102128_j53085795779156_1_alg».proof.Proof.Model
import proofs.«102128_j53085795779156_1_alg».proof.Proof.Carry
import proofs.«102128_j53085795779156_1_alg».proof.Proof.KArgs
import proofs.«102128_j53085795779156_1_alg».proof.Proof.KBranch
import proofs.«102128_j53085795779156_1_alg».proof.Proof.RegLin5
import proofs.«102128_j53085795779156_1_alg».proof.Proof.RegBn6
import proofs.«102128_j53085795779156_1_alg».proof.Proof.RegBn7

noncomputable section

namespace Cert.KV

open Idealize.ShloMosaic Idealize.ShloMosaic.ValueIdx Idealize.ShloMosaic.TcCoe Idealize.SL.Sem Cert.KernelIdeal Cert.KernelIdeal.Gen

variable (m : (ℓ : Loc nD τ sig) → Buf (Elt Ideal) ℓ) (ρ : Dev nD → PrngReg) (c : Dev nD)

theorem brD_bias1 :
    W17 m ρ c (Proc.devRef .tc main_v85) = shapeCast S1x256 (argsK m c).b1d shapeCasts_S256_S1x256 := by
  show StableHlo.after hostOps5 (W16 m ρ c) _ = _
  dsimp only [hostOps5]
  after_results_simp
  exact congrArg (shapeCast S1x256 · shapeCasts_S256_S1x256) (carry m ρ c 16 0 main_arg17 (by decide))

section Stage2
variable (L : FVec Ideal S40000x256 .f32) (hL : W18 m ρ c (Proc.devRef .tc main_v86) = L)
include hL

theorem brD_mean2 :
    W19 m ρ c (Proc.devRef .tc main_v97) = shapeCast S1x256 (Cert.Model.meanH L) shapeCasts_S256_S1x256 := by
  show StableHlo.after hostOps6 (W18 m ρ c) _ = _
  dsimp only [hostOps6]
  after_results_simp
  rw [hL, br_meanK_eq L]
  rfl

theorem brD_var2 :
    W19 m ρ c (Proc.devRef .tc main_v98) = shapeCast S1x256 (Cert.Model.varH L) shapeCasts_S256_S1x256 := by
  show StableHlo.after hostOps6 (W18 m ρ c) _ = _
  dsimp only [hostOps6]
  after_results_simp
  rw [hL, br_meanK_eq L, br_varK_eq L]
  rfl

omit hL in
theorem brD_scale2 :
    W19 m ρ c (Proc.devRef .tc main_v99) = shapeCast S1x256 (argsK m c).g1d shapeCasts_S256_S1x256 := by
  show StableHlo.after hostOps6 (W18 m ρ c) _ = _
  dsimp only [hostOps6]
  after_results_simp
  exact congrArg (shapeCast S1x256 · shapeCasts_S256_S1x256) (carry m ρ c 18 0 main_arg18 (by decide))

omit hL in
theorem brD_shift2 :
    W19 m ρ c (Proc.devRef .tc main_v100) = shapeCast S1x256 (argsK m c).c1d shapeCasts_S256_S1x256 := by
  show StableHlo.after hostOps6 (W18 m ρ c) _ = _
  dsimp only [hostOps6]
  after_results_simp
  exact congrArg (shapeCast S1x256 · shapeCasts_S256_S1x256) (carry m ρ c 18 0 main_arg19 (by decide))

omit hL in
theorem brD_bias2 :
    W19 m ρ c (Proc.devRef .tc main_v101) = shapeCast S1x256 (argsK m c).b2d shapeCasts_S256_S1x256 := by
  show StableHlo.after hostOps6 (W18 m ρ c) _ = _
  dsimp only [hostOps6]
  after_results_simp
  exact congrArg (shapeCast S1x256 · shapeCasts_S256_S1x256) (carry m ρ c 18 0 main_arg21 (by decide))

end Stage2

section Stage3
variable (L : FVec Ideal S40000x256 .f32) (hL : W20 m ρ c (Proc.devRef .tc main_v102) = L)
include hL

theorem brD_mean3 :
    W21 m ρ c (Proc.devRef .tc main_v114) = shapeCast S1x256 (Cert.Model.meanH L) shapeCasts_S256_S1x256 := by
  show StableHlo.after hostOps7 (W20 m ρ c) _ = _
  dsimp only [hostOps7]
  after_results_simp
  rw [hL, br_meanK_eq L]
  rfl

theorem brD_var3 :
    W21 m ρ c (Proc.devRef .tc main_v115) = shapeCast S1x256 (Cert.Model.varH L) shapeCasts_S256_S1x256 := by
  show StableHlo.after hostOps7 (W20 m ρ c) _ = _
  dsimp only [hostOps7]
  after_results_simp
  rw [hL, br_meanK_eq L, br_varK_eq L]
  rfl

omit hL in
theorem brD_scale3 :
    W21 m ρ c (Proc.devRef .tc main_v116) = shapeCast S1x256 (argsK m c).g2d shapeCasts_S256_S1x256 := by
  show StableHlo.after hostOps7 (W20 m ρ c) _ = _
  dsimp only [hostOps7]
  after_results_simp
  exact congrArg (shapeCast S1x256 · shapeCasts_S256_S1x256) (carry m ρ c 20 0 main_arg22 (by decide))

omit hL in
theorem brD_shift3 :
    W21 m ρ c (Proc.devRef .tc main_v117) = shapeCast S1x256 (argsK m c).c2d shapeCasts_S256_S1x256 := by
  show StableHlo.after hostOps7 (W20 m ρ c) _ = _
  dsimp only [hostOps7]
  after_results_simp
  exact congrArg (shapeCast S1x256 · shapeCasts_S256_S1x256) (carry m ρ c 20 0 main_arg23 (by decide))

omit hL in
theorem brD_zero3 : W21 m ρ c (Proc.devRef .tc main_v118) = zrowK := by
  show StableHlo.after hostOps7 (W20 m ρ c) _ = _
  dsimp only [hostOps7]
  after_results_simp
  rfl

end Stage3

set_option maxHeartbeats 2000000 in
theorem k_branchD (H0 : FVec Ideal Cert.Model.SN .f32) (h0 : W11 m ρ c (Proc.devRef .tc main_v42) = H0)
    (hw : W11 m ρ c (Proc.devRef .tc main_v48) = Cert.Model.third1 (argsK m c).Wc) :
    W22 m ρ c (Proc.devRef .tc main_v119)
      = Cert.Spec.bnLinArr
          (Cert.Model.layer2 (Cert.Spec.linArr H0 (argsK m c).W1d (argsK m c).b1d) (argsK m c).g1d (argsK m c).c1d
            (argsK m c).W2d (argsK m c).b2d)
          (Cert.Model.meanH (Cert.Model.layer2 (Cert.Spec.linArr H0 (argsK m c).W1d (argsK m c).b1d) (argsK m c).g1d
            (argsK m c).c1d (argsK m c).W2d (argsK m c).b2d))
          (Cert.Model.varH (Cert.Model.layer2 (Cert.Spec.linArr H0 (argsK m c).W1d (argsK m c).b1d) (argsK m c).g1d
            (argsK m c).c1d (argsK m c).W2d (argsK m c).b2d))
          (argsK m c).g2d (argsK m c).c2d (Cert.Model.third1 (argsK m c).Wc) (Cert.Spec.rowOf zrowK) :=
  branch
    ((W18_arr m ρ c 3).trans (final5 (V17 m ρ) c)) ((carry m ρ c 17 11 main_v42 (by decide)).trans h0)
    (carry m ρ c 17 0 main_arg16 (by decide)) (brD_bias1 m ρ c) ((W20_arr m ρ c 7).trans (final6 (V19 m ρ) c))
    (carry m ρ c 19 18 main_v86 (by decide)) (brD_mean2 m ρ c) (brD_var2 m ρ c) (brD_scale2 m ρ c) (brD_shift2 m ρ c)
    (carry m ρ c 19 0 main_arg20 (by decide)) (brD_bias2 m ρ c) ((W22_arr m ρ c 7).trans (final7 (V21 m ρ) c))
    (carry m ρ c 21 20 main_v102 (by decide)) (brD_mean3 m ρ c) (brD_var3 m ρ c) (brD_scale3 m ρ c) (brD_shift3 m ρ c)
    ((carry m ρ c 21 11 main_v48 (by decide)).trans hw) (brD_zero3 m ρ c)

end Cert.KV

end
-- ==== Proof.RegLin8.lean ====
import proofs.«102128_j53085795779156_1_alg».proof.Proof.RegLin2

noncomputable section

open Idealize.ShloMosaic Idealize.ShloMosaic.TcCoe Idealize.ShloMosaic.ValueIdx Cert.KernelIdeal Cert.KernelIdeal.Gen

namespace Cert.KV

variable (V : (c : Dev nD) → (b : Ref sig .tc) → Buf (Elt Ideal) ((c : Thread nD τ).loc b))

theorem lin8_idx : ∀ t : Fin cfg8.N,
    (win8_0.index t (0 : Fin 2) = t.val ∧ win8_0.index t (1 : Fin 2) = 0)
    ∧ (win8_3.index t (0 : Fin 2) = t.val ∧ win8_3.index t (1 : Fin 2) = 0)
    ∧ (∀ a : Fin 2, win8_1.index t a = 0) ∧ (∀ a : Fin 2, win8_2.index t a = 0) :=
  (by decide +kernel : ∀ t : Fin grid8.N, _)

/-- Row p of the first block of point t is row r = 5000·t + p of its array; the other two blocks are their whole arrays. -/
theorem lin8_blk (c : Dev nD) (t : Fin cfg8.N) (p : Fin 5000) (r : Fin 40000) (hr : r.val = t.val * 5000 + p.val) :
    (∀ k : Fin 256, (iblk8 V c 0 t : Vec Ideal S5000x256 .f32) (ix2 p k) = V c (Pipeline.arrRef spec8 0) (ix2 r k))
    ∧ (iblk8 V c 1 t : Vec Ideal S256x256 .f32) = V c (Pipeline.arrRef spec8 1)
    ∧ (iblk8 V c 2 t : Vec Ideal S1x256 .f32) = V c (Pipeline.arrRef spec8 2) := by
  obtain ⟨⟨e0, e1⟩, -, z1, z2⟩ := lin8_idx t
  exact ⟨fun k => congrArg (V c (Pipeline.arrRef spec8 0)) (Cert.RowBlock.emb_rowBlock _ _ _ e0 e1 p k r hr),
    (funext fun j => congrArg (V c (Pipeline.arrRef spec8 1))
      (funext fun a => Fin.ext (win8_1.rect_emb_val_of_index_zero t a (z1 a) j))),
    (funext fun j => congrArg (V c (Pipeline.arrRef spec8 2))
      (funext fun a => Fin.ext (win8_2.rect_emb_val_of_index_zero t a (z2 a) j)))⟩

abbrev lins8 (c : Dev nD) : Cert.Spec.Mat 40000 256 :=
  Cert.Spec.linArr (V c (Pipeline.arrRef spec8 0)) (V c (Pipeline.arrRef spec8 1))
    (Cert.Spec.rowOf (V c (Pipeline.arrRef spec8 2)))

/-- The block of point t is block t of the dense stage of the entry arrays. -/
theorem lin8_flushed_eq (c : Dev nD) (t : Fin cfg8.N) :
    (dat8 (F := Ideal) V c).flushed 3 t = ((cfg8.win 3).blk t).view.read (Elt Ideal) (lins8 V c) := by
  show (cfg8.win 3).cut (grid8.coords t) ((dat8 (F := Ideal) V c).after 3 t) = _
  rw [after8_3]
  unfold out8_3
  rw [View.canon_unit_zero Cert.RowBlock.off2_zero]
  simp only [View.ld_unit_zero (S := S5000x256) Cert.RowBlock.off2_zero, View.ld_unit_zero (S := S256x256) Cert.RowBlock.off2_zero,
    View.ld_unit_zero (S := S1x256) Cert.RowBlock.off2_zero]
  obtain ⟨-, ⟨o0, o1⟩, -⟩ := lin8_idx t
  funext j
  obtain ⟨p, q, rfl⟩ : ∃ (p : Fin 5000) (q : Fin 256), j = ix2 p q := ⟨j 0, j 1, eq_ix2 j⟩
  have ht : t.val < 8 := N_8 ▸ t.isLt
  have hr : t.val * 5000 + p.val < 40000 := by have := p.isLt; omega
  obtain ⟨h0, h1, h2⟩ := lin8_blk V c t p ⟨t.val * 5000 + p.val, hr⟩ rfl
  exact (lin2_pay_of_blocks _ _ _ (iblk8 V c 0 t) (iblk8 V c 1 t) (iblk8 V c 2 t) p q _ h0 h1 h2).trans
    (congrArg (lins8 V c) (Cert.RowBlock.emb_rowBlock _ _ _ o0 o1 p q _ rfl).symm)

/-- Row r of the output array lies in the block of the point r / 5000. -/
theorem lin8_cover (i : S40000x256.Idx) :
    ∃ t : Fin cfg8.N, (cfg8.win 3).flush t = true ∧ i ∈ ((cfg8.win 3).blk t).view.set := by
  have hi0 : (i 0).val < 40000 := (i 0).isLt
  obtain ⟨t, ht⟩ : ∃ t : Fin cfg8.N, t.val = (i 0).val / 5000 :=
    ⟨⟨(i 0).val / 5000, by show _ < grid8.N; rw [N_8]; omega⟩, rfl⟩
  obtain ⟨-, ⟨o0, o1⟩, -⟩ := lin8_idx t
  refine ⟨t, flush8_3 t, ?_⟩
  show i ∈ ((View.whole main_v121).slice (win8_3.rect t)).set
  rw [View.set_slice_whole]
  exact Cert.RowBlock.mem_rowBlock _ _ i (o0.trans ht) o1

theorem final8 (c : Dev nD) :
    (dat8 (F := Ideal) V c).arrAt 3 cfg8.N
      = Cert.Spec.linArr (V c (Pipeline.arrRef spec8 0)) (V c (Pipeline.arrRef spec8 1))
          (Cert.Spec.rowOf (V c (Pipeline.arrRef spec8 2))) :=
  (dat8 (F := Ideal) V c).arrAt_eq_of_cover 3 (lins8 V c) (fun t _ => lin8_flushed_eq V c t) lin8_cover

end Cert.KV

end
-- ==== Proof.RegBn9.lean ====
import proofs.«102128_j53085795779156_1_alg».proof.Proof.Gen.KernelIdeal.Frame
import proofs.«102128_j53085795779156_1_alg».proof.Proof.RegBn

noncomputable section

namespace Cert.KV

open Idealize.ShloMosaic Idealize.ShloMosaic.TcCoe Cert.KernelIdeal Cert.KernelIdeal.Gen

variable (V : (c : Dev nD) → (b : Ref sig .tc) → Buf (Elt Ideal) ((c : Thread nD τ).loc b))

/-- The block indices over the grid: the input and the output move down one block of rows per point, the rest stay whole. -/
theorem idx9 : ∀ (t : Fin cfg9.N) (a : Fin 2), (win9_0.index t a = ![t.val, 0] a ∧ win9_7.index t a = ![t.val, 0] a)
    ∧ win9_1.index t a = 0 ∧ win9_2.index t a = 0 ∧ win9_3.index t a = 0 ∧ win9_4.index t a = 0
    ∧ win9_5.index t a = 0 ∧ win9_6.index t a = 0 :=
  (by decide +kernel : ∀ (t : Fin grid9.N) (a : Fin 2), _)

theorem final9 (c : Dev nD) :
    (dat9 (F := Ideal) V c).arrAt 7 cfg9.N
      = Cert.Spec.bnLinArr (V c (Pipeline.arrRef spec9 0)) (Cert.Spec.rowOf (V c (Pipeline.arrRef spec9 1))) (Cert.Spec.rowOf (V c (Pipeline.arrRef spec9 2))) (Cert.Spec.rowOf (V c (Pipeline.arrRef spec9 3))) (Cert.Spec.rowOf (V c (Pipeline.arrRef spec9 4))) (V c (Pipeline.arrRef spec9 5)) (Cert.Spec.rowOf (V c (Pipeline.arrRef spec9 6))) :=
  (dat9 (F := Ideal) V c).arrAt_eq_of_cover 7 _
    (fun t _ => (after9_7 V c t).trans <| bn_flushed k9_pay1_eq (V c (Pipeline.arrRef spec9 0)) (V c (Pipeline.arrRef spec9 1)) (V c (Pipeline.arrRef spec9 2)) (V c (Pipeline.arrRef spec9 3)) (V c (Pipeline.arrRef spec9 4)) (V c (Pipeline.arrRef spec9 5)) (V c (Pipeline.arrRef spec9 6))
        (win9_0.rect_emb_val t) (win9_1.rect_emb_val t) (win9_2.rect_emb_val t)
        (win9_3.rect_emb_val t) (win9_4.rect_emb_val t) (win9_5.rect_emb_val t) (win9_6.rect_emb_val t)
        (win9_7.rect_emb_val t) (idx9 t))
    (bn_cover N_9 (fun t => win9_7.rect_emb_val t) (fun t a => (idx9 t a).1.2)
      (fun t => ((cfg9.win 7).blk t).view.emb_mem_set) flush9_7)

end Cert.KV

end
-- ==== Proof.RegBn10.lean ====
import proofs.«102128_j53085795779156_1_alg».proof.Proof.Gen.KernelIdeal.Frame
import proofs.«102128_j53085795779156_1_alg».proof.Proof.RegBn

noncomputable section

namespace Cert.KV

open Idealize.ShloMosaic Idealize.ShloMosaic.TcCoe Cert.KernelIdeal Cert.KernelIdeal.Gen

variable (V : (c : Dev nD) → (b : Ref sig .tc) → Buf (Elt Ideal) ((c : Thread nD τ).loc b))

/-- The block indices over the grid: the input and the output move down one block of rows per point, the rest stay whole. -/
theorem idx10 : ∀ (t : Fin cfg10.N) (a : Fin 2), (win10_0.index t a = ![t.val, 0] a ∧ win10_7.index t a = ![t.val, 0] a)
    ∧ win10_1.index t a = 0 ∧ win10_2.index t a = 0 ∧ win10_3.index t a = 0 ∧ win10_4.index t a = 0
    ∧ win10_5.index t a = 0 ∧ win10_6.index t a = 0 :=
  (by decide +kernel : ∀ (t : Fin grid10.N) (a : Fin 2), _)

theorem final10 (c : Dev nD) :
    (dat10 (F := Ideal) V c).arrAt 7 cfg10.N
      = Cert.Spec.bnLinArr (V c (Pipeline.arrRef spec10 0)) (Cert.Spec.rowOf (V c (Pipeline.arrRef spec10 1))) (Cert.Spec.rowOf (V c (Pipeline.arrRef spec10 2))) (Cert.Spec.rowOf (V c (Pipeline.arrRef spec10 3))) (Cert.Spec.rowOf (V c (Pipeline.arrRef spec10 4))) (V c (Pipeline.arrRef spec10 5)) (Cert.Spec.rowOf (V c (Pipeline.arrRef spec10 6))) :=
  (dat10 (F := Ideal) V c).arrAt_eq_of_cover 7 _
    (fun t _ => (after10_7 V c t).trans <| bn_flushed k10_pay1_eq (V c (Pipeline.arrRef spec10 0)) (V c (Pipeline.arrRef spec10 1)) (V c (Pipeline.arrRef spec10 2)) (V c (Pipeline.arrRef spec10 3)) (V c (Pipeline.arrRef spec10 4)) (V c (Pipeline.arrRef spec10 5)) (V c (Pipeline.arrRef spec10 6))
        (win10_0.rect_emb_val t) (win10_1.rect_emb_val t) (win10_2.rect_emb_val t)
        (win10_3.rect_emb_val t) (win10_4.rect_emb_val t) (win10_5.rect_emb_val t) (win10_6.rect_emb_val t)
        (win10_7.rect_emb_val t) (idx10 t))
    (bn_cover N_10 (fun t => win10_7.rect_emb_val t) (fun t a => (idx10 t a).1.2)
      (fun t => ((cfg10.win 7).blk t).view.emb_mem_set) flush10_7)

end Cert.KV

end
-- ==== Proof.KBranchB.lean ====
import proofs.«102128_j53085795779156_1_alg».proof.Proof.Gen.KernelIdeal.Frame
import proofs.«102128_j53085795779156_1_alg».proof.Proof.Spec
import proofs.«102128_j53085795779156_1_alg».proof.Proof.Model
import proofs.«102128_j53085795779156_1_alg».proof.Proof.Carry
import proofs.«102128_j53085795779156_1_alg».proof.Proof.KArgs
import proofs.«102128_j53085795779156_1_alg».proof.Proof.KBranch
import proofs.«102128_j53085795779156_1_alg».proof.Proof.RegLin8
import proofs.«102128_j53085795779156_1_alg».proof.Proof.RegBn9
import proofs.«102128_j53085795779156_1_alg».proof.Proof.RegBn10

noncomputable section

namespace Cert.KV

open Idealize.ShloMosaic Idealize.ShloMosaic.ValueIdx Idealize.ShloMosaic.TcCoe Idealize.SL.Sem Cert.KernelIdeal Cert.KernelIdeal.Gen

variable (m : (ℓ : Loc nD τ sig) → Buf (Elt Ideal) ℓ) (ρ : Dev nD → PrngReg) (c : Dev nD)

theorem brB_bias1 :
    W23 m ρ c (Proc.devRef .tc main_v120) = shapeCast S1x256 (argsK m c).b1b shapeCasts_S256_S1x256 := by
  show StableHlo.after hostOps8 (W22 m ρ c) _ = _
  dsimp only [hostOps8]
  after_results_simp
  exact congrArg (shapeCast S1x256 · shapeCasts_S256_S1x256) (carry m ρ c 22 0 main_arg25 (by decide))

section Stage2
variable (L : FVec Ideal S40000x256 .f32) (hL : W24 m ρ c (Proc.devRef .tc main_v121) = L)
include hL

theorem brB_mean2 :
    W25 m ρ c (Proc.devRef .tc main_v132) = shapeCast S1x256 (Cert.Model.meanH L) shapeCasts_S256_S1x256 := by
  show StableHlo.after hostOps9 (W24 m ρ c) _ = _
  dsimp only [hostOps9]
  after_results_simp
  rw [hL, br_meanK_eq L]
  rfl

theorem brB_var2 :
    W25 m ρ c (Proc.devRef .tc main_v133) = shapeCast S1x256 (Cert.Model.varH L) shapeCasts_S256_S1x256 := by
  show StableHlo.after hostOps9 (W24 m ρ c) _ = _
  dsimp only [hostOps9]
  after_results_simp
  rw [hL, br_meanK_eq L, br_varK_eq L]
  rfl

omit hL in
theorem brB_scale2 :
    W25 m ρ c (Proc.devRef .tc main_v134) = shapeCast S1x256 (argsK m c).g1b shapeCasts_S256_S1x256 := by
  show StableHlo.after hostOps9 (W24 m ρ c) _ = _
  dsimp only [hostOps9]
  after_results_simp
  exact congrArg (shapeCast S1x256 · shapeCasts_S256_S1x256) (carry m ρ c 24 0 main_arg26 (by decide))

omit hL in
theorem brB_shift2 :
    W25 m ρ c (Proc.devRef .tc main_v135) = shapeCast S1x256 (argsK m c).c1b shapeCasts_S256_S1x256 := by
  show StableHlo.after hostOps9 (W24 m ρ c) _ = _
  dsimp only [hostOps9]
  after_results_simp
  exact congrArg (shapeCast S1x256 · shapeCasts_S256_S1x256) (carry m ρ c 24 0 main_arg27 (by decide))

omit hL in
theorem brB_bias2 :
    W25 m ρ c (Proc.devRef .tc main_v136) = shapeCast S1x256 (argsK m c).b2b shapeCasts_S256_S1x256 := by
  show StableHlo.after hostOps9 (W24 m ρ c) _ = _
  dsimp only [hostOps9]
  after_results_simp
  exact congrArg (shapeCast S1x256 · shapeCasts_S256_S1x256) (carry m ρ c 24 0 main_arg29 (by decide))

end Stage2

section Stage3
variable (L : FVec Ideal S40000x256 .f32) (hL : W26 m ρ c (Proc.devRef .tc main_v137) = L)
include hL

theorem brB_mean3 :
    W27 m ρ c (Proc.devRef .tc main_v149) = shapeCast S1x256 (Cert.Model.meanH L) shapeCasts_S256_S1x256 := by
  show StableHlo.after hostOps10 (W26 m ρ c) _ = _
  dsimp only [hostOps10]
  after_results_simp
  rw [hL, br_meanK_eq L]
  rfl

theorem brB_var3 :
    W27 m ρ c (Proc.devRef .tc main_v150) = shapeCast S1x256 (Cert.Model.varH L) shapeCasts_S256_S1x256 := by
  show StableHlo.after hostOps10 (W26 m ρ c) _ = _
  dsimp only [hostOps10]
  after_results_simp
  rw [hL, br_meanK_eq L, br_varK_eq L]
  rfl

omit hL in
theorem brB_scale3 :
    W27 m ρ c (Proc.devRef .tc main_v151) = shapeCast S1x256 (argsK m c).g2b shapeCasts_S256_S1x256 := by
  show StableHlo.after hostOps10 (W26 m ρ c) _ = _
  dsimp only [hostOps10]
  after_results_simp
  exact congrArg (shapeCast S1x256 · shapeCasts_S256_S1x256) (carry m ρ c 26 0 main_arg30 (by decide))

omit hL in
theorem brB_shift3 :
    W27 m ρ c (Proc.devRef .tc main_v152) = shapeCast S1x256 (argsK m c).c2b shapeCasts_S256_S1x256 := by
  show StableHlo.after hostOps10 (W26 m ρ c) _ = _
  dsimp only [hostOps10]
  after_results_simp
  exact congrArg (shapeCast S1x256 · shapeCasts_S256_S1x256) (carry m ρ c 26 0 main_arg31 (by decide))

omit hL in
theorem brB_zero3 : W27 m ρ c (Proc.devRef .tc main_v153) = zrowK := by
  show StableHlo.after hostOps10 (W26 m ρ c) _ = _
  dsimp only [hostOps10]
  after_results_simp
  rfl

end Stage3

set_option maxHeartbeats 2000000 in
theorem k_branchB (H0 : FVec Ideal Cert.Model.SN .f32) (h0 : W11 m ρ c (Proc.devRef .tc main_v46) = H0)
    (hw : W11 m ρ c (Proc.devRef .tc main_v49) = Cert.Model.third2 (argsK m c).Wc) :
    W28 m ρ c (Proc.devRef .tc main_v154)
      = Cert.Spec.bnLinArr
          (Cert.Model.layer2 (Cert.Spec.linArr H0 (argsK m c).W1b (argsK m c).b1b) (argsK m c).g1b (argsK m c).c1b
            (argsK m c).W2b (argsK m c).b2b)
          (Cert.Model.meanH (Cert.Model.layer2 (Cert.Spec.linArr H0 (argsK m c).W1b (argsK m c).b1b) (argsK m c).g1b
            (argsK m c).c1b (argsK m c).W2b (argsK m c).b2b))
          (Cert.Model.varH (Cert.Model.layer2 (Cert.Spec.linArr H0 (argsK m c).W1b (argsK m c).b1b) (argsK m c).g1b
            (argsK m c).c1b (argsK m c).W2b (argsK m c).b2b))
          (argsK m c).g2b (argsK m c).c2b (Cert.Model.third2 (argsK m c).Wc) (Cert.Spec.rowOf zrowK) :=
  branch
    ((W24_arr m ρ c 3).trans (final8 (V23 m ρ) c)) ((carry m ρ c 23 11 main_v46 (by decide)).trans h0)
    (carry m ρ c 23 0 main_arg24 (by decide)) (brB_bias1 m ρ c) ((W26_arr m ρ c 7).trans (final9 (V25 m ρ) c))
    (carry m ρ c 25 24 main_v121 (by decide)) (brB_mean2 m ρ c) (brB_var2 m ρ c) (brB_scale2 m ρ c) (brB_shift2 m ρ c)
    (carry m ρ c 25 0 main_arg28 (by decide)) (brB_bias2 m ρ c) ((W28_arr m ρ c 7).trans (final10 (V27 m ρ) c))
    (carry m ρ c 27 26 main_v137 (by decide)) (brB_mean3 m ρ c) (brB_var3 m ρ c) (brB_scale3 m ρ c) (brB_shift3 m ρ c)
    ((carry m ρ c 27 11 main_v49 (by decide)).trans hw) (brB_zero3 m ρ c)

end Cert.KV

end
-- ==== Proof.KTail.lean ====
import proofs.«102128_j53085795779156_1_alg».proof.Proof.Gen.KernelIdeal.Frame
import proofs.«102128_j53085795779156_1_alg».proof.Proof.Model
import proofs.«102128_j53085795779156_1_alg».proof.Proof.KArgs
import proofs.«102128_j53085795779156_1_alg».proof.Proof.Carry
import proofs.«102128_j53085795779156_1_alg».proof.Proof.Combine
import proofs.«102128_j53085795779156_1_alg».proof.Proof.HostForms

noncomputable section

namespace Cert.KV

open Idealize.ShloMosaic Idealize.ShloMosaic.ValueIdx Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-- The last stretch adds the three branches' contributions and the bias, normalises over the rows and rectifies. -/
theorem k_tail (CU CD CB : FVec Ideal Cert.Model.SN .f32)
    (hu : W28 m ρ c (Proc.devRef .tc main_v84) = CU) (hd : W28 m ρ c (Proc.devRef .tc main_v119) = CD)
    (hb : W28 m ρ c (Proc.devRef .tc main_v154) = CB) :
    W29 m ρ c (Proc.devRef .tc main_v186)
      = Cert.Spec.bnArr (addf (addf (addf CU CD) CB) (Cert.Model.over (argsK m c).bc))
          (Cert.Model.meanH (addf (addf (addf CU CD) CB) (Cert.Model.over (argsK m c).bc)))
          (Cert.Model.varH (addf (addf (addf CU CD) CB) (Cert.Model.over (argsK m c).bc)))
          (argsK m c).gc (argsK m c).cc := by
  dsimp only [W29, hostOps11]
  after_results_simp
  rw [hu, hd, hb, carry_main_arg33_28, carry_main_arg34_28, carry_main_arg35_28]
  exact Cert.HostForms.host_bn_eq _ _ _ _ _ _ _ _ _

/-- The three block products under a zero bias, added up with the bias, are the product over the 768 joined columns. -/
theorem pre_eq (a : Cert.Model.Args) :
    addf (addf (addf
        (Cert.Spec.bnLinArr (Cert.Model.l2U a) (Cert.Model.meanH (Cert.Model.l2U a)) (Cert.Model.varH (Cert.Model.l2U a)) a.g2u a.c2u (Cert.Model.third0 a.Wc) (Cert.Spec.rowOf zrowK))
        (Cert.Spec.bnLinArr (Cert.Model.l2D a) (Cert.Model.meanH (Cert.Model.l2D a)) (Cert.Model.varH (Cert.Model.l2D a)) a.g2d a.c2d (Cert.Model.third1 a.Wc) (Cert.Spec.rowOf zrowK)))
        (Cert.Spec.bnLinArr (Cert.Model.l2B a) (Cert.Model.meanH (Cert.Model.l2B a)) (Cert.Model.varH (Cert.Model.l2B a)) a.g2b a.c2b (Cert.Model.third2 a.Wc) (Cert.Spec.rowOf zrowK)))
      (Cert.Model.over a.bc)
    = Cert.Model.pre a := by
  funext i
  obtain ⟨r, q, rfl⟩ : ∃ (r : Fin 40000) (q : Fin 256), i = ix2 r q := ⟨i 0, i 1, eq_ix2 i⟩
  exact Cert.Combine.ker_combine_apply Cert.Model.sl768a Cert.Model.sl768b Cert.Model.sl768c Cert.Model.bR1 Cert.Model.b1N
    _ _ _ _ _ _ _ _ _ _ _ _ _ _ _ a.Wc zrowK zrowK_zero a.bc r q

end Cert.KV

end
-- ==== Proof.PreRange.lean ====
import proofs.«102128_j53085795779156_1_alg».proof.Defs
import proofs.«102128_j53085795779156_1_alg».proof.Proof.Gen.Pre_finite_inputs
import Idealize.ShloMosaic.Lib.ReduceAll

namespace Cert.Take

open Idealize.ShloMosaic Idealize.SL.Sem Cert.Pre_finite_inputs
open Cert.KernelIdeal (nD τ sig main_arg39 main_arg40 main_arg41)

instance : Subsingleton S_.Idx := ⟨fun a _ => funext fun d => d.elim0⟩

/-- `all (x ≥ lo)` and `all (x < hi)`, both the bit 1, bound every element of `x` read signed (`l`, `h` the constants' signed values). -/
theorem all_range {n : Nat} {x : IVec ⟨1, ![n]⟩ 32} {hb : S_.BroadcastsInDim ⟨1, ![n]⟩ ![]} {lo hi : BitVec 32}
    {hr : (⟨1, ![n]⟩ : Shape).ReducesTo [0] S_} {hu : 0 < S_.numel} {i : S_.Idx} (l h : Int) (hl : lo.toInt = l) (hh : hi.toInt = h)
    (h1 : Host.reduce IntOp.andi (cmpi .sge x (broadcastInDim ⟨1, ![n]⟩ ![] hb (constantI S_ 32 lo))) (constantI S_ 1 1#1) hr hu i = 1#1)
    (h2 : Host.reduce IntOp.andi (cmpi .slt x (broadcastInDim ⟨1, ![n]⟩ ![] hb (constantI S_ 32 hi))) (constantI S_ 1 1#1) hr hu i = 1#1)
    (j : (⟨1, ![n]⟩ : Shape).Idx) : l ≤ (x j).toInt ∧ (x j).toInt < h :=
  ⟨hl ▸ IntOp.cmpi_sge.1 (Host.reduce_andi_all _ _ hr hu i h1 j), hh ▸ IntOp.cmpi_slt.1 (Host.reduce_andi_all _ _ hr hu i h2 j)⟩

variable [Cert.Pre_finite_inputs.Facts]

/-- The first row of an index table, as a vector. -/
abbrev row0_200000 (a : IVec S2x200000 32) : IVec S200000 32 :=
  shapeCast S200000 ((extractStridedSlice S1x200000 ![0, 0] · Facts.slices_S2x200000_S1x200000_0_0) a)
    Facts.shapeCasts_S1x200000_S200000

abbrev row0_120000 (a : IVec S2x120000 32) : IVec S120000 32 :=
  shapeCast S120000 ((extractStridedSlice S1x120000 ![0, 0] · Facts.slices_S2x120000_S1x120000_0_0) a)
    Facts.shapeCasts_S1x120000_S120000

/-- The precondition's last six conjuncts say, per index table, that every source row number lies in `[-n, n)`. -/
theorem ranges_of_pre (m : (ℓ : Loc nD τ sig) → Buf (Elt Ideal) ℓ) (h : Cert.Pre_KernelIdeal m) (c : Dev nD) :
    (∀ j, (-40000 : Int) ≤ (row0_200000 (m ((c.tc : Thread nD τ).loc main_arg39)) j).toInt ∧
        (row0_200000 (m ((c.tc : Thread nD τ).loc main_arg39)) j).toInt < 40000) ∧
    (∀ j, (-40000 : Int) ≤ (row0_200000 (m ((c.tc : Thread nD τ).loc main_arg40)) j).toInt ∧
        (row0_200000 (m ((c.tc : Thread nD τ).loc main_arg40)) j).toInt < 40000) ∧
    (∀ j, (-60000 : Int) ≤ (row0_120000 (m ((c.tc : Thread nD τ).loc main_arg41)) j).toInt ∧
        (row0_120000 (m ((c.tc : Thread nD τ).loc main_arg41)) j).toInt < 60000) := by
  have h0 : fn_part11 (F := Ideal) _ _ _ _ _ _ (fun a => a.elim0) = 1#1 := congrFun (h c) _
  obtain ⟨h1, l41⟩ := IntOp.andi_eq_one.1 h0
  obtain ⟨h2, g41⟩ := IntOp.andi_eq_one.1 h1
  obtain ⟨h3, l40⟩ := IntOp.andi_eq_one.1 h2
  obtain ⟨h4, g40⟩ := IntOp.andi_eq_one.1 h3
  obtain ⟨h5, l39⟩ := IntOp.andi_eq_one.1 h4
  obtain ⟨_, g39⟩ := IntOp.andi_eq_one.1 h5
  exact ⟨all_range _ _ (by decide) (by decide) g39 l39, all_range _ _ (by decide) (by decide) g40 l40,
    all_range _ _ (by decide) (by decide) g41 l41⟩

end Cert.Take
-- ==== Proof.KValue.lean ====
import proofs.«102128_j53085795779156_1_alg».proof.Proof.Gen.KernelIdeal.Frame
import proofs.«102128_j53085795779156_1_alg».proof.Proof.Model
import proofs.«102128_j53085795779156_1_alg».proof.Proof.KArgs
import proofs.«102128_j53085795779156_1_alg».proof.Proof.Carry
import proofs.«102128_j53085795779156_1_alg».proof.Proof.KPre
import proofs.«102128_j53085795779156_1_alg».proof.Proof.KMid
import proofs.«102128_j53085795779156_1_alg».proof.Proof.KBranchU
import proofs.«102128_j53085795779156_1_alg».proof.Proof.KBranchD
import proofs.«102128_j53085795779156_1_alg».proof.Proof.KBranchB
import proofs.«102128_j53085795779156_1_alg».proof.Proof.KTail
import proofs.«102128_j53085795779156_1_alg».proof.Proof.PreRange

noncomputable section

namespace Cert.KV

open Idealize.ShloMosaic Idealize.ShloMosaic.ValueIdx Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-- Under the precondition the result buffer holds the network's value: the stretches' values put end to end. -/
theorem k_value (hpre : Cert.Pre_KernelIdeal m) :
    W29 m ρ c (Proc.devRef .tc main_v186) = Cert.Model.out (argsK m c) := by
  obtain ⟨rU, rD, rB⟩ := Cert.Take.ranges_of_pre m hpre c
  have xU := k_xU m ρ c rU
  have xD := k_xD m ρ c rD
  have xB := k_xB m ρ c rB
  have mU := k_msgU m ρ c _ xU
  have mD := k_msgD m ρ c _ xD
  obtain ⟨h0U, h0D, h0B, w0, w1, w2, b1⟩ :=
    k_mid m ρ c _ _ _ ((carry_main_v12_10_8 m ρ c).trans mU) mD ((carry_main_v8_10_6 m ρ c).trans xB)
  have cU := k_branchU m ρ c _ h0U w0 b1
  have cD := k_branchD m ρ c _ h0D w1
  have cB := k_branchB m ρ c _ h0B w2
  have t := k_tail m ρ c _ _ _ ((carry_main_v84_28_16 m ρ c).trans cU) ((carry_main_v119_28_22 m ρ c).trans cD) cB
  rw [t]
  have hp := pre_eq (argsK m c)
  unfold Cert.Model.out
  rw [← hp]
  rfl

end Cert.KV

end
-- ==== Proof.RefOps.lean ====
import proofs.«102128_j53085795779156_1_alg».proof.Proof.Gen.ReferenceIdeal
import Idealize.ShloMosaic.Lib.StableHlo.Run

noncomputable section

namespace Cert.RV

open Cert.ReferenceIdeal Cert.ReferenceIdeal.Gen Idealize.ShloMosaic Idealize.ShloMosaic.TcCoe Idealize.SL.Sem Idealize.ShloMosaic.StableHlo

variable {F : FTy → Type} [FloatOps F]

/-- A vector of 256 entries as one row. -/
abbrev row {α : Type} : (S256.Idx → α) → S1x256.Idx → α := broadcastInDim S1x256 ![1] bcast_S256_S1x256_1

/-- One row laid out over the 40000 nodes. -/
abbrev overN {α : Type} : (S1x256.Idx → α) → S40000x256.Idx → α := broadcastInDim S40000x256 ![0, 1] bcast_S1x256_S40000x256_0_1

/-- One word laid out over 256 entries. -/
abbrev all256 {α : Type} : (S_.Idx → α) → S256.Idx → α := broadcastInDim S256 ![] bcast_S_S256

/-- The column sums over the 40000 nodes, from the word v. -/
abbrev colSum (x : FVec F S40000x256 .f32) (v : FVec F S_ .f32) : FVec F S256 .f32 :=
  Host.reduceAdd x v reducesTo_S40000x256_S256_d0 h_S_

/-- The product of a node array with a 256 by 256 weight. -/
abbrev dense (l : FVec F S40000x256 .f32) (r : FVec F S256x256 .f32) : FVec F S40000x256 .f32 :=
  Host.dotGeneral dot_S40000x256_S256x256_S40000x256_1_0_0_1_n_n none l r

abbrev rp0 : List (HloOp τ sig (Elt F)) :=
  [ unary main_arg39 main_v0 (extractStridedSlice S1x200000 ![0, 0] · slices_S2x200000_S1x200000_0_0),
    reshape main_v0 main_v1 rfl shapeCasts_S1x200000_S200000,
    nullary main_c (constantI S_ 32 0#32),
    unary main_c main_v2 (broadcastInDim S200000 ![] bcast_S_S200000),
    binary main_v1 main_v2 main_v3 (cmpi .slt),
    nullary main_c_0 (constantI S_ 32 40000#32),
    unary main_c_0 main_v4 (broadcastInDim S200000 ![] bcast_S_S200000),
    binary main_v1 main_v4 main_v5 addi,
    ternary main_v3 main_v5 main_v1 main_v6 select,
    unary main_v6 main_v7 (broadcastInDim S200000x1 ![0] bcast_S200000_S200000x1_0),
    binary main_arg0 main_v7 main_v8 (fun x i => Host.gather gather_S40000x256_S200000x1_S200000x256_1_0_n_n_0_1_1256 x i),
    unary main_arg4 main_v9 (extractStridedSlice S256x256 ![0, 0] · slices_S512x256_S256x256_0_0),
    binary main_v8 main_v9 main_v10 (fun l r => Host.dotGeneral dot_S200000x256_S256x256_S200000x256_1_0_0_1_n_n none l r),
    unary main_arg4 main_v11 (extractStridedSlice S256x256 ![256, 0] · slices_S512x256_S256x256_256_0),
    binary main_arg1 main_v11 main_v12 (fun l r => Host.dotGeneral dot_S200000x256_S256x256_S200000x256_1_0_0_1_n_n none l r),
    binary main_v10 main_v12 main_v13 addf,
    unary main_arg5 main_v14 row,
    unary main_v14 main_v15 (broadcastInDim S200000x256 ![0, 1] bcast_S1x256_S200000x256_0_1),
    binary main_v13 main_v15 main_v16 addf,
    nullary main_call0_cst (constant S_ .f32 0x00000000#32),
    unary main_call0_cst main_call0_v0 (broadcastInDim S200000x256 ![] bcast_S_S200000x256),
    binary main_v16 main_call0_v0 main_v17 maximumf,
    unary main_arg39 main_v18 (extractStridedSlice S1x200000 ![1, 0] · slices_S2x200000_S1x200000_1_0),
    reshape main_v18 main_v19 rfl shapeCasts_S1x200000_S200000,
    nullary main_cst (constant S_ .f32 0x00000000#32),
    unary main_cst main_v20 (broadcastInDim S40000x256 ![] bcast_S_S40000x256),
    unary main_v19 main_v21 (broadcastInDim S200000x1 ![0] bcast_S200000_S200000x1_0),
    ternary main_v20 main_v21 main_v17 main_v22 (fun x i u => Host.scatterAdd scatter_S40000x256_S200000x1_S200000x256_1_0_0_1 x i u) ]

abbrev rp0_W : List (Ref sig .tc) :=
  [main_v0, main_v1, main_c, main_v2, main_v3, main_c_0, main_v4, main_v5, main_v6, main_v7, main_v8, main_v9, main_v10, main_v11, main_v12, main_v13, main_v14, main_v15, main_v16, main_call0_cst, main_call0_v0, main_v17, main_v18, main_v19, main_cst, main_v20, main_v21, main_v22]

abbrev rp1 : List (HloOp τ sig (Elt F)) :=
  [ unary main_arg40 main_v23 (extractStridedSlice S1x200000 ![0, 0] · slices_S2x200000_S1x200000_0_0),
    reshape main_v23 main_v24 rfl shapeCasts_S1x200000_S200000,
    nullary main_c_1 (constantI S_ 32 0#32),
    unary main_c_1 main_v25 (broadcastInDim S200000 ![] bcast_S_S200000),
    binary main_v24 main_v25 main_v26 (cmpi .slt),
    nullary main_c_2 (constantI S_ 32 40000#32),
    unary main_c_2 main_v27 (broadcastInDim S200000 ![] bcast_S_S200000),
    binary main_v24 main_v27 main_v28 addi,
    ternary main_v26 main_v28 main_v24 main_v29 select,
    unary main_v29 main_v30 (broadcastInDim S200000x1 ![0] bcast_S200000_S200000x1_0),
    binary main_arg0 main_v30 main_v31 (fun x i => Host.gather gather_S40000x256_S200000x1_S200000x256_1_0_n_n_0_1_1256 x i),
    unary main_arg6 main_v32 (extractStridedSlice S256x256 ![0, 0] · slices_S512x256_S256x256_0_0),
    binary main_v31 main_v32 main_v33 (fun l r => Host.dotGeneral dot_S200000x256_S256x256_S200000x256_1_0_0_1_n_n none l r),
    unary main_arg6 main_v34 (extractStridedSlice S256x256 ![256, 0] · slices_S512x256_S256x256_256_0),
    binary main_arg2 main_v34 main_v35 (fun l r => Host.dotGeneral dot_S200000x256_S256x256_S200000x256_1_0_0_1_n_n none l r),
    binary main_v33 main_v35 main_v36 addf,
    unary main_arg7 main_v37 row,
    unary main_v37 main_v38 (broadcastInDim S200000x256 ![0, 1] bcast_S1x256_S200000x256_0_1),
    binary main_v36 main_v38 main_v39 addf,
    nullary main_call1_cst (constant S_ .f32 0x00000000#32),
    unary main_call1_cst main_call1_v0 (broadcastInDim S200000x256 ![] bcast_S_S200000x256),
    binary main_v39 main_call1_v0 main_v40 maximumf,
    unary main_arg40 main_v41 (extractStridedSlice S1x200000 ![1, 0] · slices_S2x200000_S1x200000_1_0),
    reshape main_v41 main_v42 rfl shapeCasts_S1x200000_S200000,
    nullary main_cst_3 (constant S_ .f32 0x00000000#32),
    unary main_cst_3 main_v43 (broadcastInDim S40000x256 ![] bcast_S_S40000x256),
    unary main_v42 main_v44 (broadcastInDim S200000x1 ![0] bcast_S200000_S200000x1_0),
    ternary main_v43 main_v44 main_v40 main_v45 (fun x i u => Host.scatterAdd scatter_S40000x256_S200000x1_S200000x256_1_0_0_1 x i u) ]

abbrev rp1_W : List (Ref sig .tc) :=
  [main_v23, main_v24, main_c_1, main_v25, main_v26, main_c_2, main_v27, main_v28, main_v29, main_v30, main_v31, main_v32, main_v33, main_v34, main_v35, main_v36, main_v37, main_v38, main_v39, main_call1_cst, main_call1_v0, main_v40, main_v41, main_v42, main_cst_3, main_v43, main_v44, main_v45]

abbrev rp2 : List (HloOp τ sig (Elt F)) :=
  [ unary main_arg41 main_v46 (extractStridedSlice S1x120000 ![0, 0] · slices_S2x120000_S1x120000_0_0),
    reshape main_v46 main_v47 rfl shapeCasts_S1x120000_S120000,
    nullary main_c_4 (constantI S_ 32 0#32),
    unary main_c_4 main_v48 (broadcastInDim S120000 ![] bcast_S_S120000),
    binary main_v47 main_v48 main_v49 (cmpi .slt),
    nullary main_c_5 (constantI S_ 32 60000#32),
    unary main_c_5 main_v50 (broadcastInDim S120000 ![] bcast_S_S120000),
    binary main_v47 main_v50 main_v51 addi ]

abbrev rp2_W : List (Ref sig .tc) :=
  [main_v46, main_v47, main_c_4, main_v48, main_v49, main_c_5, main_v50, main_v51]

abbrev rp3 : List (HloOp τ sig (Elt F)) :=
  [ ternary main_v49 main_v51 main_v47 main_v52 select,
    unary main_v52 main_v53 (broadcastInDim S120000x1 ![0] bcast_S120000_S120000x1_0),
    binary main_arg3 main_v53 main_v54 (fun x i => Host.gather gather_S60000x256_S120000x1_S120000x256_1_0_n_n_0_1_1256 x i),
    unary main_arg41 main_v55 (extractStridedSlice S1x120000 ![1, 0] · slices_S2x120000_S1x120000_1_0),
    reshape main_v55 main_v56 rfl shapeCasts_S1x120000_S120000,
    nullary main_cst_6 (constant S_ .f32 0x00000000#32),
    unary main_cst_6 main_v57 (broadcastInDim S40000x256 ![] bcast_S_S40000x256),
    unary main_v56 main_v58 (broadcastInDim S120000x1 ![0] bcast_S120000_S120000x1_0),
    ternary main_v57 main_v58 main_v54 main_v59 (fun x i u => Host.scatterAdd scatter_S40000x256_S120000x1_S120000x256_1_0_0_1 x i u) ]

abbrev rp3_W : List (Ref sig .tc) :=
  [main_v52, main_v53, main_v54, main_v55, main_v56, main_cst_6, main_v57, main_v58, main_v59]

abbrev rp4 : List (HloOp τ sig (Elt F)) :=
  [ nullary main_cst_7 (constant S_ .f32 0x3F800000#32),
    unary main_cst_7 main_v60 (broadcastInDim S1 ![] bcast_S_S1),
    binary main_v60 main_arg36 main_v61 addf,
    unary main_v61 main_v62 (broadcastInDim S1x1 ![1] bcast_S1_S1x1_1),
    unary main_v62 main_v63 (broadcastInDim S40000x256 ![0, 1] bcast_S1x1_S40000x256_0_1),
    binary main_v63 main_arg0 main_v64 mulf,
    binary main_v22 main_v64 main_v65 addf,
    binary main_v65 main_arg8 main_v66 dense,
    unary main_arg9 main_v67 row,
    unary main_v67 main_v68 overN,
    binary main_v66 main_v68 main_v69 addf,
    nullary main_cst_8 (constant S_ .f32 0x00000000#32),
    binary main_v69 main_cst_8 main_v70 colSum,
    nullary main_cst_9 (constant S_ .f32 0x471C4000#32),
    unary main_cst_9 main_v71 all256,
    binary main_v70 main_v71 main_v72 Host.divf,
    unary main_v72 main_v73 row,
    unary main_v73 main_v74 overN,
    binary main_v69 main_v74 main_v75 subf,
    binary main_v75 main_v75 main_v76 mulf,
    nullary main_cst_10 (constant S_ .f32 0x00000000#32),
    binary main_v76 main_cst_10 main_v77 colSum,
    nullary main_cst_11 (constant S_ .f32 0x471C4000#32),
    unary main_cst_11 main_v78 all256,
    binary main_v77 main_v78 main_v79 Host.divf,
    unary main_v72 main_v80 row,
    unary main_v80 main_v81 overN,
    binary main_v69 main_v81 main_v82 subf,
    unary main_arg10 main_v83 row,
    unary main_v83 main_v84 overN,
    binary main_v84 main_v82 main_v85 mulf,
    nullary main_cst_12 (constant S_ .f32 0x3727C5AC#32),
    unary main_cst_12 main_v86 all256,
    binary main_v79 main_v86 main_v87 addf,
    unary main_v87 main_v88 Host.rsqrt,
    unary main_v88 main_v89 row,
    unary main_v89 main_v90 overN,
    binary main_v85 main_v90 main_v91 mulf,
    unary main_arg11 main_v92 row,
    unary main_v92 main_v93 overN,
    binary main_v91 main_v93 main_v94 addf,
    nullary main_call2_cst (constant S_ .f32 0x00000000#32),
    unary main_call2_cst main_call2_v0 (broadcastInDim S40000x256 ![] bcast_S_S40000x256),
    binary main_v94 main_call2_v0 main_v95 maximumf ]

abbrev rp4_W : List (Ref sig .tc) :=
  [main_cst_7, main_v60, main_v61, main_v62, main_v63, main_v64, main_v65, main_v66, main_v67, main_v68, main_v69, main_cst_8, main_v70, main_cst_9, main_v71, main_v72, main_v73, main_v74, main_v75, main_v76, main_cst_10, main_v77, main_cst_11, main_v78, main_v79, main_v80, main_v81, main_v82, main_v83, main_v84, main_v85, main_cst_12, main_v86, main_v87, main_v88, main_v89, main_v90, main_v91, main_v92, main_v93, main_v94, main_call2_cst, main_call2_v0, main_v95]

abbrev rp5 : List (HloOp τ sig (Elt F)) :=
  [ binary main_v95 main_arg12 main_v96 dense,
    unary main_arg13 main_v97 row,
    unary main_v97 main_v98 overN,
    binary main_v96 main_v98 main_v99 addf,
    nullary main_cst_13 (constant S_ .f32 0x00000000#32),
    binary main_v99 main_cst_13 main_v100 colSum,
    nullary main_cst_14 (constant S_ .f32 0x471C4000#32),
    unary main_cst_14 main_v101 all256,
    binary main_v100 main_v101 main_v102 Host.divf ]

abbrev rp5_W : List (Ref sig .tc) :=
  [main_v96, main_v97, main_v98, main_v99, main_cst_13, main_v100, main_cst_14, main_v101, main_v102]

abbrev rp6 : List (HloOp τ sig (Elt F)) :=
  [ unary main_v102 main_v103 row,
    unary main_v103 main_v104 overN,
    binary main_v99 main_v104 main_v105 subf,
    binary main_v105 main_v105 main_v106 mulf,
    nullary main_cst_15 (constant S_ .f32 0x00000000#32),
    binary main_v106 main_cst_15 main_v107 colSum,
    nullary main_cst_16 (constant S_ .f32 0x471C4000#32),
    unary main_cst_16 main_v108 all256,
    binary main_v107 main_v108 main_v109 Host.divf,
    unary main_v102 main_v110 row,
    unary main_v110 main_v111 overN,
    binary main_v99 main_v111 main_v112 subf,
    unary main_arg14 main_v113 row,
    unary main_v113 main_v114 overN,
    binary main_v114 main_v112 main_v115 mulf,
    nullary main_cst_17 (constant S_ .f32 0x3727C5AC#32),
    unary main_cst_17 main_v116 all256,
    binary main_v109 main_v116 main_v117 addf,
    unary main_v117 main_v118 Host.rsqrt,
    unary main_v118 main_v119 row,
    unary main_v119 main_v120 overN,
    binary main_v115 main_v120 main_v121 mulf,
    unary main_arg15 main_v122 row,
    unary main_v122 main_v123 overN,
    binary main_v121 main_v123 main_v124 addf,
    nullary main_call3_cst (constant S_ .f32 0x00000000#32),
    unary main_call3_cst main_call3_v0 (broadcastInDim S40000x256 ![] bcast_S_S40000x256),
    binary main_v124 main_call3_v0 main_v125 maximumf ]

abbrev rp6_W : List (Ref sig .tc) :=
  [main_v103, main_v104, main_v105, main_v106, main_cst_15, main_v107, main_cst_16, main_v108, main_v109, main_v110, main_v111, main_v112, main_v113, main_v114, main_v115, main_cst_17, main_v116, main_v117, main_v118, main_v119, main_v120, main_v121, main_v122, main_v123, main_v124, main_call3_cst, main_call3_v0, main_v125]

abbrev rp7 : List (HloOp τ sig (Elt F)) :=
  [ nullary main_cst_18 (constant S_ .f32 0x3F800000#32),
    unary main_cst_18 main_v126 (broadcastInDim S1 ![] bcast_S_S1),
    binary main_v126 main_arg37 main_v127 addf,
    unary main_v127 main_v128 (broadcastInDim S1x1 ![1] bcast_S1_S1x1_1),
    unary main_v128 main_v129 (broadcastInDim S40000x256 ![0, 1] bcast_S1x1_S40000x256_0_1),
    binary main_v129 main_arg0 main_v130 mulf,
    binary main_v45 main_v130 main_v131 addf,
    binary main_v131 main_arg16 main_v132 dense,
    unary main_arg17 main_v133 row,
    unary main_v133 main_v134 overN,
    binary main_v132 main_v134 main_v135 addf,
    nullary main_cst_19 (constant S_ .f32 0x00000000#32),
    binary main_v135 main_cst_19 main_v136 colSum,
    nullary main_cst_20 (constant S_ .f32 0x471C4000#32),
    unary main_cst_20 main_v137 all256,
    binary main_v136 main_v137 main_v138 Host.divf,
    unary main_v138 main_v139 row,
    unary main_v139 main_v140 overN,
    binary main_v135 main_v140 main_v141 subf,
    binary main_v141 main_v141 main_v142 mulf,
    nullary main_cst_21 (constant S_ .f32 0x00000000#32),
    binary main_v142 main_cst_21 main_v143 colSum,
    nullary main_cst_22 (constant S_ .f32 0x471C4000#32),
    unary main_cst_22 main_v144 all256,
    binary main_v143 main_v144 main_v145 Host.divf,
    unary main_v138 main_v146 row,
    unary main_v146 main_v147 overN,
    binary main_v135 main_v147 main_v148 subf,
    unary main_arg18 main_v149 row,
    unary main_v149 main_v150 overN,
    binary main_v150 main_v148 main_v151 mulf,
    nullary main_cst_23 (constant S_ .f32 0x3727C5AC#32),
    unary main_cst_23 main_v152 all256,
    binary main_v145 main_v152 main_v153 addf ]

abbrev rp7_W : List (Ref sig .tc) :=
  [main_cst_18, main_v126, main_v127, main_v128, main_v129, main_v130, main_v131, main_v132, main_v133, main_v134, main_v135, main_cst_19, main_v136, main_cst_20, main_v137, main_v138, main_v139, main_v140, main_v141, main_v142, main_cst_21, main_v143, main_cst_22, main_v144, main_v145, main_v146, main_v147, main_v148, main_v149, main_v150, main_v151, main_cst_23, main_v152, main_v153]

abbrev rp8 : List (HloOp τ sig (Elt F)) :=
  [ unary main_v153 main_v154 Host.rsqrt,
    unary main_v154 main_v155 row,
    unary main_v155 main_v156 overN,
    binary main_v151 main_v156 main_v157 mulf,
    unary main_arg19 main_v158 row,
    unary main_v158 main_v159 overN,
    binary main_v157 main_v159 main_v160 addf,
    nullary main_call4_cst (constant S_ .f32 0x00000000#32),
    unary main_call4_cst main_call4_v0 (broadcastInDim S40000x256 ![] bcast_S_S40000x256),
    binary main_v160 main_call4_v0 main_v161 maximumf ]

abbrev rp8_W : List (Ref sig .tc) :=
  [main_v154, main_v155, main_v156, main_v157, main_v158, main_v159, main_v160, main_call4_cst, main_call4_v0, main_v161]

abbrev rp9 : List (HloOp τ sig (Elt F)) :=
  [ binary main_v161 main_arg20 main_v162 dense,
    unary main_arg21 main_v163 row,
    unary main_v163 main_v164 overN,
    binary main_v162 main_v164 main_v165 addf,
    nullary main_cst_24 (constant S_ .f32 0x00000000#32),
    binary main_v165 main_cst_24 main_v166 colSum,
    nullary main_cst_25 (constant S_ .f32 0x471C4000#32),
    unary main_cst_25 main_v167 all256,
    binary main_v166 main_v167 main_v168 Host.divf,
    unary main_v168 main_v169 row,
    unary main_v169 main_v170 overN,
    binary main_v165 main_v170 main_v171 subf,
    binary main_v171 main_v171 main_v172 mulf,
    nullary main_cst_26 (constant S_ .f32 0x00000000#32),
    binary main_v172 main_cst_26 main_v173 colSum,
    nullary main_cst_27 (constant S_ .f32 0x471C4000#32),
    unary main_cst_27 main_v174 all256,
    binary main_v173 main_v174 main_v175 Host.divf,
    unary main_v168 main_v176 row,
    unary main_v176 main_v177 overN,
    binary main_v165 main_v177 main_v178 subf,
    unary main_arg22 main_v179 row,
    unary main_v179 main_v180 overN,
    binary main_v180 main_v178 main_v181 mulf,
    nullary main_cst_28 (constant S_ .f32 0x3727C5AC#32),
    unary main_cst_28 main_v182 all256,
    binary main_v175 main_v182 main_v183 addf,
    unary main_v183 main_v184 Host.rsqrt,
    unary main_v184 main_v185 row,
    unary main_v185 main_v186 overN,
    binary main_v181 main_v186 main_v187 mulf,
    unary main_arg23 main_v188 row,
    unary main_v188 main_v189 overN,
    binary main_v187 main_v189 main_v190 addf,
    nullary main_call5_cst (constant S_ .f32 0x00000000#32),
    unary main_call5_cst main_call5_v0 (broadcastInDim S40000x256 ![] bcast_S_S40000x256),
    binary main_v190 main_call5_v0 main_v191 maximumf ]

abbrev rp9_W : List (Ref sig .tc) :=
  [main_v162, main_v163, main_v164, main_v165, main_cst_24, main_v166, main_cst_25, main_v167, main_v168, main_v169, main_v170, main_v171, main_v172, main_cst_26, main_v173, main_cst_27, main_v174, main_v175, main_v176, main_v177, main_v178, main_v179, main_v180, main_v181, main_cst_28, main_v182, main_v183, main_v184, main_v185, main_v186, main_v187, main_v188, main_v189, main_v190, main_call5_cst, main_call5_v0, main_v191]

abbrev rp10 : List (HloOp τ sig (Elt F)) :=
  [ nullary main_cst_29 (constant S_ .f32 0x3F800000#32),
    unary main_cst_29 main_v192 (broadcastInDim S1 ![] bcast_S_S1),
    binary main_v192 main_arg38 main_v193 addf,
    unary main_v193 main_v194 (broadcastInDim S1x1 ![1] bcast_S1_S1x1_1),
    unary main_v194 main_v195 (broadcastInDim S40000x256 ![0, 1] bcast_S1x1_S40000x256_0_1),
    binary main_v195 main_arg0 main_v196 mulf,
    binary main_v59 main_v196 main_v197 addf,
    binary main_v197 main_arg24 main_v198 dense,
    unary main_arg25 main_v199 row,
    unary main_v199 main_v200 overN,
    binary main_v198 main_v200 main_v201 addf,
    nullary main_cst_30 (constant S_ .f32 0x00000000#32),
    binary main_v201 main_cst_30 main_v202 colSum,
    nullary main_cst_31 (constant S_ .f32 0x471C4000#32),
    unary main_cst_31 main_v203 all256,
    binary main_v202 main_v203 main_v204 Host.divf,
    unary main_v204 main_v205 row ]

abbrev rp10_W : List (Ref sig .tc) :=
  [main_cst_29, main_v192, main_v193, main_v194, main_v195, main_v196, main_v197, main_v198, main_v199, main_v200, main_v201, main_cst_30, main_v202, main_cst_31, main_v203, main_v204, main_v205]

abbrev rp11 : List (HloOp τ sig (Elt F)) :=
  [ unary main_v205 main_v206 overN,
    binary main_v201 main_v206 main_v207 subf,
    binary main_v207 main_v207 main_v208 mulf,
    nullary main_cst_32 (constant S_ .f32 0x00000000#32),
    binary main_v208 main_cst_32 main_v209 colSum,
    nullary main_cst_33 (constant S_ .f32 0x471C4000#32),
    unary main_cst_33 main_v210 all256,
    binary main_v209 main_v210 main_v211 Host.divf,
    unary main_v204 main_v212 row,
    unary main_v212 main_v213 overN,
    binary main_v201 main_v213 main_v214 subf,
    unary main_arg26 main_v215 row,
    unary main_v215 main_v216 overN,
    binary main_v216 main_v214 main_v217 mulf,
    nullary main_cst_34 (constant S_ .f32 0x3727C5AC#32),
    unary main_cst_34 main_v218 all256,
    binary main_v211 main_v218 main_v219 addf,
    unary main_v219 main_v220 Host.rsqrt,
    unary main_v220 main_v221 row,
    unary main_v221 main_v222 overN,
    binary main_v217 main_v222 main_v223 mulf,
    unary main_arg27 main_v224 row,
    unary main_v224 main_v225 overN,
    binary main_v223 main_v225 main_v226 addf,
    nullary main_call6_cst (constant S_ .f32 0x00000000#32),
    unary main_call6_cst main_call6_v0 (broadcastInDim S40000x256 ![] bcast_S_S40000x256),
    binary main_v226 main_call6_v0 main_v227 maximumf ]

abbrev rp11_W : List (Ref sig .tc) :=
  [main_v206, main_v207, main_v208, main_cst_32, main_v209, main_cst_33, main_v210, main_v211, main_v212, main_v213, main_v214, main_v215, main_v216, main_v217, main_cst_34, main_v218, main_v219, main_v220, main_v221, main_v222, main_v223, main_v224, main_v225, main_v226, main_call6_cst, main_call6_v0, main_v227]

abbrev rp12 : List (HloOp τ sig (Elt F)) :=
  [ binary main_v227 main_arg28 main_v228 dense,
    unary main_arg29 main_v229 row,
    unary main_v229 main_v230 overN,
    binary main_v228 main_v230 main_v231 addf,
    nullary main_cst_35 (constant S_ .f32 0x00000000#32),
    binary main_v231 main_cst_35 main_v232 colSum,
    nullary main_cst_36 (constant S_ .f32 0x471C4000#32),
    unary main_cst_36 main_v233 all256,
    binary main_v232 main_v233 main_v234 Host.divf,
    unary main_v234 main_v235 row,
    unary main_v235 main_v236 overN,
    binary main_v231 main_v236 main_v237 subf,
    binary main_v237 main_v237 main_v238 mulf,
    nullary main_cst_37 (constant S_ .f32 0x00000000#32),
    binary main_v238 main_cst_37 main_v239 colSum,
    nullary main_cst_38 (constant S_ .f32 0x471C4000#32),
    unary main_cst_38 main_v240 all256,
    binary main_v239 main_v240 main_v241 Host.divf,
    unary main_v234 main_v242 row,
    unary main_v242 main_v243 overN,
    binary main_v231 main_v243 main_v244 subf,
    unary main_arg30 main_v245 row,
    unary main_v245 main_v246 overN,
    binary main_v246 main_v244 main_v247 mulf,
    nullary main_cst_39 (constant S_ .f32 0x3727C5AC#32),
    unary main_cst_39 main_v248 all256,
    binary main_v241 main_v248 main_v249 addf,
    unary main_v249 main_v250 Host.rsqrt,
    unary main_v250 main_v251 row,
    unary main_v251 main_v252 overN,
    binary main_v247 main_v252 main_v253 mulf,
    unary main_arg31 main_v254 row,
    unary main_v254 main_v255 overN,
    binary main_v253 main_v255 main_v256 addf,
    nullary main_call7_cst (constant S_ .f32 0x00000000#32),
    unary main_call7_cst main_call7_v0 (broadcastInDim S40000x256 ![] bcast_S_S40000x256),
    binary main_v256 main_call7_v0 main_v257 maximumf ]

abbrev rp12_W : List (Ref sig .tc) :=
  [main_v228, main_v229, main_v230, main_v231, main_cst_35, main_v232, main_cst_36, main_v233, main_v234, main_v235, main_v236, main_v237, main_v238, main_cst_37, main_v239, main_cst_38, main_v240, main_v241, main_v242, main_v243, main_v244, main_v245, main_v246, main_v247, main_cst_39, main_v248, main_v249, main_v250, main_v251, main_v252, main_v253, main_v254, main_v255, main_v256, main_call7_cst, main_call7_v0, main_v257]

abbrev rp13 : List (HloOp τ sig (Elt F)) :=
  [ nary ![main_v125, main_v191, main_v257] main_v258 (fun u => concatenate S40000x768 1 [⟨S40000x256, u 0⟩, ⟨S40000x256, u 1⟩, ⟨S40000x256, u 2⟩] concatenates_S40000x256_S40000x256_S40000x256_S40000x768_d1),
    binary main_v258 main_arg32 main_v259 (fun l r => Host.dotGeneral dot_S40000x768_S768x256_S40000x256_1_0_0_1_n_n none l r),
    unary main_arg33 main_v260 row,
    unary main_v260 main_v261 overN,
    binary main_v259 main_v261 main_v262 addf,
    nullary main_cst_40 (constant S_ .f32 0x00000000#32),
    binary main_v262 main_cst_40 main_v263 colSum,
    nullary main_cst_41 (constant S_ .f32 0x471C4000#32),
    unary main_cst_41 main_v264 all256,
    binary main_v263 main_v264 main_v265 Host.divf,
    unary main_v265 main_v266 row,
    unary main_v266 main_v267 overN,
    binary main_v262 main_v267 main_v268 subf,
    binary main_v268 main_v268 main_v269 mulf,
    nullary main_cst_42 (constant S_ .f32 0x00000000#32),
    binary main_v269 main_cst_42 main_v270 colSum,
    nullary main_cst_43 (constant S_ .f32 0x471C4000#32),
    unary main_cst_43 main_v271 all256,
    binary main_v270 main_v271 main_v272 Host.divf,
    unary main_v265 main_v273 row,
    unary main_v273 main_v274 overN,
    binary main_v262 main_v274 main_v275 subf,
    unary main_arg34 main_v276 row,
    unary main_v276 main_v277 overN,
    binary main_v277 main_v275 main_v278 mulf,
    nullary main_cst_44 (constant S_ .f32 0x3727C5AC#32),
    unary main_cst_44 main_v279 all256,
    binary main_v272 main_v279 main_v280 addf,
    unary main_v280 main_v281 Host.rsqrt,
    unary main_v281 main_v282 row,
    unary main_v282 main_v283 overN,
    binary main_v278 main_v283 main_v284 mulf,
    unary main_arg35 main_v285 row,
    unary main_v285 main_v286 overN,
    binary main_v284 main_v286 main_v287 addf,
    nullary main_call8_cst (constant S_ .f32 0x00000000#32),
    unary main_call8_cst main_call8_v0 (broadcastInDim S40000x256 ![] bcast_S_S40000x256),
    binary main_v287 main_call8_v0 main_v288 maximumf ]

abbrev rp13_W : List (Ref sig .tc) :=
  [main_v258, main_v259, main_v260, main_v261, main_v262, main_cst_40, main_v263, main_cst_41, main_v264, main_v265, main_v266, main_v267, main_v268, main_v269, main_cst_42, main_v270, main_cst_43, main_v271, main_v272, main_v273, main_v274, main_v275, main_v276, main_v277, main_v278, main_cst_44, main_v279, main_v280, main_v281, main_v282, main_v283, main_v284, main_v285, main_v286, main_v287, main_call8_cst, main_call8_v0, main_v288]

end Cert.RV

end
-- ==== Proof.RefRun.lean ====
import proofs.«102128_j53085795779156_1_alg».proof.Proof.RefOps
import Idealize.ShloMosaic.Lib.Pipeline.Frame

noncomputable section

namespace Cert.RV

open Cert.ReferenceIdeal Cert.ReferenceIdeal.Gen Idealize.ShloMosaic Idealize.ShloMosaic.TcCoe Idealize.SL.Sem Idealize.ShloMosaic.StableHlo

section Fold

variable {τ : Topo} {sig : RefSig} {Val : EltTy → Type}

/-- The contents after the first n of the lists ls have run in order from V. -/
def afterN (ls : List (List (HloOp τ sig Val))) (V : Valuation τ sig Val) : ℕ → Valuation τ sig Val
  | 0 => V
  | n + 1 => after (ls.getD n []) (afterN ls V n)

/-- Every operation of l writes a buffer of W. -/
abbrev WritesIn (l : List (HloOp τ sig Val)) (W : List (Ref sig .tc)) : Prop :=
  l.Forall fun op => op.writes ⊆ (W.map (Proc.devRef (τ := τ) .tc)).toFinset

/-- A buffer that the lists a, …, b - 1 do not write holds after b lists what it held after a: one list at a time. -/
theorem afterN_keep {ls : List (List (HloOp τ sig Val))} {Ws : List (List (Ref sig .tc))}
    (hW : ∀ k, WritesIn (ls.getD k []) (Ws.getD k [])) (V : Valuation τ sig Val) (r : Ref sig .tc) {a b : ℕ} (hab : a ≤ b)
    (h : ∀ k, k < b → a ≤ k → r ∉ Ws.getD k []) :
    afterN ls V b (Proc.devRef .tc r) = afterN ls V a (Proc.devRef .tc r) := by
  induction b, hab using Nat.le_induction with
  | base => rfl
  | succ b hb ih =>
    exact (after_of_writes_sub _ _ (hW b) (h b b.lt_succ_self hb)).trans (ih fun k hk => h k (hk.trans b.lt_succ_self))

/-- What the run of a straight line needs of each of its operations. -/
abbrev Ok (l : List (HloOp τ sig Val)) : Prop := ∀ op ∈ l, op.bufs ⊆ tcRefs τ sig ∧ op.fresh = ∅

theorem Ok.app {l₁ l₂ : List (HloOp τ sig Val)} (h₁ : Ok l₁) (h₂ : Ok l₂) : Ok (l₁ ++ l₂) :=
  List.forall_mem_append.mpr ⟨h₁, h₂⟩

end Fold

variable {F : FTy → Type} [FloatOps F]

section
set_option maxRecDepth 8192
set_option maxHeartbeats 4000000
theorem main_part0_eq (c : Dev nD) : main_part0 (F := F) c = seq (rp0 ++ rp1 ++ rp2) := rfl
theorem main_part1_eq (c : Dev nD) : main_part1 (F := F) c = seq (rp3 ++ rp4 ++ rp5) := rfl
theorem main_part2_eq (c : Dev nD) : main_part2 (F := F) c = seq (rp6 ++ rp7) := rfl
theorem main_part3_eq (c : Dev nD) : main_part3 (F := F) c = seq (rp8 ++ rp9 ++ rp10) := rfl
theorem main_part4_eq (c : Dev nD) : main_part4 (F := F) c = seq (rp11 ++ rp12) := rfl
theorem main_part5_eq (c : Dev nD) : main_part5 (F := F) c = seq rp13 := rfl
end

abbrev rpAll : List (HloOp τ sig (Elt F)) :=
  (rp0 ++ rp1 ++ rp2) ++ ((rp3 ++ rp4 ++ rp5) ++ ((rp6 ++ rp7) ++ ((rp8 ++ rp9 ++ rp10) ++ ((rp11 ++ rp12) ++ rp13))))

/-- @main is its six windows in a row, and a window is the straight line of its lists. -/
theorem main_eq (c : Dev nD) : main (F := F) c = seq rpAll := by
  rw [seq_append (rp0 ++ rp1 ++ rp2), seq_append (rp3 ++ rp4 ++ rp5), seq_append (rp6 ++ rp7), seq_append (rp8 ++ rp9 ++ rp10),
    seq_append (rp11 ++ rp12), ← main_part0_eq c, ← main_part1_eq c, ← main_part2_eq c, ← main_part3_eq c, ← main_part4_eq c,
    ← main_part5_eq c]
  rfl

theorem scopedRefs_eq : (Finset.univ.filter fun b : Ref sig .tc => b.isScoped) = ∅ := by decide
theorem scopedSems_eq : (Finset.univ.filter fun sm : SemLoc sig => sm.isScoped .tc) = ∅ := by decide

macro "rv_ok" : tactic => `(tactic| (
  intro _ h
  repeat (cases h with
    | head => exact ⟨by with_reducible first | exact nullary_bufs_sub .. | exact unary_bufs_sub .. | exact binary_bufs_sub .. | exact ternary_bufs_sub .. | exact reshape_bufs_sub .. | exact nary_bufs_sub .., rfl⟩
    | tail _ h => ?_)
  exact nomatch h))

theorem ok0 : Ok (rp0 (F := F)) := by rv_ok
theorem ok1 : Ok (rp1 (F := F)) := by rv_ok
theorem ok2 : Ok (rp2 (F := F)) := by rv_ok
theorem ok3 : Ok (rp3 (F := F)) := by rv_ok
theorem ok4 : Ok (rp4 (F := F)) := by rv_ok
theorem ok5 : Ok (rp5 (F := F)) := by rv_ok
theorem ok6 : Ok (rp6 (F := F)) := by rv_ok
theorem ok7 : Ok (rp7 (F := F)) := by rv_ok
theorem ok8 : Ok (rp8 (F := F)) := by rv_ok
theorem ok9 : Ok (rp9 (F := F)) := by rv_ok
theorem ok10 : Ok (rp10 (F := F)) := by rv_ok
theorem ok11 : Ok (rp11 (F := F)) := by rv_ok
theorem ok12 : Ok (rp12 (F := F)) := by rv_ok
theorem ok13 : Ok (rp13 (F := F)) := by rv_ok

theorem rpAll_ok : Ok (rpAll (F := F)) :=
  ((ok0.app ok1).app ok2).app <| ((ok3.app ok4).app ok5).app <| (ok6.app ok7).app <| ((ok8.app ok9).app ok10).app <|
    (ok11.app ok12).app ok13

macro "rv_writes_in" : tactic => `(tactic| (
  simp only [WritesIn, List.Forall, nullary_writes, unary_writes, binary_writes, ternary_writes, reshape_writes, nary_writes,
    Finset.singleton_subset_iff, List.mem_toFinset]
  repeat' apply And.intro
  all_goals exact List.mem_map_of_mem (by decide)))

section
set_option maxRecDepth 8192
theorem wr0 : WritesIn (rp0 (F := F)) rp0_W := by rv_writes_in
theorem wr1 : WritesIn (rp1 (F := F)) rp1_W := by rv_writes_in
theorem wr2 : WritesIn (rp2 (F := F)) rp2_W := by rv_writes_in
theorem wr3 : WritesIn (rp3 (F := F)) rp3_W := by rv_writes_in
theorem wr4 : WritesIn (rp4 (F := F)) rp4_W := by rv_writes_in
theorem wr5 : WritesIn (rp5 (F := F)) rp5_W := by rv_writes_in
theorem wr6 : WritesIn (rp6 (F := F)) rp6_W := by rv_writes_in
theorem wr7 : WritesIn (rp7 (F := F)) rp7_W := by rv_writes_in
theorem wr8 : WritesIn (rp8 (F := F)) rp8_W := by rv_writes_in
theorem wr9 : WritesIn (rp9 (F := F)) rp9_W := by rv_writes_in
theorem wr10 : WritesIn (rp10 (F := F)) rp10_W := by rv_writes_in
theorem wr11 : WritesIn (rp11 (F := F)) rp11_W := by rv_writes_in
theorem wr12 : WritesIn (rp12 (F := F)) rp12_W := by rv_writes_in
theorem wr13 : WritesIn (rp13 (F := F)) rp13_W := by rv_writes_in
end

abbrev rps : List (List (HloOp τ sig (Elt F))) := [rp0, rp1, rp2, rp3, rp4, rp5, rp6, rp7, rp8, rp9, rp10, rp11, rp12, rp13]
abbrev Ws : List (List (Ref sig .tc)) := [rp0_W, rp1_W, rp2_W, rp3_W, rp4_W, rp5_W, rp6_W, rp7_W, rp8_W, rp9_W, rp10_W, rp11_W, rp12_W, rp13_W]

theorem rps_writes : ∀ k, WritesIn ((rps (F := F)).getD k []) (Ws.getD k [])
  | 0 => wr0
  | 1 => wr1
  | 2 => wr2
  | 3 => wr3
  | 4 => wr4
  | 5 => wr5
  | 6 => wr6
  | 7 => wr7
  | 8 => wr8
  | 9 => wr9
  | 10 => wr10
  | 11 => wr11
  | 12 => wr12
  | 13 => wr13
  | _ + 14 => trivial

variable (m : (ℓ : Loc nD τ sig) → Buf (Elt F) ℓ) (c : Dev nD)

/-- The device's buffer contents after the first n of the fourteen lists, from the launch contents. -/
abbrev R (n : ℕ) : Valuation τ sig (Elt F) := afterN rps (launchContents m c) n

abbrev R14 : Valuation τ sig (Elt F) := R m c 14

theorem after_rpAll : StableHlo.after rpAll (launchContents m c) = R14 m c := by
  simp only [StableHlo.after_append]
  first | rfl | done

theorem R_keep (r : Ref sig .tc) {a b : ℕ} (hab : a ≤ b) (h : ∀ k, k < b → a ≤ k → r ∉ Ws.getD k []) :
    R m c b (Proc.devRef .tc r) = R m c a (Proc.devRef .tc r) :=
  afterN_keep rps_writes _ r hab h

/-- A buffer none of the first n lists writes holds after them what it held at launch. -/
theorem R_arg (r : Ref sig .tc) (n : ℕ) (h : ∀ k, k < n → r ∉ Ws.getD k []) :
    R m c n (Proc.devRef .tc r) = m ((c.tc : Thread nD τ).loc r) :=
  R_keep m c r n.zero_le fun k hk _ => h k hk

set_option maxRecDepth 8192 in
theorem ref_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v288) = R14 m c (Proc.devRef .tc main_v288)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36)
      ∧ r.2.mem ((c.tc : Thread nD τ).loc main_arg37) = m ((c.tc : Thread nD τ).loc main_arg37)
      ∧ r.2.mem ((c.tc : Thread nD τ).loc main_arg38) = m ((c.tc : Thread nD τ).loc main_arg38)
      ∧ r.2.mem ((c.tc : Thread nD τ).loc main_arg39) = m ((c.tc : Thread nD τ).loc main_arg39)
      ∧ r.2.mem ((c.tc : Thread nD τ).loc main_arg40) = m ((c.tc : Thread nD τ).loc main_arg40)
      ∧ r.2.mem ((c.tc : Thread nD τ).loc main_arg41) = m ((c.tc : Thread nD τ).loc main_arg41) :=
  (θ_run defs _ _).mono (fun _ h c => by
      have k := fun (r : Ref sig .tc) hr => (h c r).trans ((congrFun (after_rpAll m c) _).trans (R_arg m c r 14 hr))
      refine ⟨(h c main_v288).trans (congrFun (after_rpAll m c) _), ?_⟩
      repeat' apply And.intro
      all_goals exact k _ (by decide))
    (run_seq scopedRefs_eq scopedSems_eq defs main (fun _ => rpAll) main_eq
      (fun _ => List.forall_iff_forall_mem.mpr fun op h => (rpAll_ok op h).1) m ρ fun _ op h => (rpAll_ok op h).2)

end Cert.RV

end
-- ==== Proof.RefArgs.lean ====
import proofs.«102128_j53085795779156_1_alg».proof.ReferenceIdeal
import proofs.«102128_j53085795779156_1_alg».proof.Proof.Model

noncomputable section

namespace Cert.RV

open Idealize.ShloMosaic Idealize.ShloMosaic.TcCoe Idealize.SL.Sem Cert.ReferenceIdeal

def argsR (m : (ℓ : Loc nD τ sig) → Buf (Elt Ideal) ℓ) (c : Dev nD) : Cert.Model.Args where
  x := m ((c.tc : Thread nD τ).loc main_arg0)
  upA := m ((c.tc : Thread nD τ).loc main_arg1)
  dnA := m ((c.tc : Thread nD τ).loc main_arg2)
  bA := m ((c.tc : Thread nD τ).loc main_arg3)
  Wmu := m ((c.tc : Thread nD τ).loc main_arg4)
  bmu := m ((c.tc : Thread nD τ).loc main_arg5)
  Wmd := m ((c.tc : Thread nD τ).loc main_arg6)
  bmd := m ((c.tc : Thread nD τ).loc main_arg7)
  W1u := m ((c.tc : Thread nD τ).loc main_arg8)
  b1u := m ((c.tc : Thread nD τ).loc main_arg9)
  g1u := m ((c.tc : Thread nD τ).loc main_arg10)
  c1u := m ((c.tc : Thread nD τ).loc main_arg11)
  W2u := m ((c.tc : Thread nD τ).loc main_arg12)
  b2u := m ((c.tc : Thread nD τ).loc main_arg13)
  g2u := m ((c.tc : Thread nD τ).loc main_arg14)
  c2u := m ((c.tc : Thread nD τ).loc main_arg15)
  W1d := m ((c.tc : Thread nD τ).loc main_arg16)
  b1d := m ((c.tc : Thread nD τ).loc main_arg17)
  g1d := m ((c.tc : Thread nD τ).loc main_arg18)
  c1d := m ((c.tc : Thread nD τ).loc main_arg19)
  W2d := m ((c.tc : Thread nD τ).loc main_arg20)
  b2d := m ((c.tc : Thread nD τ).loc main_arg21)
  g2d := m ((c.tc : Thread nD τ).loc main_arg22)
  c2d := m ((c.tc : Thread nD τ).loc main_arg23)
  W1b := m ((c.tc : Thread nD τ).loc main_arg24)
  b1b := m ((c.tc : Thread nD τ).loc main_arg25)
  g1b := m ((c.tc : Thread nD τ).loc main_arg26)
  c1b := m ((c.tc : Thread nD τ).loc main_arg27)
  W2b := m ((c.tc : Thread nD τ).loc main_arg28)
  b2b := m ((c.tc : Thread nD τ).loc main_arg29)
  g2b := m ((c.tc : Thread nD τ).loc main_arg30)
  c2b := m ((c.tc : Thread nD τ).loc main_arg31)
  Wc := m ((c.tc : Thread nD τ).loc main_arg32)
  bc := m ((c.tc : Thread nD τ).loc main_arg33)
  gc := m ((c.tc : Thread nD τ).loc main_arg34)
  cc := m ((c.tc : Thread nD τ).loc main_arg35)
  eps1 := m ((c.tc : Thread nD τ).loc main_arg36)
  eps2 := m ((c.tc : Thread nD τ).loc main_arg37)
  eps3 := m ((c.tc : Thread nD τ).loc main_arg38)
  upI := m ((c.tc : Thread nD τ).loc main_arg39)
  dnI := m ((c.tc : Thread nD τ).loc main_arg40)
  bI := m ((c.tc : Thread nD τ).loc main_arg41)

end Cert.RV

end
-- ==== Proof.RefLemmas.lean ====
import proofs.«102128_j53085795779156_1_alg».proof.Proof.Gen.ReferenceIdeal
import proofs.«102128_j53085795779156_1_alg».proof.Proof.Model
import proofs.«102128_j53085795779156_1_alg».proof.Proof.HostForms
import proofs.«102128_j53085795779156_1_alg».proof.Proof.Combine
import Idealize.ShloMosaic.Lib.ValueIdx

set_option maxRecDepth 16384

noncomputable section

namespace Cert.RV.Chain

open Cert.ReferenceIdeal Cert.ReferenceIdeal.Gen Idealize.ShloMosaic Idealize.ShloMosaic.ValueIdx

/-- The message layer as the reference spells it, summed into the target nodes. -/
theorem ref_aggE (i : IVec S200000 32) (X A : FVec Ideal S200000x256 .f32) (Wx Wa : FVec Ideal S256x256 .f32) (b : FVec Ideal S256 .f32) :
    Cert.Model.segE i (maximumf (addf (addf (Host.dotGeneral dot_S200000x256_S256x256_S200000x256_1_0_0_1_n_n none X Wx) (Host.dotGeneral dot_S200000x256_S256x256_S200000x256_1_0_0_1_n_n none A Wa)) (broadcastInDim S200000x256 ![0, 1] bcast_S1x256_S200000x256_0_1 (broadcastInDim S1x256 ![1] bcast_S256_S1x256_1 b))) (broadcastInDim S200000x256 ![] bcast_S_S200000x256 (constant (F := Ideal) S_ .f32 0x00000000#32)))
      = Cert.Model.segE i (Cert.Spec.msgArr X A Wx Wa b) := by
  rw [Cert.HostForms.host_msg_eq _ rfl rfl rfl rfl rfl rfl]

/-- A row of 256 entries laid out over the 40000 nodes. -/
abbrev rowsN (v : FVec Ideal S256 .f32) : FVec Ideal S40000x256 .f32 :=
  broadcastInDim S40000x256 ![0, 1] bcast_S1x256_S40000x256_0_1 (broadcastInDim S1x256 ![1] bcast_S256_S1x256_1 v)

/-- The column means over the 40000 nodes: the column sums divided by 40000. -/
abbrev colMean (Y : FVec Ideal S40000x256 .f32) : FVec Ideal S256 .f32 :=
  Host.divf (Host.reduceAdd Y (constant (F := Ideal) S_ .f32 0x00000000#32) reducesTo_S40000x256_S256_d0 h_S_) (broadcastInDim S256 ![] bcast_S_S256 (constant (F := Ideal) S_ .f32 0x471C4000#32))

/-- The normalisation over the nodes with the column means and biased variances spelt out, then the rectifier. -/
abbrev hostBn (Y : FVec Ideal S40000x256 .f32) (g c : FVec Ideal S256 .f32) : FVec Ideal S40000x256 .f32 :=
  maximumf (addf (mulf (mulf (rowsN g) (subf Y (rowsN (colMean Y)))) (rowsN (Host.rsqrt (addf (colMean (mulf (subf Y (rowsN (colMean Y))) (subf Y (rowsN (colMean Y))))) (broadcastInDim S256 ![] bcast_S_S256 (constant (F := Ideal) S_ .f32 0x3727C5AC#32)))))) (rowsN c)) (broadcastInDim S40000x256 ![] bcast_S_S40000x256 (constant (F := Ideal) S_ .f32 0x00000000#32))

theorem ref_linbn (H : FVec Ideal S40000x256 .f32) (W : FVec Ideal S256x256 .f32) (b g c : FVec Ideal S256 .f32) :
    hostBn (addf (Host.dotGeneral dot_S40000x256_S256x256_S40000x256_1_0_0_1_n_n none H W) (rowsN b)) g c
      = Cert.Model.hidden (Cert.Spec.linArr H W b) g c := by
  rw [Cert.HostForms.host_lin_eq _ rfl rfl rfl rfl rfl rfl]
  exact Cert.HostForms.host_bn_eq _ _ _ _ _ _ _ g c

def pre3 (hu hd hb : FVec Ideal Cert.Model.SN .f32) (Wc : FVec Ideal Cert.Model.S768x256 .f32)
    (bc : FVec Ideal Cert.Model.S256 .f32) : FVec Ideal Cert.Model.SN .f32 := fun i =>
  ((Cert.Spec.dot hu (Cert.Model.third0 Wc) (i 0) (i 1) + Cert.Spec.dot hd (Cert.Model.third1 Wc) (i 0) (i 1))
      + Cert.Spec.dot hb (Cert.Model.third2 Wc) (i 0) (i 1))
    + bc (ix1 (i 1))

theorem ref_pre (hu hd hb : FVec Ideal S40000x256 .f32) (Wc : FVec Ideal S768x256 .f32) (bc : FVec Ideal S256 .f32) :
    addf (Host.dotGeneral dot_S40000x768_S768x256_S40000x256_1_0_0_1_n_n none
        (concatenate S40000x768 1 [⟨S40000x256, hu⟩, ⟨S40000x256, hd⟩, ⟨S40000x256, hb⟩]
          concatenates_S40000x256_S40000x256_S40000x256_S40000x768_d1) Wc) (rowsN bc)
      = pre3 hu hd hb Wc bc := by
  funext i
  obtain ⟨r, k, rfl⟩ : ∃ (r : Fin 40000) (k : Fin 256), i = ix2 r k := ⟨i 0, i 1, eq_ix2 i⟩
  exact Cert.Combine.ref_combine_apply Cert.Model.sl768a Cert.Model.sl768b Cert.Model.sl768c
    bcast_S256_S1x256_1 bcast_S1x256_S40000x256_0_1 dot_S40000x768_S768x256_S40000x256_1_0_0_1_n_n rfl rfl rfl rfl rfl rfl
    concatenates_S40000x256_S40000x256_S40000x256_S40000x768_d1 hu hd hb Wc bc r k

theorem ref_out (hu hd hb : FVec Ideal S40000x256 .f32) (Wc : FVec Ideal S768x256 .f32) (bc gc cc : FVec Ideal S256 .f32) :
    hostBn (addf (Host.dotGeneral dot_S40000x768_S768x256_S40000x256_1_0_0_1_n_n none
        (concatenate S40000x768 1 [⟨S40000x256, hu⟩, ⟨S40000x256, hd⟩, ⟨S40000x256, hb⟩]
          concatenates_S40000x256_S40000x256_S40000x256_S40000x768_d1) Wc) (rowsN bc)) gc cc
      = Cert.Model.hidden (pre3 hu hd hb Wc bc) gc cc := by
  rw [ref_pre hu hd hb Wc bc]
  exact Cert.HostForms.host_bn_eq _ _ _ _ _ _ _ gc cc

end Cert.RV.Chain

end
-- ==== Proof.LibNary3.lean ====
import Idealize.ShloMosaic.Lib.StableHlo.Run

noncomputable section

namespace Idealize.ShloMosaic.StableHlo

variable {nD : Nat} {τ : Topo} {sig : RefSig} {Val : EltTy → Type}

theorem nary3_result' {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) := by
  rw [nary_result]; congr 1; funext k; fin_cases k <;> rfl

end Idealize.ShloMosaic.StableHlo

end
-- ==== Proof.RefChainD.lean ====
import proofs.«102128_j53085795779156_1_alg».proof.Proof.RefRun
import proofs.«102128_j53085795779156_1_alg».proof.Proof.RefArgs
import proofs.«102128_j53085795779156_1_alg».proof.Proof.RefLemmas

set_option maxRecDepth 16384

noncomputable section

namespace Cert.RV

open Cert.ReferenceIdeal Cert.ReferenceIdeal.Gen Idealize.ShloMosaic Idealize.ShloMosaic.ValueIdx Idealize.ShloMosaic.TcCoe Idealize.SL.Sem Idealize.ShloMosaic.StableHlo

namespace Chain

section
set_option maxHeartbeats 16000000

theorem s_n1D (V : Valuation τ sig (Elt Ideal)) :
    StableHlo.after rp8 (StableHlo.after rp7 V) main_v161
      = Cert.Model.hidden (Cert.Spec.linArr (Cert.Model.scaleAdd (V main_v45) (V main_arg37) (V main_arg0)) (V main_arg16) (V main_arg17)) (V main_arg18) (V main_arg19) := by
  refine Eq.trans ?_ (ref_linbn _ _ _ _ _)
  dsimp only [rp7, rp8]
  after_results_simp <;> rfl

theorem s_hD (V : Valuation τ sig (Elt Ideal)) :
    StableHlo.after rp9 V main_v191
      = Cert.Model.hidden (Cert.Spec.linArr (V main_v161) (V main_arg20) (V main_arg21)) (V main_arg22) (V main_arg23) := by
  refine Eq.trans ?_ (ref_linbn _ _ _ _ _)
  dsimp only [rp9]
  after_results_simp <;> rfl

end

end Chain

variable (m : (ℓ : Loc nD τ sig) → Buf (Elt Ideal) ℓ) (c : Dev nD)

/-- The down branch: the summed messages carried to the list that reads them, then its two layers. -/
theorem r_hD (hagg : R m c 2 main_v45 = Cert.Model.segE (Cert.Model.rowE1 (argsR m c).dnI) (Cert.Model.msgD (argsR m c))) :
    R m c 10 main_v191 = Cert.Model.hD (argsR m c) := by
  rw [show R m c 10 main_v191 = _ from Chain.s_hD (R m c 9), show R m c 9 main_v161 = _ from Chain.s_n1D (R m c 7),
    R_keep m c main_v45 (by decide : 2 ≤ 7) (by decide), hagg, R_arg m c main_arg37 7 (by decide), R_arg m c main_arg0 7 (by decide),
    R_arg m c main_arg16 7 (by decide), R_arg m c main_arg17 7 (by decide), R_arg m c main_arg18 7 (by decide), R_arg m c main_arg19 7 (by decide),
    R_arg m c main_arg20 9 (by decide), R_arg m c main_arg21 9 (by decide), R_arg m c main_arg22 9 (by decide), R_arg m c main_arg23 9 (by decide)] <;> rfl

end Cert.RV

end
-- ==== Proof.RefChainB.lean ====
import proofs.«102128_j53085795779156_1_alg».proof.Proof.RefRun
import proofs.«102128_j53085795779156_1_alg».proof.Proof.RefArgs
import proofs.«102128_j53085795779156_1_alg».proof.Proof.RefLemmas

set_option maxRecDepth 16384

noncomputable section

namespace Cert.RV

open Cert.ReferenceIdeal Cert.ReferenceIdeal.Gen Idealize.ShloMosaic Idealize.ShloMosaic.ValueIdx Idealize.ShloMosaic.TcCoe Idealize.SL.Sem Idealize.ShloMosaic.StableHlo

namespace Chain

section
set_option maxHeartbeats 16000000

theorem s_n1B (V : Valuation τ sig (Elt Ideal)) :
    StableHlo.after rp11 (StableHlo.after rp10 V) main_v227
      = Cert.Model.hidden (Cert.Spec.linArr (Cert.Model.scaleAdd (V main_v59) (V main_arg38) (V main_arg0)) (V main_arg24) (V main_arg25)) (V main_arg26) (V main_arg27) := by
  refine Eq.trans ?_ (ref_linbn _ _ _ _ _)
  dsimp only [rp10, rp11]
  after_results_simp <;> rfl

theorem s_hB (V : Valuation τ sig (Elt Ideal)) :
    StableHlo.after rp12 V main_v257
      = Cert.Model.hidden (Cert.Spec.linArr (V main_v227) (V main_arg28) (V main_arg29)) (V main_arg30) (V main_arg31) := by
  refine Eq.trans ?_ (ref_linbn _ _ _ _ _)
  dsimp only [rp12]
  after_results_simp <;> rfl

end

end Chain

variable (m : (ℓ : Loc nD τ sig) → Buf (Elt Ideal) ℓ) (c : Dev nD)

/-- The boundary branch: the summed rows carried to the list that reads them, then its two layers. -/
theorem r_hB (hagg : R m c 4 main_v59 = Cert.Model.segB (Cert.Model.rowB1 (argsR m c).bI) (Cert.Model.xB (argsR m c))) :
    R m c 13 main_v257 = Cert.Model.hB (argsR m c) := by
  rw [show R m c 13 main_v257 = _ from Chain.s_hB (R m c 12), show R m c 12 main_v227 = _ from Chain.s_n1B (R m c 10),
    R_keep m c main_v59 (by decide : 4 ≤ 10) (by decide), hagg, R_arg m c main_arg38 10 (by decide), R_arg m c main_arg0 10 (by decide),
    R_arg m c main_arg24 10 (by decide), R_arg m c main_arg25 10 (by decide), R_arg m c main_arg26 10 (by decide), R_arg m c main_arg27 10 (by decide),
    R_arg m c main_arg28 12 (by decide), R_arg m c main_arg29 12 (by decide), R_arg m c main_arg30 12 (by decide), R_arg m c main_arg31 12 (by decide)] <;> rfl

end Cert.RV

end
-- ==== Proof.RefChain.lean ====
import proofs.«102128_j53085795779156_1_alg».proof.Proof.RefRun
import proofs.«102128_j53085795779156_1_alg».proof.Proof.RefArgs
import proofs.«102128_j53085795779156_1_alg».proof.Proof.RefLemmas
import proofs.«102128_j53085795779156_1_alg».proof.Proof.LibNary3
import proofs.«102128_j53085795779156_1_alg».proof.Proof.RefChainD
import proofs.«102128_j53085795779156_1_alg».proof.Proof.RefChainB

set_option maxRecDepth 16384

noncomputable section

namespace Cert.RV

open Cert.ReferenceIdeal Cert.ReferenceIdeal.Gen Idealize.ShloMosaic Idealize.ShloMosaic.ValueIdx Idealize.ShloMosaic.TcCoe Idealize.SL.Sem Idealize.ShloMosaic.StableHlo

namespace Chain

section
set_option maxHeartbeats 16000000

theorem s_aggU (V : Valuation τ sig (Elt Ideal)) :
    StableHlo.after rp0 V main_v22
      = Cert.Model.segE (Cert.Model.rowE1 (V main_arg39)) (Cert.Spec.msgArr (Cert.Model.gatherE (V main_arg0) (Cert.Model.wrapE 40000#32 (Cert.Model.rowE0 (V main_arg39)))) (V main_arg1) (Cert.Model.top (V main_arg4)) (Cert.Model.bot (V main_arg4)) (V main_arg5)) := by
  refine Eq.trans ?_ (ref_aggE _ _ _ _ _ _)
  dsimp only [rp0]
  after_results_simp <;> rfl

theorem s_aggD (V : Valuation τ sig (Elt Ideal)) :
    StableHlo.after rp1 V main_v45
      = Cert.Model.segE (Cert.Model.rowE1 (V main_arg40)) (Cert.Spec.msgArr (Cert.Model.gatherE (V main_arg0) (Cert.Model.wrapE 40000#32 (Cert.Model.rowE0 (V main_arg40)))) (V main_arg2) (Cert.Model.top (V main_arg6)) (Cert.Model.bot (V main_arg6)) (V main_arg7)) := by
  refine Eq.trans ?_ (ref_aggE _ _ _ _ _ _)
  dsimp only [rp1]
  after_results_simp <;> rfl

theorem s_aggB (V : Valuation τ sig (Elt Ideal)) :
    StableHlo.after rp3 (StableHlo.after rp2 V) main_v59
      = Cert.Model.segB (Cert.Model.rowB1 (V main_arg41)) (Cert.Model.gatherB (V main_arg3) (Cert.Model.wrapB 60000#32 (Cert.Model.rowB0 (V main_arg41)))) := by
  dsimp only [rp2, rp3]
  after_results_simp <;> rfl

theorem s_n1U (V : Valuation τ sig (Elt Ideal)) :
    StableHlo.after rp4 V main_v95
      = Cert.Model.hidden (Cert.Spec.linArr (Cert.Model.scaleAdd (V main_v22) (V main_arg36) (V main_arg0)) (V main_arg8) (V main_arg9)) (V main_arg10) (V main_arg11) := by
  refine Eq.trans ?_ (ref_linbn _ _ _ _ _)
  dsimp only [rp4]
  after_results_simp <;> rfl

theorem s_hU (V : Valuation τ sig (Elt Ideal)) :
    StableHlo.after rp6 (StableHlo.after rp5 V) main_v125
      = Cert.Model.hidden (Cert.Spec.linArr (V main_v95) (V main_arg12) (V main_arg13)) (V main_arg14) (V main_arg15) := by
  refine Eq.trans ?_ (ref_linbn _ _ _ _ _)
  dsimp only [rp5, rp6]
  after_results_simp <;> rfl

macro "results_join3" : tactic =>
  `(tactic| (simp (disch := decide) only [after_cons, after_nil,
      nullary_result', unary_result', binary_result', ternary_result', reshape_result', nary3_result',
      nullary_result_ne', unary_result_ne', binary_result_ne', ternary_result_ne', reshape_result_ne',
      nary_result_ne']))

theorem s_out (V : Valuation τ sig (Elt Ideal)) :
    StableHlo.after rp13 V main_v288
      = Cert.Model.hidden (pre3 (V main_v125) (V main_v191) (V main_v257) (V main_arg32) (V main_arg33)) (V main_arg34) (V main_arg35) := by
  refine Eq.trans ?_ (ref_out _ _ _ _ _ _ _)
  dsimp only [rp13]
  results_join3 <;> rfl

end

end Chain

variable (m : (ℓ : Loc nD τ sig) → Buf (Elt Ideal) ℓ) (c : Dev nD)

theorem r_aggU : R m c 1 main_v22 = Cert.Model.segE (Cert.Model.rowE1 (argsR m c).upI) (Cert.Model.msgU (argsR m c)) :=
  Chain.s_aggU (R m c 0)

theorem r_aggD : R m c 2 main_v45 = Cert.Model.segE (Cert.Model.rowE1 (argsR m c).dnI) (Cert.Model.msgD (argsR m c)) := by
  rw [show R m c 2 main_v45 = _ from Chain.s_aggD (R m c 1), R_arg m c main_arg40 1 (by decide), R_arg m c main_arg0 1 (by decide),
    R_arg m c main_arg6 1 (by decide), R_arg m c main_arg2 1 (by decide), R_arg m c main_arg7 1 (by decide)] <;> rfl

theorem r_aggB : R m c 4 main_v59 = Cert.Model.segB (Cert.Model.rowB1 (argsR m c).bI) (Cert.Model.xB (argsR m c)) := by
  rw [show R m c 4 main_v59 = _ from Chain.s_aggB (R m c 2), R_arg m c main_arg41 2 (by decide), R_arg m c main_arg3 2 (by decide)] <;> rfl

/-- The up branch: the summed messages carried to the list that reads them, then its two layers. -/
theorem r_hU : R m c 7 main_v125 = Cert.Model.hU (argsR m c) := by
  rw [show R m c 7 main_v125 = _ from Chain.s_hU (R m c 5), show R m c 5 main_v95 = _ from Chain.s_n1U (R m c 4),
    R_keep m c main_v22 (by decide : 1 ≤ 4) (by decide), r_aggU m c, R_arg m c main_arg36 4 (by decide), R_arg m c main_arg0 4 (by decide),
    R_arg m c main_arg8 4 (by decide), R_arg m c main_arg9 4 (by decide), R_arg m c main_arg10 4 (by decide), R_arg m c main_arg11 4 (by decide),
    R_arg m c main_arg12 5 (by decide), R_arg m c main_arg13 5 (by decide), R_arg m c main_arg14 5 (by decide), R_arg m c main_arg15 5 (by decide)] <;> rfl

/-- The reference's result buffer holds the network's result of the launch arrays. -/
theorem ref_value : R14 m c (Proc.devRef .tc main_v288) = Cert.Model.out (argsR m c) := by
  rw [show R14 m c (Proc.devRef .tc main_v288) = _ from Chain.s_out (R m c 13),
    R_keep m c main_v125 (by decide : 7 ≤ 13) (by decide), r_hU m c, R_keep m c main_v191 (by decide : 10 ≤ 13) (by decide),
    r_hD m c (r_aggD m c), r_hB m c (r_aggB m c), R_arg m c main_arg32 13 (by decide), R_arg m c main_arg33 13 (by decide),
    R_arg m c main_arg34 13 (by decide), R_arg m c main_arg35 13 (by decide)] <;> rfl

end Cert.RV

end
-- ==== Proof.lean ====
import proofs.«102128_j53085795779156_1_alg».proof.Defs
import proofs.«102128_j53085795779156_1_alg».proof.Proof.Gen.Kernel
import proofs.«102128_j53085795779156_1_alg».proof.Proof.Gen.Kernel.Frame
import proofs.«102128_j53085795779156_1_alg».proof.Proof.Gen.KernelIdeal
import proofs.«102128_j53085795779156_1_alg».proof.Proof.Gen.KernelIdeal.Frame
import proofs.«102128_j53085795779156_1_alg».proof.Proof.Gen.ReferenceIdeal
import proofs.«102128_j53085795779156_1_alg».proof.Proof.Gen.Pre_finite_inputs
import proofs.«102128_j53085795779156_1_alg».proof.Proof.KRun
import proofs.«102128_j53085795779156_1_alg».proof.Proof.KValue
import proofs.«102128_j53085795779156_1_alg».proof.Proof.RefRun
import proofs.«102128_j53085795779156_1_alg».proof.Proof.RefChain
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.RV.ref_run (F := Ideal) m ρ)

theorem preserves : Cert.preserves_Kernel_KernelIdeal := trivial

set_option maxHeartbeats 8000000 in
/-- Both programs end with `Cert.Model.out` of their argument arrays, and the arrays agree. -/
theorem algebraic : Cert.algebraic_KernelIdeal_ReferenceIdeal := by
  intro m ρ m' ρ' hpre hagree
  refine ⟨fun c => Cert.Model.out (Cert.KV.argsK m c), ?_, ?_⟩
  · exact (θ_run Cert.KernelIdeal.defs _ _).mono
      (fun _ h c => ⟨(h c).1.trans (Cert.KV.k_value m ρ c hpre), (h c).2⟩) (Cert.KV.run_value (F := Ideal) m ρ)
  · refine (θ_run Cert.ReferenceIdeal.defs _ _).mono (fun _ h c => ⟨(h c).1.trans ?_, (h c).2⟩)
      (Cert.RV.ref_run (F := Ideal) m' ρ')
    have hargs : Cert.RV.argsR m' c = Cert.KV.argsK m c := by
      obtain ⟨h0, h1, h2, h3, h4, h5, h6, h7, h8, h9, h10, h11, h12, h13, h14, h15, h16, h17, h18, h19, h20, h21, h22, h23, h24, h25, h26, h27, h28, h29, h30, h31, h32, h33, h34, h35, h36, h37, h38, h39, h40, h41⟩ := hagree c
      unfold Cert.RV.argsR Cert.KV.argsK
      rw [h0, h1, h2, h3, h4, h5, h6, h7, h8, h9, h10, h11, h12, h13, h14, h15, h16, h17, h18, h19, h20, h21, h22, h23, h24, h25, h26, h27, h28, h29, h30, h31, h32, h33, h34, h35, h36, h37, h38, h39, h40, h41]
    exact (Cert.RV.ref_value m' c).trans (congrArg Cert.Model.out hargs)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
